-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x4x128 : Shape := ⟨3, ![1024, 4, 128]⟩
abbrev S_ : Shape := ⟨0, ![]⟩

class Facts : Prop where
  bcast_S_S1024x4x128 : S_.BroadcastsInDim S1024x4x128 (![] : Fin 0 → Fin S1024x4x128.rank)
  reducesTo_S1024x4x128_S_d0_1_2 : S1024x4x128.ReducesTo [0, 1, 2] S_
  h_S_ : 0 < S_.numel

variable [Facts]

def fn {F : FTy → Type} [FloatOps F] (main_arg0 : IVec S1024x4x128 32) : IVec S_ 1 :=
  let main_c : IVec S_ 32 := constantI S_ 32 0#32
  let main_v0 : IVec S1024x4x128 32 := broadcastInDim S1024x4x128 ![] bcast_S_S1024x4x128 main_c
  let main_v1 : IVec S1024x4x128 1 := cmpi .sge main_arg0 main_v0
  let main_c_0 : IVec S_ 32 := constantI S_ 32 63#32
  let main_v2 : IVec S1024x4x128 32 := broadcastInDim S1024x4x128 ![] bcast_S_S1024x4x128 main_c_0
  let main_v3 : IVec S1024x4x128 1 := cmpi .sle main_arg0 main_v2
  let main_v4 : IVec S1024x4x128 1 := andi main_v1 main_v3
  let main_c_1 : IVec S_ 1 := constantI S_ 1 1#1
  let main_v5 : IVec S_ 1 := (fun x v => Host.reduce IntOp.andi x v reducesTo_S1024x4x128_S_d0_1_2 h_S_) main_v4 main_c_1
  main_v5
-- ==== Kernel.lean ====
abbrev S1024x4x128 : Shape := ⟨3, ![1024, 4, 128]⟩
abbrev S524288 : Shape := ⟨1, ![524288]⟩
abbrev S_ : Shape := ⟨0, ![]⟩
abbrev S32768 : Shape := ⟨1, ![32768]⟩
abbrev S1024x32768 : Shape := ⟨2, ![1024, 32768]⟩
abbrev S16384 : Shape := ⟨1, ![16384]⟩
abbrev S16 : Shape := ⟨1, ![16]⟩
abbrev S1x32768 : Shape := ⟨2, ![1, 32768]⟩
abbrev S1024x128x256 : Shape := ⟨3, ![1024, 128, 256]⟩

abbrev nBuf : Table → Nat
  | .hbm => 6
  | .local .scVector .vmem => 3
  | _ => 0

abbrev bufTy : (tb : Table) → Fin (nBuf tb) → BufTy
  | .hbm, ⟨0, _⟩ => ⟨S1024x4x128, .i32⟩
  | .hbm, ⟨1, _⟩ => ⟨S524288, .i32⟩
  | .hbm, ⟨2, _⟩ => ⟨S_, .f32⟩
  | .hbm, ⟨3, _⟩ => ⟨S32768, .f32⟩
  | .hbm, ⟨4, _⟩ => ⟨S1024x32768, .f32⟩
  | .hbm, ⟨5, _⟩ => ⟨S1024x128x256, .f32⟩
  | .local .scVector .vmem, ⟨0, _⟩ => ⟨S16384, .i32⟩
  | .local .scVector .vmem, ⟨1, _⟩ => ⟨S32768, .f32⟩
  | .local .scVector .vmem, ⟨2, _⟩ => ⟨S32768, .f32⟩
  | _, _ => ⟨S1024x4x128, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 1, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c512_i32 : BitVec 32 := 512#32
  let v3 : BitVec 32 := Scalar.muli v2 c512_i32
  ![v3.toNat]

def k0_chk1 (v16 : IVec S16 32) : Prop :=
  (∀ a x, ((![v16] : Fin 1 → IVec S16 32) a x).toNat < S32768.size a)
instance k0_chk1.dec : ∀ (v16 : IVec S16 32), Decidable (k0_chk1 v16) := fun v16 => decidable_of_iff' _ (Iff.of_eq (k0_chk1.eq_1 v16))
theorem k0_idx1_inb : ∀ (v16 : IVec S16 32) (k0_hw1 : k0_chk1 v16), ∀ a x, ((![v16] : Fin 1 → IVec S16 32) a x).toNat < S32768.size a := fun v16 k0_hw1 => k0_hw1

def k0_chk2 (v20 : IVec S16 32) : Prop :=
  (∀ a x, ((![v20] : Fin 1 → IVec S16 32) a x).toNat < S32768.size a)
instance k0_chk2.dec : ∀ (v20 : IVec S16 32), Decidable (k0_chk2 v20) := fun v20 => decidable_of_iff' _ (Iff.of_eq (k0_chk2.eq_1 v20))
theorem k0_idx2_inb : ∀ (v20 : IVec S16 32) (k0_hw2 : k0_chk2 v20), ∀ a x, ((![v20] : Fin 1 → IVec S16 32) a x).toNat < S32768.size a := fun v20 k0_hw2 => k0_hw2

def k0_chk3 (v24 : IVec S16 32) : Prop :=
  (∀ a x, ((![v24] : Fin 1 → IVec S16 32) a x).toNat < S32768.size a)
instance k0_chk3.dec : ∀ (v24 : IVec S16 32), Decidable (k0_chk3 v24) := fun v24 => decidable_of_iff' _ (Iff.of_eq (k0_chk3.eq_1 v24))
theorem k0_idx3_inb : ∀ (v24 : IVec S16 32) (k0_hw3 : k0_chk3 v24), ∀ a x, ((![v24] : Fin 1 → IVec S16 32) a x).toNat < S32768.size a := fun v24 k0_hw3 => k0_hw3

def k0_chk4 (v28 : IVec S16 32) : Prop :=
  (∀ a x, ((![v28] : Fin 1 → IVec S16 32) a x).toNat < S32768.size a)
instance k0_chk4.dec : ∀ (v28 : IVec S16 32), Decidable (k0_chk4 v28) := fun v28 => decidable_of_iff' _ (Iff.of_eq (k0_chk4.eq_1 v28))
theorem k0_idx4_inb : ∀ (v28 : IVec S16 32) (k0_hw4 : k0_chk4 v28), ∀ a x, ((![v28] : Fin 1 → IVec S16 32) a x).toNat < S32768.size a := fun v28 k0_hw4 => k0_hw4

def k0_chk5 (v32 : IVec S16 32) : Prop :=
  (∀ a x, ((![v32] : Fin 1 → IVec S16 32) a x).toNat < S32768.size a)
instance k0_chk5.dec : ∀ (v32 : IVec S16 32), Decidable (k0_chk5 v32) := fun v32 => decidable_of_iff' _ (Iff.of_eq (k0_chk5.eq_1 v32))
theorem k0_idx5_inb : ∀ (v32 : IVec S16 32) (k0_hw5 : k0_chk5 v32), ∀ a x, ((![v32] : Fin 1 → IVec S16 32) a x).toNat < S32768.size a := fun v32 k0_hw5 => k0_hw5

def k0_chk6 (v36 : IVec S16 32) : Prop :=
  (∀ a x, ((![v36] : Fin 1 → IVec S16 32) a x).toNat < S32768.size a)
instance k0_chk6.dec : ∀ (v36 : IVec S16 32), Decidable (k0_chk6 v36) := fun v36 => decidable_of_iff' _ (Iff.of_eq (k0_chk6.eq_1 v36))
theorem k0_idx6_inb : ∀ (v36 : IVec S16 32) (k0_hw6 : k0_chk6 v36), ∀ a x, ((![v36] : Fin 1 → IVec S16 32) a x).toNat < S32768.size a := fun v36 k0_hw6 => k0_hw6

def k0_chk7 (v40 : IVec S16 32) : Prop :=
  (∀ a x, ((![v40] : Fin 1 → IVec S16 32) a x).toNat < S32768.size a)
instance k0_chk7.dec : ∀ (v40 : IVec S16 32), Decidable (k0_chk7 v40) := fun v40 => decidable_of_iff' _ (Iff.of_eq (k0_chk7.eq_1 v40))
theorem k0_idx7_inb : ∀ (v40 : IVec S16 32) (k0_hw7 : k0_chk7 v40), ∀ a x, ((![v40] : Fin 1 → IVec S16 32) a x).toNat < S32768.size a := fun v40 k0_hw7 => k0_hw7

def k0_chk8 (v44 : IVec S16 32) : Prop :=
  (∀ a x, ((![v44] : Fin 1 → IVec S16 32) a x).toNat < S32768.size a)
instance k0_chk8.dec : ∀ (v44 : IVec S16 32), Decidable (k0_chk8 v44) := fun v44 => decidable_of_iff' _ (Iff.of_eq (k0_chk8.eq_1 v44))
theorem k0_idx8_inb : ∀ (v44 : IVec S16 32) (k0_hw8 : k0_chk8 v44), ∀ a x, ((![v44] : Fin 1 → IVec S16 32) a x).toNat < S32768.size a := fun v44 k0_hw8 => k0_hw8

def k0_chk9 (v48 : IVec S16 32) : Prop :=
  (∀ a x, ((![v48] : Fin 1 → IVec S16 32) a x).toNat < S32768.size a)
instance k0_chk9.dec : ∀ (v48 : IVec S16 32), Decidable (k0_chk9 v48) := fun v48 => decidable_of_iff' _ (Iff.of_eq (k0_chk9.eq_1 v48))
theorem k0_idx9_inb : ∀ (v48 : IVec S16 32) (k0_hw9 : k0_chk9 v48), ∀ a x, ((![v48] : Fin 1 → IVec S16 32) a x).toNat < S32768.size a := fun v48 k0_hw9 => k0_hw9

def k0_chk10 (v52 : IVec S16 32) : Prop :=
  (∀ a x, ((![v52] : Fin 1 → IVec S16 32) a x).toNat < S32768.size a)
instance k0_chk10.dec : ∀ (v52 : IVec S16 32), Decidable (k0_chk10 v52) := fun v52 => decidable_of_iff' _ (Iff.of_eq (k0_chk10.eq_1 v52))
theorem k0_idx10_inb : ∀ (v52 : IVec S16 32) (k0_hw10 : k0_chk10 v52), ∀ a x, ((![v52] : Fin 1 → IVec S16 32) a x).toNat < S32768.size a := fun v52 k0_hw10 => k0_hw10

def k0_chk11 (v56 : IVec S16 32) : Prop :=
  (∀ a x, ((![v56] : Fin 1 → IVec S16 32) a x).toNat < S32768.size a)
instance k0_chk11.dec : ∀ (v56 : IVec S16 32), Decidable (k0_chk11 v56) := fun v56 => decidable_of_iff' _ (Iff.of_eq (k0_chk11.eq_1 v56))
theorem k0_idx11_inb : ∀ (v56 : IVec S16 32) (k0_hw11 : k0_chk11 v56), ∀ a x, ((![v56] : Fin 1 → IVec S16 32) a x).toNat < S32768.size a := fun v56 k0_hw11 => k0_hw11

def k0_chk12 (v60 : IVec S16 32) : Prop :=
  (∀ a x, ((![v60] : Fin 1 → IVec S16 32) a x).toNat < S32768.size a)
instance k0_chk12.dec : ∀ (v60 : IVec S16 32), Decidable (k0_chk12 v60) := fun v60 => decidable_of_iff' _ (Iff.of_eq (k0_chk12.eq_1 v60))
theorem k0_idx12_inb : ∀ (v60 : IVec S16 32) (k0_hw12 : k0_chk12 v60), ∀ a x, ((![v60] : Fin 1 → IVec S16 32) a x).toNat < S32768.size a := fun v60 k0_hw12 => k0_hw12

def k0_chk13 (v64 : IVec S16 32) : Prop :=
  (∀ a x, ((![v64] : Fin 1 → IVec S16 32) a x).toNat < S32768.size a)
instance k0_chk13.dec : ∀ (v64 : IVec S16 32), Decidable (k0_chk13 v64) := fun v64 => decidable_of_iff' _ (Iff.of_eq (k0_chk13.eq_1 v64))
theorem k0_idx13_inb : ∀ (v64 : IVec S16 32) (k0_hw13 : k0_chk13 v64), ∀ a x, ((![v64] : Fin 1 → IVec S16 32) a x).toNat < S32768.size a := fun v64 k0_hw13 => k0_hw13

def k0_chk14 (v68 : IVec S16 32) : Prop :=
  (∀ a x, ((![v68] : Fin 1 → IVec S16 32) a x).toNat < S32768.size a)
instance k0_chk14.dec : ∀ (v68 : IVec S16 32), Decidable (k0_chk14 v68) := fun v68 => decidable_of_iff' _ (Iff.of_eq (k0_chk14.eq_1 v68))
theorem k0_idx14_inb : ∀ (v68 : IVec S16 32) (k0_hw14 : k0_chk14 v68), ∀ a x, ((![v68] : Fin 1 → IVec S16 32) a x).toNat < S32768.size a := fun v68 k0_hw14 => k0_hw14

def k0_chk15 (v72 : IVec S16 32) : Prop :=
  (∀ a x, ((![v72] : Fin 1 → IVec S16 32) a x).toNat < S32768.size a)
instance k0_chk15.dec : ∀ (v72 : IVec S16 32), Decidable (k0_chk15 v72) := fun v72 => decidable_of_iff' _ (Iff.of_eq (k0_chk15.eq_1 v72))
theorem k0_idx15_inb : ∀ (v72 : IVec S16 32) (k0_hw15 : k0_chk15 v72), ∀ a x, ((![v72] : Fin 1 → IVec S16 32) a x).toNat < S32768.size a := fun v72 k0_hw15 => k0_hw15

def k0_chk16 (v76 : IVec S16 32) : Prop :=
  (∀ a x, ((![v76] : Fin 1 → IVec S16 32) a x).toNat < S32768.size a)
instance k0_chk16.dec : ∀ (v76 : IVec S16 32), Decidable (k0_chk16 v76) := fun v76 => decidable_of_iff' _ (Iff.of_eq (k0_chk16.eq_1 v76))
theorem k0_idx16_inb : ∀ (v76 : IVec S16 32) (k0_hw16 : k0_chk16 v76), ∀ a x, ((![v76] : Fin 1 → IVec S16 32) a x).toNat < S32768.size a := fun v76 k0_hw16 => k0_hw16

def k0_chk17 (v80 : IVec S16 32) : Prop :=
  (∀ a x, ((![v80] : Fin 1 → IVec S16 32) a x).toNat < S32768.size a)
instance k0_chk17.dec : ∀ (v80 : IVec S16 32), Decidable (k0_chk17 v80) := fun v80 => decidable_of_iff' _ (Iff.of_eq (k0_chk17.eq_1 v80))
theorem k0_idx17_inb : ∀ (v80 : IVec S16 32) (k0_hw17 : k0_chk17 v80), ∀ a x, ((![v80] : Fin 1 → IVec S16 32) a x).toNat < S32768.size a := fun v80 k0_hw17 => k0_hw17

def k0_chk18 (v84 : IVec S16 32) : Prop :=
  (∀ a x, ((![v84] : Fin 1 → IVec S16 32) a x).toNat < S32768.size a)
instance k0_chk18.dec : ∀ (v84 : IVec S16 32), Decidable (k0_chk18 v84) := fun v84 => decidable_of_iff' _ (Iff.of_eq (k0_chk18.eq_1 v84))
theorem k0_idx18_inb : ∀ (v84 : IVec S16 32) (k0_hw18 : k0_chk18 v84), ∀ a x, ((![v84] : Fin 1 → IVec S16 32) a x).toNat < S32768.size a := fun v84 k0_hw18 => k0_hw18

def k0_chk19 (v88 : IVec S16 32) : Prop :=
  (∀ a x, ((![v88] : Fin 1 → IVec S16 32) a x).toNat < S32768.size a)
instance k0_chk19.dec : ∀ (v88 : IVec S16 32), Decidable (k0_chk19 v88) := fun v88 => decidable_of_iff' _ (Iff.of_eq (k0_chk19.eq_1 v88))
theorem k0_idx19_inb : ∀ (v88 : IVec S16 32) (k0_hw19 : k0_chk19 v88), ∀ a x, ((![v88] : Fin 1 → IVec S16 32) a x).toNat < S32768.size a := fun v88 k0_hw19 => k0_hw19

def k0_chk20 (v92 : IVec S16 32) : Prop :=
  (∀ a x, ((![v92] : Fin 1 → IVec S16 32) a x).toNat < S32768.size a)
instance k0_chk20.dec : ∀ (v92 : IVec S16 32), Decidable (k0_chk20 v92) := fun v92 => decidable_of_iff' _ (Iff.of_eq (k0_chk20.eq_1 v92))
theorem k0_idx20_inb : ∀ (v92 : IVec S16 32) (k0_hw20 : k0_chk20 v92), ∀ a x, ((![v92] : Fin 1 → IVec S16 32) a x).toNat < S32768.size a := fun v92 k0_hw20 => k0_hw20

def k0_chk21 (v96 : IVec S16 32) : Prop :=
  (∀ a x, ((![v96] : Fin 1 → IVec S16 32) a x).toNat < S32768.size a)
instance k0_chk21.dec : ∀ (v96 : IVec S16 32), Decidable (k0_chk21 v96) := fun v96 => decidable_of_iff' _ (Iff.of_eq (k0_chk21.eq_1 v96))
theorem k0_idx21_inb : ∀ (v96 : IVec S16 32) (k0_hw21 : k0_chk21 v96), ∀ a x, ((![v96] : Fin 1 → IVec S16 32) a x).toNat < S32768.size a := fun v96 k0_hw21 => k0_hw21

def k0_chk22 (v100 : IVec S16 32) : Prop :=
  (∀ a x, ((![v100] : Fin 1 → IVec S16 32) a x).toNat < S32768.size a)
instance k0_chk22.dec : ∀ (v100 : IVec S16 32), Decidable (k0_chk22 v100) := fun v100 => decidable_of_iff' _ (Iff.of_eq (k0_chk22.eq_1 v100))
theorem k0_idx22_inb : ∀ (v100 : IVec S16 32) (k0_hw22 : k0_chk22 v100), ∀ a x, ((![v100] : Fin 1 → IVec S16 32) a x).toNat < S32768.size a := fun v100 k0_hw22 => k0_hw22

def k0_chk23 (v104 : IVec S16 32) : Prop :=
  (∀ a x, ((![v104] : Fin 1 → IVec S16 32) a x).toNat < S32768.size a)
instance k0_chk23.dec : ∀ (v104 : IVec S16 32), Decidable (k0_chk23 v104) := fun v104 => decidable_of_iff' _ (Iff.of_eq (k0_chk23.eq_1 v104))
theorem k0_idx23_inb : ∀ (v104 : IVec S16 32) (k0_hw23 : k0_chk23 v104), ∀ a x, ((![v104] : Fin 1 → IVec S16 32) a x).toNat < S32768.size a := fun v104 k0_hw23 => k0_hw23

def k0_chk24 (v108 : IVec S16 32) : Prop :=
  (∀ a x, ((![v108] : Fin 1 → IVec S16 32) a x).toNat < S32768.size a)
instance k0_chk24.dec : ∀ (v108 : IVec S16 32), Decidable (k0_chk24 v108) := fun v108 => decidable_of_iff' _ (Iff.of_eq (k0_chk24.eq_1 v108))
theorem k0_idx24_inb : ∀ (v108 : IVec S16 32) (k0_hw24 : k0_chk24 v108), ∀ a x, ((![v108] : Fin 1 → IVec S16 32) a x).toNat < S32768.size a := fun v108 k0_hw24 => k0_hw24

def k0_chk25 (v112 : IVec S16 32) : Prop :=
  (∀ a x, ((![v112] : Fin 1 → IVec S16 32) a x).toNat < S32768.size a)
instance k0_chk25.dec : ∀ (v112 : IVec S16 32), Decidable (k0_chk25 v112) := fun v112 => decidable_of_iff' _ (Iff.of_eq (k0_chk25.eq_1 v112))
theorem k0_idx25_inb : ∀ (v112 : IVec S16 32) (k0_hw25 : k0_chk25 v112), ∀ a x, ((![v112] : Fin 1 → IVec S16 32) a x).toNat < S32768.size a := fun v112 k0_hw25 => k0_hw25

def k0_chk26 (v116 : IVec S16 32) : Prop :=
  (∀ a x, ((![v116] : Fin 1 → IVec S16 32) a x).toNat < S32768.size a)
instance k0_chk26.dec : ∀ (v116 : IVec S16 32), Decidable (k0_chk26 v116) := fun v116 => decidable_of_iff' _ (Iff.of_eq (k0_chk26.eq_1 v116))
theorem k0_idx26_inb : ∀ (v116 : IVec S16 32) (k0_hw26 : k0_chk26 v116), ∀ a x, ((![v116] : Fin 1 → IVec S16 32) a x).toNat < S32768.size a := fun v116 k0_hw26 => k0_hw26

def k0_chk27 (v120 : IVec S16 32) : Prop :=
  (∀ a x, ((![v120] : Fin 1 → IVec S16 32) a x).toNat < S32768.size a)
instance k0_chk27.dec : ∀ (v120 : IVec S16 32), Decidable (k0_chk27 v120) := fun v120 => decidable_of_iff' _ (Iff.of_eq (k0_chk27.eq_1 v120))
theorem k0_idx27_inb : ∀ (v120 : IVec S16 32) (k0_hw27 : k0_chk27 v120), ∀ a x, ((![v120] : Fin 1 → IVec S16 32) a x).toNat < S32768.size a := fun v120 k0_hw27 => k0_hw27

def k0_chk28 (v124 : IVec S16 32) : Prop :=
  (∀ a x, ((![v124] : Fin 1 → IVec S16 32) a x).toNat < S32768.size a)
instance k0_chk28.dec : ∀ (v124 : IVec S16 32), Decidable (k0_chk28 v124) := fun v124 => decidable_of_iff' _ (Iff.of_eq (k0_chk28.eq_1 v124))
theorem k0_idx28_inb : ∀ (v124 : IVec S16 32) (k0_hw28 : k0_chk28 v124), ∀ a x, ((![v124] : Fin 1 → IVec S16 32) a x).toNat < S32768.size a := fun v124 k0_hw28 => k0_hw28

def k0_chk29 (v128 : IVec S16 32) : Prop :=
  (∀ a x, ((![v128] : Fin 1 → IVec S16 32) a x).toNat < S32768.size a)
instance k0_chk29.dec : ∀ (v128 : IVec S16 32), Decidable (k0_chk29 v128) := fun v128 => decidable_of_iff' _ (Iff.of_eq (k0_chk29.eq_1 v128))
theorem k0_idx29_inb : ∀ (v128 : IVec S16 32) (k0_hw29 : k0_chk29 v128), ∀ a x, ((![v128] : Fin 1 → IVec S16 32) a x).toNat < S32768.size a := fun v128 k0_hw29 => k0_hw29

def k0_chk30 (v132 : IVec S16 32) : Prop :=
  (∀ a x, ((![v132] : Fin 1 → IVec S16 32) a x).toNat < S32768.size a)
instance k0_chk30.dec : ∀ (v132 : IVec S16 32), Decidable (k0_chk30 v132) := fun v132 => decidable_of_iff' _ (Iff.of_eq (k0_chk30.eq_1 v132))
theorem k0_idx30_inb : ∀ (v132 : IVec S16 32) (k0_hw30 : k0_chk30 v132), ∀ a x, ((![v132] : Fin 1 → IVec S16 32) a x).toNat < S32768.size a := fun v132 k0_hw30 => k0_hw30

def k0_chk31 (v136 : IVec S16 32) : Prop :=
  (∀ a x, ((![v136] : Fin 1 → IVec S16 32) a x).toNat < S32768.size a)
instance k0_chk31.dec : ∀ (v136 : IVec S16 32), Decidable (k0_chk31 v136) := fun v136 => decidable_of_iff' _ (Iff.of_eq (k0_chk31.eq_1 v136))
theorem k0_idx31_inb : ∀ (v136 : IVec S16 32) (k0_hw31 : k0_chk31 v136), ∀ a x, ((![v136] : Fin 1 → IVec S16 32) a x).toNat < S32768.size a := fun v136 k0_hw31 => k0_hw31

def k0_chk32 (v140 : IVec S16 32) : Prop :=
  (∀ a x, ((![v140] : Fin 1 → IVec S16 32) a x).toNat < S32768.size a)
instance k0_chk32.dec : ∀ (v140 : IVec S16 32), Decidable (k0_chk32 v140) := fun v140 => decidable_of_iff' _ (Iff.of_eq (k0_chk32.eq_1 v140))
theorem k0_idx32_inb : ∀ (v140 : IVec S16 32) (k0_hw32 : k0_chk32 v140), ∀ a x, ((![v140] : Fin 1 → IVec S16 32) a x).toNat < S32768.size a := fun v140 k0_hw32 => k0_hw32
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_1 : BitVec 32 := 0#32
  let v141 : BitVec 32 := Scalar.addi v2 c0_i32_1
  let c0_i32_2 : BitVec 32 := 0#32
  ![v141.toNat, 0]

def k0_chk33 (v149 : IVec S16 32) : Prop :=
  (∀ a x, ((![v149] : Fin 1 → IVec S16 32) a x).toNat < S32768.size a)
instance k0_chk33.dec : ∀ (v149 : IVec S16 32), Decidable (k0_chk33 v149) := fun v149 => decidable_of_iff' _ (Iff.of_eq (k0_chk33.eq_1 v149))
theorem k0_idx33_inb : ∀ (v149 : IVec S16 32) (k0_hw33 : k0_chk33 v149), ∀ a x, ((![v149] : Fin 1 → IVec S16 32) a x).toNat < S32768.size a := fun v149 k0_hw33 => k0_hw33

def k0_chk34 (v153 : IVec S16 32) : Prop :=
  (∀ a x, ((![v153] : Fin 1 → IVec S16 32) a x).toNat < S32768.size a)
instance k0_chk34.dec : ∀ (v153 : IVec S16 32), Decidable (k0_chk34 v153) := fun v153 => decidable_of_iff' _ (Iff.of_eq (k0_chk34.eq_1 v153))
theorem k0_idx34_inb : ∀ (v153 : IVec S16 32) (k0_hw34 : k0_chk34 v153), ∀ a x, ((![v153] : Fin 1 → IVec S16 32) a x).toNat < S32768.size a := fun v153 k0_hw34 => k0_hw34

def k0_chk35 (v157 : IVec S16 32) : Prop :=
  (∀ a x, ((![v157] : Fin 1 → IVec S16 32) a x).toNat < S32768.size a)
instance k0_chk35.dec : ∀ (v157 : IVec S16 32), Decidable (k0_chk35 v157) := fun v157 => decidable_of_iff' _ (Iff.of_eq (k0_chk35.eq_1 v157))
theorem k0_idx35_inb : ∀ (v157 : IVec S16 32) (k0_hw35 : k0_chk35 v157), ∀ a x, ((![v157] : Fin 1 → IVec S16 32) a x).toNat < S32768.size a := fun v157 k0_hw35 => k0_hw35

def k0_chk36 (v161 : IVec S16 32) : Prop :=
  (∀ a x, ((![v161] : Fin 1 → IVec S16 32) a x).toNat < S32768.size a)
instance k0_chk36.dec : ∀ (v161 : IVec S16 32), Decidable (k0_chk36 v161) := fun v161 => decidable_of_iff' _ (Iff.of_eq (k0_chk36.eq_1 v161))
theorem k0_idx36_inb : ∀ (v161 : IVec S16 32) (k0_hw36 : k0_chk36 v161), ∀ a x, ((![v161] : Fin 1 → IVec S16 32) a x).toNat < S32768.size a := fun v161 k0_hw36 => k0_hw36

def k0_chk37 (v165 : IVec S16 32) : Prop :=
  (∀ a x, ((![v165] : Fin 1 → IVec S16 32) a x).toNat < S32768.size a)
instance k0_chk37.dec : ∀ (v165 : IVec S16 32), Decidable (k0_chk37 v165) := fun v165 => decidable_of_iff' _ (Iff.of_eq (k0_chk37.eq_1 v165))
theorem k0_idx37_inb : ∀ (v165 : IVec S16 32) (k0_hw37 : k0_chk37 v165), ∀ a x, ((![v165] : Fin 1 → IVec S16 32) a x).toNat < S32768.size a := fun v165 k0_hw37 => k0_hw37

def k0_chk38 (v169 : IVec S16 32) : Prop :=
  (∀ a x, ((![v169] : Fin 1 → IVec S16 32) a x).toNat < S32768.size a)
instance k0_chk38.dec : ∀ (v169 : IVec S16 32), Decidable (k0_chk38 v169) := fun v169 => decidable_of_iff' _ (Iff.of_eq (k0_chk38.eq_1 v169))
theorem k0_idx38_inb : ∀ (v169 : IVec S16 32) (k0_hw38 : k0_chk38 v169), ∀ a x, ((![v169] : Fin 1 → IVec S16 32) a x).toNat < S32768.size a := fun v169 k0_hw38 => k0_hw38

def k0_chk39 (v173 : IVec S16 32) : Prop :=
  (∀ a x, ((![v173] : Fin 1 → IVec S16 32) a x).toNat < S32768.size a)
instance k0_chk39.dec : ∀ (v173 : IVec S16 32), Decidable (k0_chk39 v173) := fun v173 => decidable_of_iff' _ (Iff.of_eq (k0_chk39.eq_1 v173))
theorem k0_idx39_inb : ∀ (v173 : IVec S16 32) (k0_hw39 : k0_chk39 v173), ∀ a x, ((![v173] : Fin 1 → IVec S16 32) a x).toNat < S32768.size a := fun v173 k0_hw39 => k0_hw39

def k0_chk40 (v177 : IVec S16 32) : Prop :=
  (∀ a x, ((![v177] : Fin 1 → IVec S16 32) a x).toNat < S32768.size a)
instance k0_chk40.dec : ∀ (v177 : IVec S16 32), Decidable (k0_chk40 v177) := fun v177 => decidable_of_iff' _ (Iff.of_eq (k0_chk40.eq_1 v177))
theorem k0_idx40_inb : ∀ (v177 : IVec S16 32) (k0_hw40 : k0_chk40 v177), ∀ a x, ((![v177] : Fin 1 → IVec S16 32) a x).toNat < S32768.size a := fun v177 k0_hw40 => k0_hw40

def k0_chk41 (v181 : IVec S16 32) : Prop :=
  (∀ a x, ((![v181] : Fin 1 → IVec S16 32) a x).toNat < S32768.size a)
instance k0_chk41.dec : ∀ (v181 : IVec S16 32), Decidable (k0_chk41 v181) := fun v181 => decidable_of_iff' _ (Iff.of_eq (k0_chk41.eq_1 v181))
theorem k0_idx41_inb : ∀ (v181 : IVec S16 32) (k0_hw41 : k0_chk41 v181), ∀ a x, ((![v181] : Fin 1 → IVec S16 32) a x).toNat < S32768.size a := fun v181 k0_hw41 => k0_hw41

def k0_chk42 (v185 : IVec S16 32) : Prop :=
  (∀ a x, ((![v185] : Fin 1 → IVec S16 32) a x).toNat < S32768.size a)
instance k0_chk42.dec : ∀ (v185 : IVec S16 32), Decidable (k0_chk42 v185) := fun v185 => decidable_of_iff' _ (Iff.of_eq (k0_chk42.eq_1 v185))
theorem k0_idx42_inb : ∀ (v185 : IVec S16 32) (k0_hw42 : k0_chk42 v185), ∀ a x, ((![v185] : Fin 1 → IVec S16 32) a x).toNat < S32768.size a := fun v185 k0_hw42 => k0_hw42

def k0_chk43 (v189 : IVec S16 32) : Prop :=
  (∀ a x, ((![v189] : Fin 1 → IVec S16 32) a x).toNat < S32768.size a)
instance k0_chk43.dec : ∀ (v189 : IVec S16 32), Decidable (k0_chk43 v189) := fun v189 => decidable_of_iff' _ (Iff.of_eq (k0_chk43.eq_1 v189))
theorem k0_idx43_inb : ∀ (v189 : IVec S16 32) (k0_hw43 : k0_chk43 v189), ∀ a x, ((![v189] : Fin 1 → IVec S16 32) a x).toNat < S32768.size a := fun v189 k0_hw43 => k0_hw43

def k0_chk44 (v193 : IVec S16 32) : Prop :=
  (∀ a x, ((![v193] : Fin 1 → IVec S16 32) a x).toNat < S32768.size a)
instance k0_chk44.dec : ∀ (v193 : IVec S16 32), Decidable (k0_chk44 v193) := fun v193 => decidable_of_iff' _ (Iff.of_eq (k0_chk44.eq_1 v193))
theorem k0_idx44_inb : ∀ (v193 : IVec S16 32) (k0_hw44 : k0_chk44 v193), ∀ a x, ((![v193] : Fin 1 → IVec S16 32) a x).toNat < S32768.size a := fun v193 k0_hw44 => k0_hw44

def k0_chk45 (v197 : IVec S16 32) : Prop :=
  (∀ a x, ((![v197] : Fin 1 → IVec S16 32) a x).toNat < S32768.size a)
instance k0_chk45.dec : ∀ (v197 : IVec S16 32), Decidable (k0_chk45 v197) := fun v197 => decidable_of_iff' _ (Iff.of_eq (k0_chk45.eq_1 v197))
theorem k0_idx45_inb : ∀ (v197 : IVec S16 32) (k0_hw45 : k0_chk45 v197), ∀ a x, ((![v197] : Fin 1 → IVec S16 32) a x).toNat < S32768.size a := fun v197 k0_hw45 => k0_hw45

def k0_chk46 (v201 : IVec S16 32) : Prop :=
  (∀ a x, ((![v201] : Fin 1 → IVec S16 32) a x).toNat < S32768.size a)
instance k0_chk46.dec : ∀ (v201 : IVec S16 32), Decidable (k0_chk46 v201) := fun v201 => decidable_of_iff' _ (Iff.of_eq (k0_chk46.eq_1 v201))
theorem k0_idx46_inb : ∀ (v201 : IVec S16 32) (k0_hw46 : k0_chk46 v201), ∀ a x, ((![v201] : Fin 1 → IVec S16 32) a x).toNat < S32768.size a := fun v201 k0_hw46 => k0_hw46

def k0_chk47 (v205 : IVec S16 32) : Prop :=
  (∀ a x, ((![v205] : Fin 1 → IVec S16 32) a x).toNat < S32768.size a)
instance k0_chk47.dec : ∀ (v205 : IVec S16 32), Decidable (k0_chk47 v205) := fun v205 => decidable_of_iff' _ (Iff.of_eq (k0_chk47.eq_1 v205))
theorem k0_idx47_inb : ∀ (v205 : IVec S16 32) (k0_hw47 : k0_chk47 v205), ∀ a x, ((![v205] : Fin 1 → IVec S16 32) a x).toNat < S32768.size a := fun v205 k0_hw47 => k0_hw47

def k0_chk48 (v209 : IVec S16 32) : Prop :=
  (∀ a x, ((![v209] : Fin 1 → IVec S16 32) a x).toNat < S32768.size a)
instance k0_chk48.dec : ∀ (v209 : IVec S16 32), Decidable (k0_chk48 v209) := fun v209 => decidable_of_iff' _ (Iff.of_eq (k0_chk48.eq_1 v209))
theorem k0_idx48_inb : ∀ (v209 : IVec S16 32) (k0_hw48 : k0_chk48 v209), ∀ a x, ((![v209] : Fin 1 → IVec S16 32) a x).toNat < S32768.size a := fun v209 k0_hw48 => k0_hw48

def k0_chk49 (v213 : IVec S16 32) : Prop :=
  (∀ a x, ((![v213] : Fin 1 → IVec S16 32) a x).toNat < S32768.size a)
instance k0_chk49.dec : ∀ (v213 : IVec S16 32), Decidable (k0_chk49 v213) := fun v213 => decidable_of_iff' _ (Iff.of_eq (k0_chk49.eq_1 v213))
theorem k0_idx49_inb : ∀ (v213 : IVec S16 32) (k0_hw49 : k0_chk49 v213), ∀ a x, ((![v213] : Fin 1 → IVec S16 32) a x).toNat < S32768.size a := fun v213 k0_hw49 => k0_hw49

def k0_chk50 (v217 : IVec S16 32) : Prop :=
  (∀ a x, ((![v217] : Fin 1 → IVec S16 32) a x).toNat < S32768.size a)
instance k0_chk50.dec : ∀ (v217 : IVec S16 32), Decidable (k0_chk50 v217) := fun v217 => decidable_of_iff' _ (Iff.of_eq (k0_chk50.eq_1 v217))
theorem k0_idx50_inb : ∀ (v217 : IVec S16 32) (k0_hw50 : k0_chk50 v217), ∀ a x, ((![v217] : Fin 1 → IVec S16 32) a x).toNat < S32768.size a := fun v217 k0_hw50 => k0_hw50

def k0_chk51 (v221 : IVec S16 32) : Prop :=
  (∀ a x, ((![v221] : Fin 1 → IVec S16 32) a x).toNat < S32768.size a)
instance k0_chk51.dec : ∀ (v221 : IVec S16 32), Decidable (k0_chk51 v221) := fun v221 => decidable_of_iff' _ (Iff.of_eq (k0_chk51.eq_1 v221))
theorem k0_idx51_inb : ∀ (v221 : IVec S16 32) (k0_hw51 : k0_chk51 v221), ∀ a x, ((![v221] : Fin 1 → IVec S16 32) a x).toNat < S32768.size a := fun v221 k0_hw51 => k0_hw51

def k0_chk52 (v225 : IVec S16 32) : Prop :=
  (∀ a x, ((![v225] : Fin 1 → IVec S16 32) a x).toNat < S32768.size a)
instance k0_chk52.dec : ∀ (v225 : IVec S16 32), Decidable (k0_chk52 v225) := fun v225 => decidable_of_iff' _ (Iff.of_eq (k0_chk52.eq_1 v225))
theorem k0_idx52_inb : ∀ (v225 : IVec S16 32) (k0_hw52 : k0_chk52 v225), ∀ a x, ((![v225] : Fin 1 → IVec S16 32) a x).toNat < S32768.size a := fun v225 k0_hw52 => k0_hw52

def k0_chk53 (v229 : IVec S16 32) : Prop :=
  (∀ a x, ((![v229] : Fin 1 → IVec S16 32) a x).toNat < S32768.size a)
instance k0_chk53.dec : ∀ (v229 : IVec S16 32), Decidable (k0_chk53 v229) := fun v229 => decidable_of_iff' _ (Iff.of_eq (k0_chk53.eq_1 v229))
theorem k0_idx53_inb : ∀ (v229 : IVec S16 32) (k0_hw53 : k0_chk53 v229), ∀ a x, ((![v229] : Fin 1 → IVec S16 32) a x).toNat < S32768.size a := fun v229 k0_hw53 => k0_hw53

def k0_chk54 (v233 : IVec S16 32) : Prop :=
  (∀ a x, ((![v233] : Fin 1 → IVec S16 32) a x).toNat < S32768.size a)
instance k0_chk54.dec : ∀ (v233 : IVec S16 32), Decidable (k0_chk54 v233) := fun v233 => decidable_of_iff' _ (Iff.of_eq (k0_chk54.eq_1 v233))
theorem k0_idx54_inb : ∀ (v233 : IVec S16 32) (k0_hw54 : k0_chk54 v233), ∀ a x, ((![v233] : Fin 1 → IVec S16 32) a x).toNat < S32768.size a := fun v233 k0_hw54 => k0_hw54

def k0_chk55 (v237 : IVec S16 32) : Prop :=
  (∀ a x, ((![v237] : Fin 1 → IVec S16 32) a x).toNat < S32768.size a)
instance k0_chk55.dec : ∀ (v237 : IVec S16 32), Decidable (k0_chk55 v237) := fun v237 => decidable_of_iff' _ (Iff.of_eq (k0_chk55.eq_1 v237))
theorem k0_idx55_inb : ∀ (v237 : IVec S16 32) (k0_hw55 : k0_chk55 v237), ∀ a x, ((![v237] : Fin 1 → IVec S16 32) a x).toNat < S32768.size a := fun v237 k0_hw55 => k0_hw55

def k0_chk56 (v241 : IVec S16 32) : Prop :=
  (∀ a x, ((![v241] : Fin 1 → IVec S16 32) a x).toNat < S32768.size a)
instance k0_chk56.dec : ∀ (v241 : IVec S16 32), Decidable (k0_chk56 v241) := fun v241 => decidable_of_iff' _ (Iff.of_eq (k0_chk56.eq_1 v241))
theorem k0_idx56_inb : ∀ (v241 : IVec S16 32) (k0_hw56 : k0_chk56 v241), ∀ a x, ((![v241] : Fin 1 → IVec S16 32) a x).toNat < S32768.size a := fun v241 k0_hw56 => k0_hw56

def k0_chk57 (v245 : IVec S16 32) : Prop :=
  (∀ a x, ((![v245] : Fin 1 → IVec S16 32) a x).toNat < S32768.size a)
instance k0_chk57.dec : ∀ (v245 : IVec S16 32), Decidable (k0_chk57 v245) := fun v245 => decidable_of_iff' _ (Iff.of_eq (k0_chk57.eq_1 v245))
theorem k0_idx57_inb : ∀ (v245 : IVec S16 32) (k0_hw57 : k0_chk57 v245), ∀ a x, ((![v245] : Fin 1 → IVec S16 32) a x).toNat < S32768.size a := fun v245 k0_hw57 => k0_hw57

def k0_chk58 (v249 : IVec S16 32) : Prop :=
  (∀ a x, ((![v249] : Fin 1 → IVec S16 32) a x).toNat < S32768.size a)
instance k0_chk58.dec : ∀ (v249 : IVec S16 32), Decidable (k0_chk58 v249) := fun v249 => decidable_of_iff' _ (Iff.of_eq (k0_chk58.eq_1 v249))
theorem k0_idx58_inb : ∀ (v249 : IVec S16 32) (k0_hw58 : k0_chk58 v249), ∀ a x, ((![v249] : Fin 1 → IVec S16 32) a x).toNat < S32768.size a := fun v249 k0_hw58 => k0_hw58

def k0_chk59 (v253 : IVec S16 32) : Prop :=
  (∀ a x, ((![v253] : Fin 1 → IVec S16 32) a x).toNat < S32768.size a)
instance k0_chk59.dec : ∀ (v253 : IVec S16 32), Decidable (k0_chk59 v253) := fun v253 => decidable_of_iff' _ (Iff.of_eq (k0_chk59.eq_1 v253))
theorem k0_idx59_inb : ∀ (v253 : IVec S16 32) (k0_hw59 : k0_chk59 v253), ∀ a x, ((![v253] : Fin 1 → IVec S16 32) a x).toNat < S32768.size a := fun v253 k0_hw59 => k0_hw59

def k0_chk60 (v257 : IVec S16 32) : Prop :=
  (∀ a x, ((![v257] : Fin 1 → IVec S16 32) a x).toNat < S32768.size a)
instance k0_chk60.dec : ∀ (v257 : IVec S16 32), Decidable (k0_chk60 v257) := fun v257 => decidable_of_iff' _ (Iff.of_eq (k0_chk60.eq_1 v257))
theorem k0_idx60_inb : ∀ (v257 : IVec S16 32) (k0_hw60 : k0_chk60 v257), ∀ a x, ((![v257] : Fin 1 → IVec S16 32) a x).toNat < S32768.size a := fun v257 k0_hw60 => k0_hw60

def k0_chk61 (v261 : IVec S16 32) : Prop :=
  (∀ a x, ((![v261] : Fin 1 → IVec S16 32) a x).toNat < S32768.size a)
instance k0_chk61.dec : ∀ (v261 : IVec S16 32), Decidable (k0_chk61 v261) := fun v261 => decidable_of_iff' _ (Iff.of_eq (k0_chk61.eq_1 v261))
theorem k0_idx61_inb : ∀ (v261 : IVec S16 32) (k0_hw61 : k0_chk61 v261), ∀ a x, ((![v261] : Fin 1 → IVec S16 32) a x).toNat < S32768.size a := fun v261 k0_hw61 => k0_hw61

def k0_chk62 (v265 : IVec S16 32) : Prop :=
  (∀ a x, ((![v265] : Fin 1 → IVec S16 32) a x).toNat < S32768.size a)
instance k0_chk62.dec : ∀ (v265 : IVec S16 32), Decidable (k0_chk62 v265) := fun v265 => decidable_of_iff' _ (Iff.of_eq (k0_chk62.eq_1 v265))
theorem k0_idx62_inb : ∀ (v265 : IVec S16 32) (k0_hw62 : k0_chk62 v265), ∀ a x, ((![v265] : Fin 1 → IVec S16 32) a x).toNat < S32768.size a := fun v265 k0_hw62 => k0_hw62

def k0_chk63 (v269 : IVec S16 32) : Prop :=
  (∀ a x, ((![v269] : Fin 1 → IVec S16 32) a x).toNat < S32768.size a)
instance k0_chk63.dec : ∀ (v269 : IVec S16 32), Decidable (k0_chk63 v269) := fun v269 => decidable_of_iff' _ (Iff.of_eq (k0_chk63.eq_1 v269))
theorem k0_idx63_inb : ∀ (v269 : IVec S16 32) (k0_hw63 : k0_chk63 v269), ∀ a x, ((![v269] : Fin 1 → IVec S16 32) a x).toNat < S32768.size a := fun v269 k0_hw63 => k0_hw63

def k0_chk64 (v273 : IVec S16 32) : Prop :=
  (∀ a x, ((![v273] : Fin 1 → IVec S16 32) a x).toNat < S32768.size a)
instance k0_chk64.dec : ∀ (v273 : IVec S16 32), Decidable (k0_chk64 v273) := fun v273 => decidable_of_iff' _ (Iff.of_eq (k0_chk64.eq_1 v273))
theorem k0_idx64_inb : ∀ (v273 : IVec S16 32) (k0_hw64 : k0_chk64 v273), ∀ a x, ((![v273] : Fin 1 → IVec S16 32) a x).toNat < S32768.size a := fun v273 k0_hw64 => k0_hw64
def k0_off3 (i : grid0.Coords) (c1_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v274 : BitVec 32 := Scalar.addi v2 c1_i32
  let c0_i32_36 : BitVec 32 := 0#32
  ![v274.toNat, 0]
def k0_off3_at (r : Fin 3) : BitVec 32 :=
  if r.val < 1 then
    1#32
  else
    if r.val < 2 then
      30#32
    else
      31#32
@[reducible] def k0_t1_loop : Scf.Loop 32 :=
  let c1_i32_39 : BitVec 32 := 1#32
  let c15_i32 : BitVec 32 := 15#32
  let v279 : BitVec 32 := Scalar.addi c1_i32_39 c15_i32
  let c1_i32_40 : BitVec 32 := 1#32
  ⟨c1_i32_39, v279, c1_i32_40⟩
def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let v292 : BitVec 32 := Scalar.addi v2 v291
  let c2_i32_48 : BitVec 32 := 2#32
  let v293 : BitVec 32 := Scalar.subi v292 c2_i32_48
  let c0_i32_49 : BitVec 32 := 0#32
  ![v293.toNat, 0]
def k0_off5 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c2_i32_51 : BitVec 32 := 2#32
  let v298 : BitVec 32 := Scalar.subi v291 c2_i32_51
  let c512_i32_52 : BitVec 32 := 512#32
  let v299 : BitVec 32 := Scalar.muli v298 c512_i32_52
  let c0_i32_53 : BitVec 32 := 0#32
  let v300 : BitVec 32 := Scalar.addi v299 c0_i32_53
  let c0_i32_54 : BitVec 32 := 0#32
  let v301 : BitVec 32 := Scalar.addi v300 c0_i32_54
  let v302 : Index := Scalar.indexCast v301
  ![v302.toNat]

def k0_chk65 (v306 : IVec S16 32) : Prop :=
  (∀ a x, ((![v306] : Fin 1 → IVec S16 32) a x).toNat < S32768.size a)
instance k0_chk65.dec : ∀ (v306 : IVec S16 32), Decidable (k0_chk65 v306) := fun v306 => decidable_of_iff' _ (Iff.of_eq (k0_chk65.eq_1 v306))
theorem k0_idx65_inb : ∀ (v306 : IVec S16 32) (k0_hw65 : k0_chk65 v306), ∀ a x, ((![v306] : Fin 1 → IVec S16 32) a x).toNat < S32768.size a := fun v306 k0_hw65 => k0_hw65
def k0_off6 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c2_i32_51 : BitVec 32 := 2#32
  let v298 : BitVec 32 := Scalar.subi v291 c2_i32_51
  let c512_i32_56 : BitVec 32 := 512#32
  let v307 : BitVec 32 := Scalar.muli v298 c512_i32_56
  let c0_i32_57 : BitVec 32 := 0#32
  let v308 : BitVec 32 := Scalar.addi v307 c0_i32_57
  let c16_i32 : BitVec 32 := 16#32
  let v309 : BitVec 32 := Scalar.addi v308 c16_i32
  let v310 : Index := Scalar.indexCast v309
  ![v310.toNat]

def k0_chk66 (v314 : IVec S16 32) : Prop :=
  (∀ a x, ((![v314] : Fin 1 → IVec S16 32) a x).toNat < S32768.size a)
instance k0_chk66.dec : ∀ (v314 : IVec S16 32), Decidable (k0_chk66 v314) := fun v314 => decidable_of_iff' _ (Iff.of_eq (k0_chk66.eq_1 v314))
theorem k0_idx66_inb : ∀ (v314 : IVec S16 32) (k0_hw66 : k0_chk66 v314), ∀ a x, ((![v314] : Fin 1 → IVec S16 32) a x).toNat < S32768.size a := fun v314 k0_hw66 => k0_hw66
def k0_off7 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c2_i32_51 : BitVec 32 := 2#32
  let v298 : BitVec 32 := Scalar.subi v291 c2_i32_51
  let c512_i32_59 : BitVec 32 := 512#32
  let v315 : BitVec 32 := Scalar.muli v298 c512_i32_59
  let c0_i32_60 : BitVec 32 := 0#32
  let v316 : BitVec 32 := Scalar.addi v315 c0_i32_60
  let c32_i32_61 : BitVec 32 := 32#32
  let v317 : BitVec 32 := Scalar.addi v316 c32_i32_61
  let v318 : Index := Scalar.indexCast v317
  ![v318.toNat]

def k0_chk67 (v322 : IVec S16 32) : Prop :=
  (∀ a x, ((![v322] : Fin 1 → IVec S16 32) a x).toNat < S32768.size a)
instance k0_chk67.dec : ∀ (v322 : IVec S16 32), Decidable (k0_chk67 v322) := fun v322 => decidable_of_iff' _ (Iff.of_eq (k0_chk67.eq_1 v322))
theorem k0_idx67_inb : ∀ (v322 : IVec S16 32) (k0_hw67 : k0_chk67 v322), ∀ a x, ((![v322] : Fin 1 → IVec S16 32) a x).toNat < S32768.size a := fun v322 k0_hw67 => k0_hw67
def k0_off8 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c2_i32_51 : BitVec 32 := 2#32
  let v298 : BitVec 32 := Scalar.subi v291 c2_i32_51
  let c512_i32_63 : BitVec 32 := 512#32
  let v323 : BitVec 32 := Scalar.muli v298 c512_i32_63
  let c0_i32_64 : BitVec 32 := 0#32
  let v324 : BitVec 32 := Scalar.addi v323 c0_i32_64
  let c48_i32 : BitVec 32 := 48#32
  let v325 : BitVec 32 := Scalar.addi v324 c48_i32
  let v326 : Index := Scalar.indexCast v325
  ![v326.toNat]

def k0_chk68 (v330 : IVec S16 32) : Prop :=
  (∀ a x, ((![v330] : Fin 1 → IVec S16 32) a x).toNat < S32768.size a)
instance k0_chk68.dec : ∀ (v330 : IVec S16 32), Decidable (k0_chk68 v330) := fun v330 => decidable_of_iff' _ (Iff.of_eq (k0_chk68.eq_1 v330))
theorem k0_idx68_inb : ∀ (v330 : IVec S16 32) (k0_hw68 : k0_chk68 v330), ∀ a x, ((![v330] : Fin 1 → IVec S16 32) a x).toNat < S32768.size a := fun v330 k0_hw68 => k0_hw68
def k0_off9 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c2_i32_51 : BitVec 32 := 2#32
  let v298 : BitVec 32 := Scalar.subi v291 c2_i32_51
  let c512_i32_66 : BitVec 32 := 512#32
  let v331 : BitVec 32 := Scalar.muli v298 c512_i32_66
  let c0_i32_67 : BitVec 32 := 0#32
  let v332 : BitVec 32 := Scalar.addi v331 c0_i32_67
  let c64_i32_68 : BitVec 32 := 64#32
  let v333 : BitVec 32 := Scalar.addi v332 c64_i32_68
  let v334 : Index := Scalar.indexCast v333
  ![v334.toNat]

def k0_chk69 (v338 : IVec S16 32) : Prop :=
  (∀ a x, ((![v338] : Fin 1 → IVec S16 32) a x).toNat < S32768.size a)
instance k0_chk69.dec : ∀ (v338 : IVec S16 32), Decidable (k0_chk69 v338) := fun v338 => decidable_of_iff' _ (Iff.of_eq (k0_chk69.eq_1 v338))
theorem k0_idx69_inb : ∀ (v338 : IVec S16 32) (k0_hw69 : k0_chk69 v338), ∀ a x, ((![v338] : Fin 1 → IVec S16 32) a x).toNat < S32768.size a := fun v338 k0_hw69 => k0_hw69
def k0_off10 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c2_i32_51 : BitVec 32 := 2#32
  let v298 : BitVec 32 := Scalar.subi v291 c2_i32_51
  let c512_i32_70 : BitVec 32 := 512#32
  let v339 : BitVec 32 := Scalar.muli v298 c512_i32_70
  let c0_i32_71 : BitVec 32 := 0#32
  let v340 : BitVec 32 := Scalar.addi v339 c0_i32_71
  let c80_i32 : BitVec 32 := 80#32
  let v341 : BitVec 32 := Scalar.addi v340 c80_i32
  let v342 : Index := Scalar.indexCast v341
  ![v342.toNat]

def k0_chk70 (v346 : IVec S16 32) : Prop :=
  (∀ a x, ((![v346] : Fin 1 → IVec S16 32) a x).toNat < S32768.size a)
instance k0_chk70.dec : ∀ (v346 : IVec S16 32), Decidable (k0_chk70 v346) := fun v346 => decidable_of_iff' _ (Iff.of_eq (k0_chk70.eq_1 v346))
theorem k0_idx70_inb : ∀ (v346 : IVec S16 32) (k0_hw70 : k0_chk70 v346), ∀ a x, ((![v346] : Fin 1 → IVec S16 32) a x).toNat < S32768.size a := fun v346 k0_hw70 => k0_hw70
def k0_off11 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c2_i32_51 : BitVec 32 := 2#32
  let v298 : BitVec 32 := Scalar.subi v291 c2_i32_51
  let c512_i32_73 : BitVec 32 := 512#32
  let v347 : BitVec 32 := Scalar.muli v298 c512_i32_73
  let c0_i32_74 : BitVec 32 := 0#32
  let v348 : BitVec 32 := Scalar.addi v347 c0_i32_74
  let c96_i32 : BitVec 32 := 96#32
  let v349 : BitVec 32 := Scalar.addi v348 c96_i32
  let v350 : Index := Scalar.indexCast v349
  ![v350.toNat]

def k0_chk71 (v354 : IVec S16 32) : Prop :=
  (∀ a x, ((![v354] : Fin 1 → IVec S16 32) a x).toNat < S32768.size a)
instance k0_chk71.dec : ∀ (v354 : IVec S16 32), Decidable (k0_chk71 v354) := fun v354 => decidable_of_iff' _ (Iff.of_eq (k0_chk71.eq_1 v354))
theorem k0_idx71_inb : ∀ (v354 : IVec S16 32) (k0_hw71 : k0_chk71 v354), ∀ a x, ((![v354] : Fin 1 → IVec S16 32) a x).toNat < S32768.size a := fun v354 k0_hw71 => k0_hw71
def k0_off12 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c2_i32_51 : BitVec 32 := 2#32
  let v298 : BitVec 32 := Scalar.subi v291 c2_i32_51
  let c512_i32_76 : BitVec 32 := 512#32
  let v355 : BitVec 32 := Scalar.muli v298 c512_i32_76
  let c0_i32_77 : BitVec 32 := 0#32
  let v356 : BitVec 32 := Scalar.addi v355 c0_i32_77
  let c112_i32 : BitVec 32 := 112#32
  let v357 : BitVec 32 := Scalar.addi v356 c112_i32
  let v358 : Index := Scalar.indexCast v357
  ![v358.toNat]

def k0_chk72 (v362 : IVec S16 32) : Prop :=
  (∀ a x, ((![v362] : Fin 1 → IVec S16 32) a x).toNat < S32768.size a)
instance k0_chk72.dec : ∀ (v362 : IVec S16 32), Decidable (k0_chk72 v362) := fun v362 => decidable_of_iff' _ (Iff.of_eq (k0_chk72.eq_1 v362))
theorem k0_idx72_inb : ∀ (v362 : IVec S16 32) (k0_hw72 : k0_chk72 v362), ∀ a x, ((![v362] : Fin 1 → IVec S16 32) a x).toNat < S32768.size a := fun v362 k0_hw72 => k0_hw72
def k0_off13 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c2_i32_51 : BitVec 32 := 2#32
  let v298 : BitVec 32 := Scalar.subi v291 c2_i32_51
  let c512_i32_79 : BitVec 32 := 512#32
  let v363 : BitVec 32 := Scalar.muli v298 c512_i32_79
  let c128_i32_80 : BitVec 32 := 128#32
  let v364 : BitVec 32 := Scalar.addi v363 c128_i32_80
  let c0_i32_81 : BitVec 32 := 0#32
  let v365 : BitVec 32 := Scalar.addi v364 c0_i32_81
  let v366 : Index := Scalar.indexCast v365
  ![v366.toNat]

def k0_chk73 (v370 : IVec S16 32) : Prop :=
  (∀ a x, ((![v370] : Fin 1 → IVec S16 32) a x).toNat < S32768.size a)
instance k0_chk73.dec : ∀ (v370 : IVec S16 32), Decidable (k0_chk73 v370) := fun v370 => decidable_of_iff' _ (Iff.of_eq (k0_chk73.eq_1 v370))
theorem k0_idx73_inb : ∀ (v370 : IVec S16 32) (k0_hw73 : k0_chk73 v370), ∀ a x, ((![v370] : Fin 1 → IVec S16 32) a x).toNat < S32768.size a := fun v370 k0_hw73 => k0_hw73
def k0_off14 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c2_i32_51 : BitVec 32 := 2#32
  let v298 : BitVec 32 := Scalar.subi v291 c2_i32_51
  let c512_i32_83 : BitVec 32 := 512#32
  let v371 : BitVec 32 := Scalar.muli v298 c512_i32_83
  let c128_i32_84 : BitVec 32 := 128#32
  let v372 : BitVec 32 := Scalar.addi v371 c128_i32_84
  let c16_i32_85 : BitVec 32 := 16#32
  let v373 : BitVec 32 := Scalar.addi v372 c16_i32_85
  let v374 : Index := Scalar.indexCast v373
  ![v374.toNat]

def k0_chk74 (v378 : IVec S16 32) : Prop :=
  (∀ a x, ((![v378] : Fin 1 → IVec S16 32) a x).toNat < S32768.size a)
instance k0_chk74.dec : ∀ (v378 : IVec S16 32), Decidable (k0_chk74 v378) := fun v378 => decidable_of_iff' _ (Iff.of_eq (k0_chk74.eq_1 v378))
theorem k0_idx74_inb : ∀ (v378 : IVec S16 32) (k0_hw74 : k0_chk74 v378), ∀ a x, ((![v378] : Fin 1 → IVec S16 32) a x).toNat < S32768.size a := fun v378 k0_hw74 => k0_hw74
def k0_off15 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c2_i32_51 : BitVec 32 := 2#32
  let v298 : BitVec 32 := Scalar.subi v291 c2_i32_51
  let c512_i32_87 : BitVec 32 := 512#32
  let v379 : BitVec 32 := Scalar.muli v298 c512_i32_87
  let c128_i32_88 : BitVec 32 := 128#32
  let v380 : BitVec 32 := Scalar.addi v379 c128_i32_88
  let c32_i32_89 : BitVec 32 := 32#32
  let v381 : BitVec 32 := Scalar.addi v380 c32_i32_89
  let v382 : Index := Scalar.indexCast v381
  ![v382.toNat]

def k0_chk75 (v386 : IVec S16 32) : Prop :=
  (∀ a x, ((![v386] : Fin 1 → IVec S16 32) a x).toNat < S32768.size a)
instance k0_chk75.dec : ∀ (v386 : IVec S16 32), Decidable (k0_chk75 v386) := fun v386 => decidable_of_iff' _ (Iff.of_eq (k0_chk75.eq_1 v386))
theorem k0_idx75_inb : ∀ (v386 : IVec S16 32) (k0_hw75 : k0_chk75 v386), ∀ a x, ((![v386] : Fin 1 → IVec S16 32) a x).toNat < S32768.size a := fun v386 k0_hw75 => k0_hw75
def k0_off16 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c2_i32_51 : BitVec 32 := 2#32
  let v298 : BitVec 32 := Scalar.subi v291 c2_i32_51
  let c512_i32_91 : BitVec 32 := 512#32
  let v387 : BitVec 32 := Scalar.muli v298 c512_i32_91
  let c128_i32_92 : BitVec 32 := 128#32
  let v388 : BitVec 32 := Scalar.addi v387 c128_i32_92
  let c48_i32_93 : BitVec 32 := 48#32
  let v389 : BitVec 32 := Scalar.addi v388 c48_i32_93
  let v390 : Index := Scalar.indexCast v389
  ![v390.toNat]

def k0_chk76 (v394 : IVec S16 32) : Prop :=
  (∀ a x, ((![v394] : Fin 1 → IVec S16 32) a x).toNat < S32768.size a)
instance k0_chk76.dec : ∀ (v394 : IVec S16 32), Decidable (k0_chk76 v394) := fun v394 => decidable_of_iff' _ (Iff.of_eq (k0_chk76.eq_1 v394))
theorem k0_idx76_inb : ∀ (v394 : IVec S16 32) (k0_hw76 : k0_chk76 v394), ∀ a x, ((![v394] : Fin 1 → IVec S16 32) a x).toNat < S32768.size a := fun v394 k0_hw76 => k0_hw76
def k0_off17 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c2_i32_51 : BitVec 32 := 2#32
  let v298 : BitVec 32 := Scalar.subi v291 c2_i32_51
  let c512_i32_95 : BitVec 32 := 512#32
  let v395 : BitVec 32 := Scalar.muli v298 c512_i32_95
  let c128_i32_96 : BitVec 32 := 128#32
  let v396 : BitVec 32 := Scalar.addi v395 c128_i32_96
  let c64_i32_97 : BitVec 32 := 64#32
  let v397 : BitVec 32 := Scalar.addi v396 c64_i32_97
  let v398 : Index := Scalar.indexCast v397
  ![v398.toNat]

def k0_chk77 (v402 : IVec S16 32) : Prop :=
  (∀ a x, ((![v402] : Fin 1 → IVec S16 32) a x).toNat < S32768.size a)
instance k0_chk77.dec : ∀ (v402 : IVec S16 32), Decidable (k0_chk77 v402) := fun v402 => decidable_of_iff' _ (Iff.of_eq (k0_chk77.eq_1 v402))
theorem k0_idx77_inb : ∀ (v402 : IVec S16 32) (k0_hw77 : k0_chk77 v402), ∀ a x, ((![v402] : Fin 1 → IVec S16 32) a x).toNat < S32768.size a := fun v402 k0_hw77 => k0_hw77
def k0_off18 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c2_i32_51 : BitVec 32 := 2#32
  let v298 : BitVec 32 := Scalar.subi v291 c2_i32_51
  let c512_i32_99 : BitVec 32 := 512#32
  let v403 : BitVec 32 := Scalar.muli v298 c512_i32_99
  let c128_i32_100 : BitVec 32 := 128#32
  let v404 : BitVec 32 := Scalar.addi v403 c128_i32_100
  let c80_i32_101 : BitVec 32 := 80#32
  let v405 : BitVec 32 := Scalar.addi v404 c80_i32_101
  let v406 : Index := Scalar.indexCast v405
  ![v406.toNat]

def k0_chk78 (v410 : IVec S16 32) : Prop :=
  (∀ a x, ((![v410] : Fin 1 → IVec S16 32) a x).toNat < S32768.size a)
instance k0_chk78.dec : ∀ (v410 : IVec S16 32), Decidable (k0_chk78 v410) := fun v410 => decidable_of_iff' _ (Iff.of_eq (k0_chk78.eq_1 v410))
theorem k0_idx78_inb : ∀ (v410 : IVec S16 32) (k0_hw78 : k0_chk78 v410), ∀ a x, ((![v410] : Fin 1 → IVec S16 32) a x).toNat < S32768.size a := fun v410 k0_hw78 => k0_hw78
def k0_off19 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c2_i32_51 : BitVec 32 := 2#32
  let v298 : BitVec 32 := Scalar.subi v291 c2_i32_51
  let c512_i32_103 : BitVec 32 := 512#32
  let v411 : BitVec 32 := Scalar.muli v298 c512_i32_103
  let c128_i32_104 : BitVec 32 := 128#32
  let v412 : BitVec 32 := Scalar.addi v411 c128_i32_104
  let c96_i32_105 : BitVec 32 := 96#32
  let v413 : BitVec 32 := Scalar.addi v412 c96_i32_105
  let v414 : Index := Scalar.indexCast v413
  ![v414.toNat]

def k0_chk79 (v418 : IVec S16 32) : Prop :=
  (∀ a x, ((![v418] : Fin 1 → IVec S16 32) a x).toNat < S32768.size a)
instance k0_chk79.dec : ∀ (v418 : IVec S16 32), Decidable (k0_chk79 v418) := fun v418 => decidable_of_iff' _ (Iff.of_eq (k0_chk79.eq_1 v418))
theorem k0_idx79_inb : ∀ (v418 : IVec S16 32) (k0_hw79 : k0_chk79 v418), ∀ a x, ((![v418] : Fin 1 → IVec S16 32) a x).toNat < S32768.size a := fun v418 k0_hw79 => k0_hw79
def k0_off20 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c2_i32_51 : BitVec 32 := 2#32
  let v298 : BitVec 32 := Scalar.subi v291 c2_i32_51
  let c512_i32_107 : BitVec 32 := 512#32
  let v419 : BitVec 32 := Scalar.muli v298 c512_i32_107
  let c128_i32_108 : BitVec 32 := 128#32
  let v420 : BitVec 32 := Scalar.addi v419 c128_i32_108
  let c112_i32_109 : BitVec 32 := 112#32
  let v421 : BitVec 32 := Scalar.addi v420 c112_i32_109
  let v422 : Index := Scalar.indexCast v421
  ![v422.toNat]

def k0_chk80 (v426 : IVec S16 32) : Prop :=
  (∀ a x, ((![v426] : Fin 1 → IVec S16 32) a x).toNat < S32768.size a)
instance k0_chk80.dec : ∀ (v426 : IVec S16 32), Decidable (k0_chk80 v426) := fun v426 => decidable_of_iff' _ (Iff.of_eq (k0_chk80.eq_1 v426))
theorem k0_idx80_inb : ∀ (v426 : IVec S16 32) (k0_hw80 : k0_chk80 v426), ∀ a x, ((![v426] : Fin 1 → IVec S16 32) a x).toNat < S32768.size a := fun v426 k0_hw80 => k0_hw80
def k0_off21 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c2_i32_51 : BitVec 32 := 2#32
  let v298 : BitVec 32 := Scalar.subi v291 c2_i32_51
  let c512_i32_111 : BitVec 32 := 512#32
  let v427 : BitVec 32 := Scalar.muli v298 c512_i32_111
  let c256_i32_112 : BitVec 32 := 256#32
  let v428 : BitVec 32 := Scalar.addi v427 c256_i32_112
  let c0_i32_113 : BitVec 32 := 0#32
  let v429 : BitVec 32 := Scalar.addi v428 c0_i32_113
  let v430 : Index := Scalar.indexCast v429
  ![v430.toNat]

def k0_chk81 (v434 : IVec S16 32) : Prop :=
  (∀ a x, ((![v434] : Fin 1 → IVec S16 32) a x).toNat < S32768.size a)
instance k0_chk81.dec : ∀ (v434 : IVec S16 32), Decidable (k0_chk81 v434) := fun v434 => decidable_of_iff' _ (Iff.of_eq (k0_chk81.eq_1 v434))
theorem k0_idx81_inb : ∀ (v434 : IVec S16 32) (k0_hw81 : k0_chk81 v434), ∀ a x, ((![v434] : Fin 1 → IVec S16 32) a x).toNat < S32768.size a := fun v434 k0_hw81 => k0_hw81
def k0_off22 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c2_i32_51 : BitVec 32 := 2#32
  let v298 : BitVec 32 := Scalar.subi v291 c2_i32_51
  let c512_i32_115 : BitVec 32 := 512#32
  let v435 : BitVec 32 := Scalar.muli v298 c512_i32_115
  let c256_i32_116 : BitVec 32 := 256#32
  let v436 : BitVec 32 := Scalar.addi v435 c256_i32_116
  let c16_i32_117 : BitVec 32 := 16#32
  let v437 : BitVec 32 := Scalar.addi v436 c16_i32_117
  let v438 : Index := Scalar.indexCast v437
  ![v438.toNat]

def k0_chk82 (v442 : IVec S16 32) : Prop :=
  (∀ a x, ((![v442] : Fin 1 → IVec S16 32) a x).toNat < S32768.size a)
instance k0_chk82.dec : ∀ (v442 : IVec S16 32), Decidable (k0_chk82 v442) := fun v442 => decidable_of_iff' _ (Iff.of_eq (k0_chk82.eq_1 v442))
theorem k0_idx82_inb : ∀ (v442 : IVec S16 32) (k0_hw82 : k0_chk82 v442), ∀ a x, ((![v442] : Fin 1 → IVec S16 32) a x).toNat < S32768.size a := fun v442 k0_hw82 => k0_hw82
def k0_off23 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c2_i32_51 : BitVec 32 := 2#32
  let v298 : BitVec 32 := Scalar.subi v291 c2_i32_51
  let c512_i32_119 : BitVec 32 := 512#32
  let v443 : BitVec 32 := Scalar.muli v298 c512_i32_119
  let c256_i32_120 : BitVec 32 := 256#32
  let v444 : BitVec 32 := Scalar.addi v443 c256_i32_120
  let c32_i32_121 : BitVec 32 := 32#32
  let v445 : BitVec 32 := Scalar.addi v444 c32_i32_121
  let v446 : Index := Scalar.indexCast v445
  ![v446.toNat]

def k0_chk83 (v450 : IVec S16 32) : Prop :=
  (∀ a x, ((![v450] : Fin 1 → IVec S16 32) a x).toNat < S32768.size a)
instance k0_chk83.dec : ∀ (v450 : IVec S16 32), Decidable (k0_chk83 v450) := fun v450 => decidable_of_iff' _ (Iff.of_eq (k0_chk83.eq_1 v450))
theorem k0_idx83_inb : ∀ (v450 : IVec S16 32) (k0_hw83 : k0_chk83 v450), ∀ a x, ((![v450] : Fin 1 → IVec S16 32) a x).toNat < S32768.size a := fun v450 k0_hw83 => k0_hw83
def k0_off24 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c2_i32_51 : BitVec 32 := 2#32
  let v298 : BitVec 32 := Scalar.subi v291 c2_i32_51
  let c512_i32_123 : BitVec 32 := 512#32
  let v451 : BitVec 32 := Scalar.muli v298 c512_i32_123
  let c256_i32_124 : BitVec 32 := 256#32
  let v452 : BitVec 32 := Scalar.addi v451 c256_i32_124
  let c48_i32_125 : BitVec 32 := 48#32
  let v453 : BitVec 32 := Scalar.addi v452 c48_i32_125
  let v454 : Index := Scalar.indexCast v453
  ![v454.toNat]

def k0_chk84 (v458 : IVec S16 32) : Prop :=
  (∀ a x, ((![v458] : Fin 1 → IVec S16 32) a x).toNat < S32768.size a)
instance k0_chk84.dec : ∀ (v458 : IVec S16 32), Decidable (k0_chk84 v458) := fun v458 => decidable_of_iff' _ (Iff.of_eq (k0_chk84.eq_1 v458))
theorem k0_idx84_inb : ∀ (v458 : IVec S16 32) (k0_hw84 : k0_chk84 v458), ∀ a x, ((![v458] : Fin 1 → IVec S16 32) a x).toNat < S32768.size a := fun v458 k0_hw84 => k0_hw84
def k0_off25 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c2_i32_51 : BitVec 32 := 2#32
  let v298 : BitVec 32 := Scalar.subi v291 c2_i32_51
  let c512_i32_127 : BitVec 32 := 512#32
  let v459 : BitVec 32 := Scalar.muli v298 c512_i32_127
  let c256_i32_128 : BitVec 32 := 256#32
  let v460 : BitVec 32 := Scalar.addi v459 c256_i32_128
  let c64_i32_129 : BitVec 32 := 64#32
  let v461 : BitVec 32 := Scalar.addi v460 c64_i32_129
  let v462 : Index := Scalar.indexCast v461
  ![v462.toNat]

def k0_chk85 (v466 : IVec S16 32) : Prop :=
  (∀ a x, ((![v466] : Fin 1 → IVec S16 32) a x).toNat < S32768.size a)
instance k0_chk85.dec : ∀ (v466 : IVec S16 32), Decidable (k0_chk85 v466) := fun v466 => decidable_of_iff' _ (Iff.of_eq (k0_chk85.eq_1 v466))
theorem k0_idx85_inb : ∀ (v466 : IVec S16 32) (k0_hw85 : k0_chk85 v466), ∀ a x, ((![v466] : Fin 1 → IVec S16 32) a x).toNat < S32768.size a := fun v466 k0_hw85 => k0_hw85
def k0_off26 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c2_i32_51 : BitVec 32 := 2#32
  let v298 : BitVec 32 := Scalar.subi v291 c2_i32_51
  let c512_i32_131 : BitVec 32 := 512#32
  let v467 : BitVec 32 := Scalar.muli v298 c512_i32_131
  let c256_i32_132 : BitVec 32 := 256#32
  let v468 : BitVec 32 := Scalar.addi v467 c256_i32_132
  let c80_i32_133 : BitVec 32 := 80#32
  let v469 : BitVec 32 := Scalar.addi v468 c80_i32_133
  let v470 : Index := Scalar.indexCast v469
  ![v470.toNat]

def k0_chk86 (v474 : IVec S16 32) : Prop :=
  (∀ a x, ((![v474] : Fin 1 → IVec S16 32) a x).toNat < S32768.size a)
instance k0_chk86.dec : ∀ (v474 : IVec S16 32), Decidable (k0_chk86 v474) := fun v474 => decidable_of_iff' _ (Iff.of_eq (k0_chk86.eq_1 v474))
theorem k0_idx86_inb : ∀ (v474 : IVec S16 32) (k0_hw86 : k0_chk86 v474), ∀ a x, ((![v474] : Fin 1 → IVec S16 32) a x).toNat < S32768.size a := fun v474 k0_hw86 => k0_hw86
def k0_off27 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c2_i32_51 : BitVec 32 := 2#32
  let v298 : BitVec 32 := Scalar.subi v291 c2_i32_51
  let c512_i32_135 : BitVec 32 := 512#32
  let v475 : BitVec 32 := Scalar.muli v298 c512_i32_135
  let c256_i32_136 : BitVec 32 := 256#32
  let v476 : BitVec 32 := Scalar.addi v475 c256_i32_136
  let c96_i32_137 : BitVec 32 := 96#32
  let v477 : BitVec 32 := Scalar.addi v476 c96_i32_137
  let v478 : Index := Scalar.indexCast v477
  ![v478.toNat]

def k0_chk87 (v482 : IVec S16 32) : Prop :=
  (∀ a x, ((![v482] : Fin 1 → IVec S16 32) a x).toNat < S32768.size a)
instance k0_chk87.dec : ∀ (v482 : IVec S16 32), Decidable (k0_chk87 v482) := fun v482 => decidable_of_iff' _ (Iff.of_eq (k0_chk87.eq_1 v482))
theorem k0_idx87_inb : ∀ (v482 : IVec S16 32) (k0_hw87 : k0_chk87 v482), ∀ a x, ((![v482] : Fin 1 → IVec S16 32) a x).toNat < S32768.size a := fun v482 k0_hw87 => k0_hw87
def k0_off28 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c2_i32_51 : BitVec 32 := 2#32
  let v298 : BitVec 32 := Scalar.subi v291 c2_i32_51
  let c512_i32_139 : BitVec 32 := 512#32
  let v483 : BitVec 32 := Scalar.muli v298 c512_i32_139
  let c256_i32_140 : BitVec 32 := 256#32
  let v484 : BitVec 32 := Scalar.addi v483 c256_i32_140
  let c112_i32_141 : BitVec 32 := 112#32
  let v485 : BitVec 32 := Scalar.addi v484 c112_i32_141
  let v486 : Index := Scalar.indexCast v485
  ![v486.toNat]

def k0_chk88 (v490 : IVec S16 32) : Prop :=
  (∀ a x, ((![v490] : Fin 1 → IVec S16 32) a x).toNat < S32768.size a)
instance k0_chk88.dec : ∀ (v490 : IVec S16 32), Decidable (k0_chk88 v490) := fun v490 => decidable_of_iff' _ (Iff.of_eq (k0_chk88.eq_1 v490))
theorem k0_idx88_inb : ∀ (v490 : IVec S16 32) (k0_hw88 : k0_chk88 v490), ∀ a x, ((![v490] : Fin 1 → IVec S16 32) a x).toNat < S32768.size a := fun v490 k0_hw88 => k0_hw88
def k0_off29 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c2_i32_51 : BitVec 32 := 2#32
  let v298 : BitVec 32 := Scalar.subi v291 c2_i32_51
  let c512_i32_143 : BitVec 32 := 512#32
  let v491 : BitVec 32 := Scalar.muli v298 c512_i32_143
  let c384_i32 : BitVec 32 := 384#32
  let v492 : BitVec 32 := Scalar.addi v491 c384_i32
  let c0_i32_144 : BitVec 32 := 0#32
  let v493 : BitVec 32 := Scalar.addi v492 c0_i32_144
  let v494 : Index := Scalar.indexCast v493
  ![v494.toNat]

def k0_chk89 (v498 : IVec S16 32) : Prop :=
  (∀ a x, ((![v498] : Fin 1 → IVec S16 32) a x).toNat < S32768.size a)
instance k0_chk89.dec : ∀ (v498 : IVec S16 32), Decidable (k0_chk89 v498) := fun v498 => decidable_of_iff' _ (Iff.of_eq (k0_chk89.eq_1 v498))
theorem k0_idx89_inb : ∀ (v498 : IVec S16 32) (k0_hw89 : k0_chk89 v498), ∀ a x, ((![v498] : Fin 1 → IVec S16 32) a x).toNat < S32768.size a := fun v498 k0_hw89 => k0_hw89
def k0_off30 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c2_i32_51 : BitVec 32 := 2#32
  let v298 : BitVec 32 := Scalar.subi v291 c2_i32_51
  let c512_i32_146 : BitVec 32 := 512#32
  let v499 : BitVec 32 := Scalar.muli v298 c512_i32_146
  let c384_i32_147 : BitVec 32 := 384#32
  let v500 : BitVec 32 := Scalar.addi v499 c384_i32_147
  let c16_i32_148 : BitVec 32 := 16#32
  let v501 : BitVec 32 := Scalar.addi v500 c16_i32_148
  let v502 : Index := Scalar.indexCast v501
  ![v502.toNat]

def k0_chk90 (v506 : IVec S16 32) : Prop :=
  (∀ a x, ((![v506] : Fin 1 → IVec S16 32) a x).toNat < S32768.size a)
instance k0_chk90.dec : ∀ (v506 : IVec S16 32), Decidable (k0_chk90 v506) := fun v506 => decidable_of_iff' _ (Iff.of_eq (k0_chk90.eq_1 v506))
theorem k0_idx90_inb : ∀ (v506 : IVec S16 32) (k0_hw90 : k0_chk90 v506), ∀ a x, ((![v506] : Fin 1 → IVec S16 32) a x).toNat < S32768.size a := fun v506 k0_hw90 => k0_hw90
def k0_off31 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c2_i32_51 : BitVec 32 := 2#32
  let v298 : BitVec 32 := Scalar.subi v291 c2_i32_51
  let c512_i32_150 : BitVec 32 := 512#32
  let v507 : BitVec 32 := Scalar.muli v298 c512_i32_150
  let c384_i32_151 : BitVec 32 := 384#32
  let v508 : BitVec 32 := Scalar.addi v507 c384_i32_151
  let c32_i32_152 : BitVec 32 := 32#32
  let v509 : BitVec 32 := Scalar.addi v508 c32_i32_152
  let v510 : Index := Scalar.indexCast v509
  ![v510.toNat]

def k0_chk91 (v514 : IVec S16 32) : Prop :=
  (∀ a x, ((![v514] : Fin 1 → IVec S16 32) a x).toNat < S32768.size a)
instance k0_chk91.dec : ∀ (v514 : IVec S16 32), Decidable (k0_chk91 v514) := fun v514 => decidable_of_iff' _ (Iff.of_eq (k0_chk91.eq_1 v514))
theorem k0_idx91_inb : ∀ (v514 : IVec S16 32) (k0_hw91 : k0_chk91 v514), ∀ a x, ((![v514] : Fin 1 → IVec S16 32) a x).toNat < S32768.size a := fun v514 k0_hw91 => k0_hw91
def k0_off32 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c2_i32_51 : BitVec 32 := 2#32
  let v298 : BitVec 32 := Scalar.subi v291 c2_i32_51
  let c512_i32_154 : BitVec 32 := 512#32
  let v515 : BitVec 32 := Scalar.muli v298 c512_i32_154
  let c384_i32_155 : BitVec 32 := 384#32
  let v516 : BitVec 32 := Scalar.addi v515 c384_i32_155
  let c48_i32_156 : BitVec 32 := 48#32
  let v517 : BitVec 32 := Scalar.addi v516 c48_i32_156
  let v518 : Index := Scalar.indexCast v517
  ![v518.toNat]

def k0_chk92 (v522 : IVec S16 32) : Prop :=
  (∀ a x, ((![v522] : Fin 1 → IVec S16 32) a x).toNat < S32768.size a)
instance k0_chk92.dec : ∀ (v522 : IVec S16 32), Decidable (k0_chk92 v522) := fun v522 => decidable_of_iff' _ (Iff.of_eq (k0_chk92.eq_1 v522))
theorem k0_idx92_inb : ∀ (v522 : IVec S16 32) (k0_hw92 : k0_chk92 v522), ∀ a x, ((![v522] : Fin 1 → IVec S16 32) a x).toNat < S32768.size a := fun v522 k0_hw92 => k0_hw92
def k0_off33 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c2_i32_51 : BitVec 32 := 2#32
  let v298 : BitVec 32 := Scalar.subi v291 c2_i32_51
  let c512_i32_158 : BitVec 32 := 512#32
  let v523 : BitVec 32 := Scalar.muli v298 c512_i32_158
  let c384_i32_159 : BitVec 32 := 384#32
  let v524 : BitVec 32 := Scalar.addi v523 c384_i32_159
  let c64_i32_160 : BitVec 32 := 64#32
  let v525 : BitVec 32 := Scalar.addi v524 c64_i32_160
  let v526 : Index := Scalar.indexCast v525
  ![v526.toNat]

def k0_chk93 (v530 : IVec S16 32) : Prop :=
  (∀ a x, ((![v530] : Fin 1 → IVec S16 32) a x).toNat < S32768.size a)
instance k0_chk93.dec : ∀ (v530 : IVec S16 32), Decidable (k0_chk93 v530) := fun v530 => decidable_of_iff' _ (Iff.of_eq (k0_chk93.eq_1 v530))
theorem k0_idx93_inb : ∀ (v530 : IVec S16 32) (k0_hw93 : k0_chk93 v530), ∀ a x, ((![v530] : Fin 1 → IVec S16 32) a x).toNat < S32768.size a := fun v530 k0_hw93 => k0_hw93
def k0_off34 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c2_i32_51 : BitVec 32 := 2#32
  let v298 : BitVec 32 := Scalar.subi v291 c2_i32_51
  let c512_i32_162 : BitVec 32 := 512#32
  let v531 : BitVec 32 := Scalar.muli v298 c512_i32_162
  let c384_i32_163 : BitVec 32 := 384#32
  let v532 : BitVec 32 := Scalar.addi v531 c384_i32_163
  let c80_i32_164 : BitVec 32 := 80#32
  let v533 : BitVec 32 := Scalar.addi v532 c80_i32_164
  let v534 : Index := Scalar.indexCast v533
  ![v534.toNat]

def k0_chk94 (v538 : IVec S16 32) : Prop :=
  (∀ a x, ((![v538] : Fin 1 → IVec S16 32) a x).toNat < S32768.size a)
instance k0_chk94.dec : ∀ (v538 : IVec S16 32), Decidable (k0_chk94 v538) := fun v538 => decidable_of_iff' _ (Iff.of_eq (k0_chk94.eq_1 v538))
theorem k0_idx94_inb : ∀ (v538 : IVec S16 32) (k0_hw94 : k0_chk94 v538), ∀ a x, ((![v538] : Fin 1 → IVec S16 32) a x).toNat < S32768.size a := fun v538 k0_hw94 => k0_hw94
def k0_off35 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c2_i32_51 : BitVec 32 := 2#32
  let v298 : BitVec 32 := Scalar.subi v291 c2_i32_51
  let c512_i32_166 : BitVec 32 := 512#32
  let v539 : BitVec 32 := Scalar.muli v298 c512_i32_166
  let c384_i32_167 : BitVec 32 := 384#32
  let v540 : BitVec 32 := Scalar.addi v539 c384_i32_167
  let c96_i32_168 : BitVec 32 := 96#32
  let v541 : BitVec 32 := Scalar.addi v540 c96_i32_168
  let v542 : Index := Scalar.indexCast v541
  ![v542.toNat]

def k0_chk95 (v546 : IVec S16 32) : Prop :=
  (∀ a x, ((![v546] : Fin 1 → IVec S16 32) a x).toNat < S32768.size a)
instance k0_chk95.dec : ∀ (v546 : IVec S16 32), Decidable (k0_chk95 v546) := fun v546 => decidable_of_iff' _ (Iff.of_eq (k0_chk95.eq_1 v546))
theorem k0_idx95_inb : ∀ (v546 : IVec S16 32) (k0_hw95 : k0_chk95 v546), ∀ a x, ((![v546] : Fin 1 → IVec S16 32) a x).toNat < S32768.size a := fun v546 k0_hw95 => k0_hw95
def k0_off36 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c2_i32_51 : BitVec 32 := 2#32
  let v298 : BitVec 32 := Scalar.subi v291 c2_i32_51
  let c512_i32_170 : BitVec 32 := 512#32
  let v547 : BitVec 32 := Scalar.muli v298 c512_i32_170
  let c384_i32_171 : BitVec 32 := 384#32
  let v548 : BitVec 32 := Scalar.addi v547 c384_i32_171
  let c112_i32_172 : BitVec 32 := 112#32
  let v549 : BitVec 32 := Scalar.addi v548 c112_i32_172
  let v550 : Index := Scalar.indexCast v549
  ![v550.toNat]

def k0_chk96 (v554 : IVec S16 32) : Prop :=
  (∀ a x, ((![v554] : Fin 1 → IVec S16 32) a x).toNat < S32768.size a)
instance k0_chk96.dec : ∀ (v554 : IVec S16 32), Decidable (k0_chk96 v554) := fun v554 => decidable_of_iff' _ (Iff.of_eq (k0_chk96.eq_1 v554))
theorem k0_idx96_inb : ∀ (v554 : IVec S16 32) (k0_hw96 : k0_chk96 v554), ∀ a x, ((![v554] : Fin 1 → IVec S16 32) a x).toNat < S32768.size a := fun v554 k0_hw96 => k0_hw96
def k0_off37 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c512_i32_174 : BitVec 32 := 512#32
  let v555 : BitVec 32 := Scalar.muli v291 c512_i32_174
  let c0_i32_175 : BitVec 32 := 0#32
  let v556 : BitVec 32 := Scalar.addi v555 c0_i32_175
  let c0_i32_176 : BitVec 32 := 0#32
  let v557 : BitVec 32 := Scalar.addi v556 c0_i32_176
  let v558 : Index := Scalar.indexCast v557
  ![v558.toNat]

def k0_chk97 (v562 : IVec S16 32) : Prop :=
  (∀ a x, ((![v562] : Fin 1 → IVec S16 32) a x).toNat < S32768.size a)
instance k0_chk97.dec : ∀ (v562 : IVec S16 32), Decidable (k0_chk97 v562) := fun v562 => decidable_of_iff' _ (Iff.of_eq (k0_chk97.eq_1 v562))
theorem k0_idx97_inb : ∀ (v562 : IVec S16 32) (k0_hw97 : k0_chk97 v562), ∀ a x, ((![v562] : Fin 1 → IVec S16 32) a x).toNat < S32768.size a := fun v562 k0_hw97 => k0_hw97
def k0_off38 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c512_i32_178 : BitVec 32 := 512#32
  let v563 : BitVec 32 := Scalar.muli v291 c512_i32_178
  let c0_i32_179 : BitVec 32 := 0#32
  let v564 : BitVec 32 := Scalar.addi v563 c0_i32_179
  let c16_i32_180 : BitVec 32 := 16#32
  let v565 : BitVec 32 := Scalar.addi v564 c16_i32_180
  let v566 : Index := Scalar.indexCast v565
  ![v566.toNat]

def k0_chk98 (v570 : IVec S16 32) : Prop :=
  (∀ a x, ((![v570] : Fin 1 → IVec S16 32) a x).toNat < S32768.size a)
instance k0_chk98.dec : ∀ (v570 : IVec S16 32), Decidable (k0_chk98 v570) := fun v570 => decidable_of_iff' _ (Iff.of_eq (k0_chk98.eq_1 v570))
theorem k0_idx98_inb : ∀ (v570 : IVec S16 32) (k0_hw98 : k0_chk98 v570), ∀ a x, ((![v570] : Fin 1 → IVec S16 32) a x).toNat < S32768.size a := fun v570 k0_hw98 => k0_hw98
def k0_off39 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c512_i32_182 : BitVec 32 := 512#32
  let v571 : BitVec 32 := Scalar.muli v291 c512_i32_182
  let c0_i32_183 : BitVec 32 := 0#32
  let v572 : BitVec 32 := Scalar.addi v571 c0_i32_183
  let c32_i32_184 : BitVec 32 := 32#32
  let v573 : BitVec 32 := Scalar.addi v572 c32_i32_184
  let v574 : Index := Scalar.indexCast v573
  ![v574.toNat]

def k0_chk99 (v578 : IVec S16 32) : Prop :=
  (∀ a x, ((![v578] : Fin 1 → IVec S16 32) a x).toNat < S32768.size a)
instance k0_chk99.dec : ∀ (v578 : IVec S16 32), Decidable (k0_chk99 v578) := fun v578 => decidable_of_iff' _ (Iff.of_eq (k0_chk99.eq_1 v578))
theorem k0_idx99_inb : ∀ (v578 : IVec S16 32) (k0_hw99 : k0_chk99 v578), ∀ a x, ((![v578] : Fin 1 → IVec S16 32) a x).toNat < S32768.size a := fun v578 k0_hw99 => k0_hw99
def k0_off40 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c512_i32_186 : BitVec 32 := 512#32
  let v579 : BitVec 32 := Scalar.muli v291 c512_i32_186
  let c0_i32_187 : BitVec 32 := 0#32
  let v580 : BitVec 32 := Scalar.addi v579 c0_i32_187
  let c48_i32_188 : BitVec 32 := 48#32
  let v581 : BitVec 32 := Scalar.addi v580 c48_i32_188
  let v582 : Index := Scalar.indexCast v581
  ![v582.toNat]

def k0_chk100 (v586 : IVec S16 32) : Prop :=
  (∀ a x, ((![v586] : Fin 1 → IVec S16 32) a x).toNat < S32768.size a)
instance k0_chk100.dec : ∀ (v586 : IVec S16 32), Decidable (k0_chk100 v586) := fun v586 => decidable_of_iff' _ (Iff.of_eq (k0_chk100.eq_1 v586))
theorem k0_idx100_inb : ∀ (v586 : IVec S16 32) (k0_hw100 : k0_chk100 v586), ∀ a x, ((![v586] : Fin 1 → IVec S16 32) a x).toNat < S32768.size a := fun v586 k0_hw100 => k0_hw100
def k0_off41 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c512_i32_190 : BitVec 32 := 512#32
  let v587 : BitVec 32 := Scalar.muli v291 c512_i32_190
  let c0_i32_191 : BitVec 32 := 0#32
  let v588 : BitVec 32 := Scalar.addi v587 c0_i32_191
  let c64_i32_192 : BitVec 32 := 64#32
  let v589 : BitVec 32 := Scalar.addi v588 c64_i32_192
  let v590 : Index := Scalar.indexCast v589
  ![v590.toNat]

def k0_chk101 (v594 : IVec S16 32) : Prop :=
  (∀ a x, ((![v594] : Fin 1 → IVec S16 32) a x).toNat < S32768.size a)
instance k0_chk101.dec : ∀ (v594 : IVec S16 32), Decidable (k0_chk101 v594) := fun v594 => decidable_of_iff' _ (Iff.of_eq (k0_chk101.eq_1 v594))
theorem k0_idx101_inb : ∀ (v594 : IVec S16 32) (k0_hw101 : k0_chk101 v594), ∀ a x, ((![v594] : Fin 1 → IVec S16 32) a x).toNat < S32768.size a := fun v594 k0_hw101 => k0_hw101
def k0_off42 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c512_i32_194 : BitVec 32 := 512#32
  let v595 : BitVec 32 := Scalar.muli v291 c512_i32_194
  let c0_i32_195 : BitVec 32 := 0#32
  let v596 : BitVec 32 := Scalar.addi v595 c0_i32_195
  let c80_i32_196 : BitVec 32 := 80#32
  let v597 : BitVec 32 := Scalar.addi v596 c80_i32_196
  let v598 : Index := Scalar.indexCast v597
  ![v598.toNat]

def k0_chk102 (v602 : IVec S16 32) : Prop :=
  (∀ a x, ((![v602] : Fin 1 → IVec S16 32) a x).toNat < S32768.size a)
instance k0_chk102.dec : ∀ (v602 : IVec S16 32), Decidable (k0_chk102 v602) := fun v602 => decidable_of_iff' _ (Iff.of_eq (k0_chk102.eq_1 v602))
theorem k0_idx102_inb : ∀ (v602 : IVec S16 32) (k0_hw102 : k0_chk102 v602), ∀ a x, ((![v602] : Fin 1 → IVec S16 32) a x).toNat < S32768.size a := fun v602 k0_hw102 => k0_hw102
def k0_off43 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c512_i32_198 : BitVec 32 := 512#32
  let v603 : BitVec 32 := Scalar.muli v291 c512_i32_198
  let c0_i32_199 : BitVec 32 := 0#32
  let v604 : BitVec 32 := Scalar.addi v603 c0_i32_199
  let c96_i32_200 : BitVec 32 := 96#32
  let v605 : BitVec 32 := Scalar.addi v604 c96_i32_200
  let v606 : Index := Scalar.indexCast v605
  ![v606.toNat]

def k0_chk103 (v610 : IVec S16 32) : Prop :=
  (∀ a x, ((![v610] : Fin 1 → IVec S16 32) a x).toNat < S32768.size a)
instance k0_chk103.dec : ∀ (v610 : IVec S16 32), Decidable (k0_chk103 v610) := fun v610 => decidable_of_iff' _ (Iff.of_eq (k0_chk103.eq_1 v610))
theorem k0_idx103_inb : ∀ (v610 : IVec S16 32) (k0_hw103 : k0_chk103 v610), ∀ a x, ((![v610] : Fin 1 → IVec S16 32) a x).toNat < S32768.size a := fun v610 k0_hw103 => k0_hw103
def k0_off44 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c512_i32_202 : BitVec 32 := 512#32
  let v611 : BitVec 32 := Scalar.muli v291 c512_i32_202
  let c0_i32_203 : BitVec 32 := 0#32
  let v612 : BitVec 32 := Scalar.addi v611 c0_i32_203
  let c112_i32_204 : BitVec 32 := 112#32
  let v613 : BitVec 32 := Scalar.addi v612 c112_i32_204
  let v614 : Index := Scalar.indexCast v613
  ![v614.toNat]

def k0_chk104 (v618 : IVec S16 32) : Prop :=
  (∀ a x, ((![v618] : Fin 1 → IVec S16 32) a x).toNat < S32768.size a)
instance k0_chk104.dec : ∀ (v618 : IVec S16 32), Decidable (k0_chk104 v618) := fun v618 => decidable_of_iff' _ (Iff.of_eq (k0_chk104.eq_1 v618))
theorem k0_idx104_inb : ∀ (v618 : IVec S16 32) (k0_hw104 : k0_chk104 v618), ∀ a x, ((![v618] : Fin 1 → IVec S16 32) a x).toNat < S32768.size a := fun v618 k0_hw104 => k0_hw104
def k0_off45 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c512_i32_206 : BitVec 32 := 512#32
  let v619 : BitVec 32 := Scalar.muli v291 c512_i32_206
  let c128_i32_207 : BitVec 32 := 128#32
  let v620 : BitVec 32 := Scalar.addi v619 c128_i32_207
  let c0_i32_208 : BitVec 32 := 0#32
  let v621 : BitVec 32 := Scalar.addi v620 c0_i32_208
  let v622 : Index := Scalar.indexCast v621
  ![v622.toNat]

def k0_chk105 (v626 : IVec S16 32) : Prop :=
  (∀ a x, ((![v626] : Fin 1 → IVec S16 32) a x).toNat < S32768.size a)
instance k0_chk105.dec : ∀ (v626 : IVec S16 32), Decidable (k0_chk105 v626) := fun v626 => decidable_of_iff' _ (Iff.of_eq (k0_chk105.eq_1 v626))
theorem k0_idx105_inb : ∀ (v626 : IVec S16 32) (k0_hw105 : k0_chk105 v626), ∀ a x, ((![v626] : Fin 1 → IVec S16 32) a x).toNat < S32768.size a := fun v626 k0_hw105 => k0_hw105
def k0_off46 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c512_i32_210 : BitVec 32 := 512#32
  let v627 : BitVec 32 := Scalar.muli v291 c512_i32_210
  let c128_i32_211 : BitVec 32 := 128#32
  let v628 : BitVec 32 := Scalar.addi v627 c128_i32_211
  let c16_i32_212 : BitVec 32 := 16#32
  let v629 : BitVec 32 := Scalar.addi v628 c16_i32_212
  let v630 : Index := Scalar.indexCast v629
  ![v630.toNat]

def k0_chk106 (v634 : IVec S16 32) : Prop :=
  (∀ a x, ((![v634] : Fin 1 → IVec S16 32) a x).toNat < S32768.size a)
instance k0_chk106.dec : ∀ (v634 : IVec S16 32), Decidable (k0_chk106 v634) := fun v634 => decidable_of_iff' _ (Iff.of_eq (k0_chk106.eq_1 v634))
theorem k0_idx106_inb : ∀ (v634 : IVec S16 32) (k0_hw106 : k0_chk106 v634), ∀ a x, ((![v634] : Fin 1 → IVec S16 32) a x).toNat < S32768.size a := fun v634 k0_hw106 => k0_hw106
def k0_off47 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c512_i32_214 : BitVec 32 := 512#32
  let v635 : BitVec 32 := Scalar.muli v291 c512_i32_214
  let c128_i32_215 : BitVec 32 := 128#32
  let v636 : BitVec 32 := Scalar.addi v635 c128_i32_215
  let c32_i32_216 : BitVec 32 := 32#32
  let v637 : BitVec 32 := Scalar.addi v636 c32_i32_216
  let v638 : Index := Scalar.indexCast v637
  ![v638.toNat]

def k0_chk107 (v642 : IVec S16 32) : Prop :=
  (∀ a x, ((![v642] : Fin 1 → IVec S16 32) a x).toNat < S32768.size a)
instance k0_chk107.dec : ∀ (v642 : IVec S16 32), Decidable (k0_chk107 v642) := fun v642 => decidable_of_iff' _ (Iff.of_eq (k0_chk107.eq_1 v642))
theorem k0_idx107_inb : ∀ (v642 : IVec S16 32) (k0_hw107 : k0_chk107 v642), ∀ a x, ((![v642] : Fin 1 → IVec S16 32) a x).toNat < S32768.size a := fun v642 k0_hw107 => k0_hw107
def k0_off48 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c512_i32_218 : BitVec 32 := 512#32
  let v643 : BitVec 32 := Scalar.muli v291 c512_i32_218
  let c128_i32_219 : BitVec 32 := 128#32
  let v644 : BitVec 32 := Scalar.addi v643 c128_i32_219
  let c48_i32_220 : BitVec 32 := 48#32
  let v645 : BitVec 32 := Scalar.addi v644 c48_i32_220
  let v646 : Index := Scalar.indexCast v645
  ![v646.toNat]

def k0_chk108 (v650 : IVec S16 32) : Prop :=
  (∀ a x, ((![v650] : Fin 1 → IVec S16 32) a x).toNat < S32768.size a)
instance k0_chk108.dec : ∀ (v650 : IVec S16 32), Decidable (k0_chk108 v650) := fun v650 => decidable_of_iff' _ (Iff.of_eq (k0_chk108.eq_1 v650))
theorem k0_idx108_inb : ∀ (v650 : IVec S16 32) (k0_hw108 : k0_chk108 v650), ∀ a x, ((![v650] : Fin 1 → IVec S16 32) a x).toNat < S32768.size a := fun v650 k0_hw108 => k0_hw108
def k0_off49 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c512_i32_222 : BitVec 32 := 512#32
  let v651 : BitVec 32 := Scalar.muli v291 c512_i32_222
  let c128_i32_223 : BitVec 32 := 128#32
  let v652 : BitVec 32 := Scalar.addi v651 c128_i32_223
  let c64_i32_224 : BitVec 32 := 64#32
  let v653 : BitVec 32 := Scalar.addi v652 c64_i32_224
  let v654 : Index := Scalar.indexCast v653
  ![v654.toNat]

def k0_chk109 (v658 : IVec S16 32) : Prop :=
  (∀ a x, ((![v658] : Fin 1 → IVec S16 32) a x).toNat < S32768.size a)
instance k0_chk109.dec : ∀ (v658 : IVec S16 32), Decidable (k0_chk109 v658) := fun v658 => decidable_of_iff' _ (Iff.of_eq (k0_chk109.eq_1 v658))
theorem k0_idx109_inb : ∀ (v658 : IVec S16 32) (k0_hw109 : k0_chk109 v658), ∀ a x, ((![v658] : Fin 1 → IVec S16 32) a x).toNat < S32768.size a := fun v658 k0_hw109 => k0_hw109
def k0_off50 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c512_i32_226 : BitVec 32 := 512#32
  let v659 : BitVec 32 := Scalar.muli v291 c512_i32_226
  let c128_i32_227 : BitVec 32 := 128#32
  let v660 : BitVec 32 := Scalar.addi v659 c128_i32_227
  let c80_i32_228 : BitVec 32 := 80#32
  let v661 : BitVec 32 := Scalar.addi v660 c80_i32_228
  let v662 : Index := Scalar.indexCast v661
  ![v662.toNat]

def k0_chk110 (v666 : IVec S16 32) : Prop :=
  (∀ a x, ((![v666] : Fin 1 → IVec S16 32) a x).toNat < S32768.size a)
instance k0_chk110.dec : ∀ (v666 : IVec S16 32), Decidable (k0_chk110 v666) := fun v666 => decidable_of_iff' _ (Iff.of_eq (k0_chk110.eq_1 v666))
theorem k0_idx110_inb : ∀ (v666 : IVec S16 32) (k0_hw110 : k0_chk110 v666), ∀ a x, ((![v666] : Fin 1 → IVec S16 32) a x).toNat < S32768.size a := fun v666 k0_hw110 => k0_hw110
def k0_off51 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c512_i32_230 : BitVec 32 := 512#32
  let v667 : BitVec 32 := Scalar.muli v291 c512_i32_230
  let c128_i32_231 : BitVec 32 := 128#32
  let v668 : BitVec 32 := Scalar.addi v667 c128_i32_231
  let c96_i32_232 : BitVec 32 := 96#32
  let v669 : BitVec 32 := Scalar.addi v668 c96_i32_232
  let v670 : Index := Scalar.indexCast v669
  ![v670.toNat]

def k0_chk111 (v674 : IVec S16 32) : Prop :=
  (∀ a x, ((![v674] : Fin 1 → IVec S16 32) a x).toNat < S32768.size a)
instance k0_chk111.dec : ∀ (v674 : IVec S16 32), Decidable (k0_chk111 v674) := fun v674 => decidable_of_iff' _ (Iff.of_eq (k0_chk111.eq_1 v674))
theorem k0_idx111_inb : ∀ (v674 : IVec S16 32) (k0_hw111 : k0_chk111 v674), ∀ a x, ((![v674] : Fin 1 → IVec S16 32) a x).toNat < S32768.size a := fun v674 k0_hw111 => k0_hw111
def k0_off52 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c512_i32_234 : BitVec 32 := 512#32
  let v675 : BitVec 32 := Scalar.muli v291 c512_i32_234
  let c128_i32_235 : BitVec 32 := 128#32
  let v676 : BitVec 32 := Scalar.addi v675 c128_i32_235
  let c112_i32_236 : BitVec 32 := 112#32
  let v677 : BitVec 32 := Scalar.addi v676 c112_i32_236
  let v678 : Index := Scalar.indexCast v677
  ![v678.toNat]

def k0_chk112 (v682 : IVec S16 32) : Prop :=
  (∀ a x, ((![v682] : Fin 1 → IVec S16 32) a x).toNat < S32768.size a)
instance k0_chk112.dec : ∀ (v682 : IVec S16 32), Decidable (k0_chk112 v682) := fun v682 => decidable_of_iff' _ (Iff.of_eq (k0_chk112.eq_1 v682))
theorem k0_idx112_inb : ∀ (v682 : IVec S16 32) (k0_hw112 : k0_chk112 v682), ∀ a x, ((![v682] : Fin 1 → IVec S16 32) a x).toNat < S32768.size a := fun v682 k0_hw112 => k0_hw112
def k0_off53 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c512_i32_238 : BitVec 32 := 512#32
  let v683 : BitVec 32 := Scalar.muli v291 c512_i32_238
  let c256_i32_239 : BitVec 32 := 256#32
  let v684 : BitVec 32 := Scalar.addi v683 c256_i32_239
  let c0_i32_240 : BitVec 32 := 0#32
  let v685 : BitVec 32 := Scalar.addi v684 c0_i32_240
  let v686 : Index := Scalar.indexCast v685
  ![v686.toNat]

def k0_chk113 (v690 : IVec S16 32) : Prop :=
  (∀ a x, ((![v690] : Fin 1 → IVec S16 32) a x).toNat < S32768.size a)
instance k0_chk113.dec : ∀ (v690 : IVec S16 32), Decidable (k0_chk113 v690) := fun v690 => decidable_of_iff' _ (Iff.of_eq (k0_chk113.eq_1 v690))
theorem k0_idx113_inb : ∀ (v690 : IVec S16 32) (k0_hw113 : k0_chk113 v690), ∀ a x, ((![v690] : Fin 1 → IVec S16 32) a x).toNat < S32768.size a := fun v690 k0_hw113 => k0_hw113
def k0_off54 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c512_i32_242 : BitVec 32 := 512#32
  let v691 : BitVec 32 := Scalar.muli v291 c512_i32_242
  let c256_i32_243 : BitVec 32 := 256#32
  let v692 : BitVec 32 := Scalar.addi v691 c256_i32_243
  let c16_i32_244 : BitVec 32 := 16#32
  let v693 : BitVec 32 := Scalar.addi v692 c16_i32_244
  let v694 : Index := Scalar.indexCast v693
  ![v694.toNat]

def k0_chk114 (v698 : IVec S16 32) : Prop :=
  (∀ a x, ((![v698] : Fin 1 → IVec S16 32) a x).toNat < S32768.size a)
instance k0_chk114.dec : ∀ (v698 : IVec S16 32), Decidable (k0_chk114 v698) := fun v698 => decidable_of_iff' _ (Iff.of_eq (k0_chk114.eq_1 v698))
theorem k0_idx114_inb : ∀ (v698 : IVec S16 32) (k0_hw114 : k0_chk114 v698), ∀ a x, ((![v698] : Fin 1 → IVec S16 32) a x).toNat < S32768.size a := fun v698 k0_hw114 => k0_hw114
def k0_off55 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c512_i32_246 : BitVec 32 := 512#32
  let v699 : BitVec 32 := Scalar.muli v291 c512_i32_246
  let c256_i32_247 : BitVec 32 := 256#32
  let v700 : BitVec 32 := Scalar.addi v699 c256_i32_247
  let c32_i32_248 : BitVec 32 := 32#32
  let v701 : BitVec 32 := Scalar.addi v700 c32_i32_248
  let v702 : Index := Scalar.indexCast v701
  ![v702.toNat]

def k0_chk115 (v706 : IVec S16 32) : Prop :=
  (∀ a x, ((![v706] : Fin 1 → IVec S16 32) a x).toNat < S32768.size a)
instance k0_chk115.dec : ∀ (v706 : IVec S16 32), Decidable (k0_chk115 v706) := fun v706 => decidable_of_iff' _ (Iff.of_eq (k0_chk115.eq_1 v706))
theorem k0_idx115_inb : ∀ (v706 : IVec S16 32) (k0_hw115 : k0_chk115 v706), ∀ a x, ((![v706] : Fin 1 → IVec S16 32) a x).toNat < S32768.size a := fun v706 k0_hw115 => k0_hw115
def k0_off56 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c512_i32_250 : BitVec 32 := 512#32
  let v707 : BitVec 32 := Scalar.muli v291 c512_i32_250
  let c256_i32_251 : BitVec 32 := 256#32
  let v708 : BitVec 32 := Scalar.addi v707 c256_i32_251
  let c48_i32_252 : BitVec 32 := 48#32
  let v709 : BitVec 32 := Scalar.addi v708 c48_i32_252
  let v710 : Index := Scalar.indexCast v709
  ![v710.toNat]

def k0_chk116 (v714 : IVec S16 32) : Prop :=
  (∀ a x, ((![v714] : Fin 1 → IVec S16 32) a x).toNat < S32768.size a)
instance k0_chk116.dec : ∀ (v714 : IVec S16 32), Decidable (k0_chk116 v714) := fun v714 => decidable_of_iff' _ (Iff.of_eq (k0_chk116.eq_1 v714))
theorem k0_idx116_inb : ∀ (v714 : IVec S16 32) (k0_hw116 : k0_chk116 v714), ∀ a x, ((![v714] : Fin 1 → IVec S16 32) a x).toNat < S32768.size a := fun v714 k0_hw116 => k0_hw116
def k0_off57 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c512_i32_254 : BitVec 32 := 512#32
  let v715 : BitVec 32 := Scalar.muli v291 c512_i32_254
  let c256_i32_255 : BitVec 32 := 256#32
  let v716 : BitVec 32 := Scalar.addi v715 c256_i32_255
  let c64_i32_256 : BitVec 32 := 64#32
  let v717 : BitVec 32 := Scalar.addi v716 c64_i32_256
  let v718 : Index := Scalar.indexCast v717
  ![v718.toNat]

def k0_chk117 (v722 : IVec S16 32) : Prop :=
  (∀ a x, ((![v722] : Fin 1 → IVec S16 32) a x).toNat < S32768.size a)
instance k0_chk117.dec : ∀ (v722 : IVec S16 32), Decidable (k0_chk117 v722) := fun v722 => decidable_of_iff' _ (Iff.of_eq (k0_chk117.eq_1 v722))
theorem k0_idx117_inb : ∀ (v722 : IVec S16 32) (k0_hw117 : k0_chk117 v722), ∀ a x, ((![v722] : Fin 1 → IVec S16 32) a x).toNat < S32768.size a := fun v722 k0_hw117 => k0_hw117
def k0_off58 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c512_i32_258 : BitVec 32 := 512#32
  let v723 : BitVec 32 := Scalar.muli v291 c512_i32_258
  let c256_i32_259 : BitVec 32 := 256#32
  let v724 : BitVec 32 := Scalar.addi v723 c256_i32_259
  let c80_i32_260 : BitVec 32 := 80#32
  let v725 : BitVec 32 := Scalar.addi v724 c80_i32_260
  let v726 : Index := Scalar.indexCast v725
  ![v726.toNat]

def k0_chk118 (v730 : IVec S16 32) : Prop :=
  (∀ a x, ((![v730] : Fin 1 → IVec S16 32) a x).toNat < S32768.size a)
instance k0_chk118.dec : ∀ (v730 : IVec S16 32), Decidable (k0_chk118 v730) := fun v730 => decidable_of_iff' _ (Iff.of_eq (k0_chk118.eq_1 v730))
theorem k0_idx118_inb : ∀ (v730 : IVec S16 32) (k0_hw118 : k0_chk118 v730), ∀ a x, ((![v730] : Fin 1 → IVec S16 32) a x).toNat < S32768.size a := fun v730 k0_hw118 => k0_hw118
def k0_off59 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c512_i32_262 : BitVec 32 := 512#32
  let v731 : BitVec 32 := Scalar.muli v291 c512_i32_262
  let c256_i32_263 : BitVec 32 := 256#32
  let v732 : BitVec 32 := Scalar.addi v731 c256_i32_263
  let c96_i32_264 : BitVec 32 := 96#32
  let v733 : BitVec 32 := Scalar.addi v732 c96_i32_264
  let v734 : Index := Scalar.indexCast v733
  ![v734.toNat]

def k0_chk119 (v738 : IVec S16 32) : Prop :=
  (∀ a x, ((![v738] : Fin 1 → IVec S16 32) a x).toNat < S32768.size a)
instance k0_chk119.dec : ∀ (v738 : IVec S16 32), Decidable (k0_chk119 v738) := fun v738 => decidable_of_iff' _ (Iff.of_eq (k0_chk119.eq_1 v738))
theorem k0_idx119_inb : ∀ (v738 : IVec S16 32) (k0_hw119 : k0_chk119 v738), ∀ a x, ((![v738] : Fin 1 → IVec S16 32) a x).toNat < S32768.size a := fun v738 k0_hw119 => k0_hw119
def k0_off60 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c512_i32_266 : BitVec 32 := 512#32
  let v739 : BitVec 32 := Scalar.muli v291 c512_i32_266
  let c256_i32_267 : BitVec 32 := 256#32
  let v740 : BitVec 32 := Scalar.addi v739 c256_i32_267
  let c112_i32_268 : BitVec 32 := 112#32
  let v741 : BitVec 32 := Scalar.addi v740 c112_i32_268
  let v742 : Index := Scalar.indexCast v741
  ![v742.toNat]

def k0_chk120 (v746 : IVec S16 32) : Prop :=
  (∀ a x, ((![v746] : Fin 1 → IVec S16 32) a x).toNat < S32768.size a)
instance k0_chk120.dec : ∀ (v746 : IVec S16 32), Decidable (k0_chk120 v746) := fun v746 => decidable_of_iff' _ (Iff.of_eq (k0_chk120.eq_1 v746))
theorem k0_idx120_inb : ∀ (v746 : IVec S16 32) (k0_hw120 : k0_chk120 v746), ∀ a x, ((![v746] : Fin 1 → IVec S16 32) a x).toNat < S32768.size a := fun v746 k0_hw120 => k0_hw120
def k0_off61 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c512_i32_270 : BitVec 32 := 512#32
  let v747 : BitVec 32 := Scalar.muli v291 c512_i32_270
  let c384_i32_271 : BitVec 32 := 384#32
  let v748 : BitVec 32 := Scalar.addi v747 c384_i32_271
  let c0_i32_272 : BitVec 32 := 0#32
  let v749 : BitVec 32 := Scalar.addi v748 c0_i32_272
  let v750 : Index := Scalar.indexCast v749
  ![v750.toNat]

def k0_chk121 (v754 : IVec S16 32) : Prop :=
  (∀ a x, ((![v754] : Fin 1 → IVec S16 32) a x).toNat < S32768.size a)
instance k0_chk121.dec : ∀ (v754 : IVec S16 32), Decidable (k0_chk121 v754) := fun v754 => decidable_of_iff' _ (Iff.of_eq (k0_chk121.eq_1 v754))
theorem k0_idx121_inb : ∀ (v754 : IVec S16 32) (k0_hw121 : k0_chk121 v754), ∀ a x, ((![v754] : Fin 1 → IVec S16 32) a x).toNat < S32768.size a := fun v754 k0_hw121 => k0_hw121
def k0_off62 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c512_i32_274 : BitVec 32 := 512#32
  let v755 : BitVec 32 := Scalar.muli v291 c512_i32_274
  let c384_i32_275 : BitVec 32 := 384#32
  let v756 : BitVec 32 := Scalar.addi v755 c384_i32_275
  let c16_i32_276 : BitVec 32 := 16#32
  let v757 : BitVec 32 := Scalar.addi v756 c16_i32_276
  let v758 : Index := Scalar.indexCast v757
  ![v758.toNat]

def k0_chk122 (v762 : IVec S16 32) : Prop :=
  (∀ a x, ((![v762] : Fin 1 → IVec S16 32) a x).toNat < S32768.size a)
instance k0_chk122.dec : ∀ (v762 : IVec S16 32), Decidable (k0_chk122 v762) := fun v762 => decidable_of_iff' _ (Iff.of_eq (k0_chk122.eq_1 v762))
theorem k0_idx122_inb : ∀ (v762 : IVec S16 32) (k0_hw122 : k0_chk122 v762), ∀ a x, ((![v762] : Fin 1 → IVec S16 32) a x).toNat < S32768.size a := fun v762 k0_hw122 => k0_hw122
def k0_off63 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c512_i32_278 : BitVec 32 := 512#32
  let v763 : BitVec 32 := Scalar.muli v291 c512_i32_278
  let c384_i32_279 : BitVec 32 := 384#32
  let v764 : BitVec 32 := Scalar.addi v763 c384_i32_279
  let c32_i32_280 : BitVec 32 := 32#32
  let v765 : BitVec 32 := Scalar.addi v764 c32_i32_280
  let v766 : Index := Scalar.indexCast v765
  ![v766.toNat]

def k0_chk123 (v770 : IVec S16 32) : Prop :=
  (∀ a x, ((![v770] : Fin 1 → IVec S16 32) a x).toNat < S32768.size a)
instance k0_chk123.dec : ∀ (v770 : IVec S16 32), Decidable (k0_chk123 v770) := fun v770 => decidable_of_iff' _ (Iff.of_eq (k0_chk123.eq_1 v770))
theorem k0_idx123_inb : ∀ (v770 : IVec S16 32) (k0_hw123 : k0_chk123 v770), ∀ a x, ((![v770] : Fin 1 → IVec S16 32) a x).toNat < S32768.size a := fun v770 k0_hw123 => k0_hw123
def k0_off64 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c512_i32_282 : BitVec 32 := 512#32
  let v771 : BitVec 32 := Scalar.muli v291 c512_i32_282
  let c384_i32_283 : BitVec 32 := 384#32
  let v772 : BitVec 32 := Scalar.addi v771 c384_i32_283
  let c48_i32_284 : BitVec 32 := 48#32
  let v773 : BitVec 32 := Scalar.addi v772 c48_i32_284
  let v774 : Index := Scalar.indexCast v773
  ![v774.toNat]

def k0_chk124 (v778 : IVec S16 32) : Prop :=
  (∀ a x, ((![v778] : Fin 1 → IVec S16 32) a x).toNat < S32768.size a)
instance k0_chk124.dec : ∀ (v778 : IVec S16 32), Decidable (k0_chk124 v778) := fun v778 => decidable_of_iff' _ (Iff.of_eq (k0_chk124.eq_1 v778))
theorem k0_idx124_inb : ∀ (v778 : IVec S16 32) (k0_hw124 : k0_chk124 v778), ∀ a x, ((![v778] : Fin 1 → IVec S16 32) a x).toNat < S32768.size a := fun v778 k0_hw124 => k0_hw124
def k0_off65 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c512_i32_286 : BitVec 32 := 512#32
  let v779 : BitVec 32 := Scalar.muli v291 c512_i32_286
  let c384_i32_287 : BitVec 32 := 384#32
  let v780 : BitVec 32 := Scalar.addi v779 c384_i32_287
  let c64_i32_288 : BitVec 32 := 64#32
  let v781 : BitVec 32 := Scalar.addi v780 c64_i32_288
  let v782 : Index := Scalar.indexCast v781
  ![v782.toNat]

def k0_chk125 (v786 : IVec S16 32) : Prop :=
  (∀ a x, ((![v786] : Fin 1 → IVec S16 32) a x).toNat < S32768.size a)
instance k0_chk125.dec : ∀ (v786 : IVec S16 32), Decidable (k0_chk125 v786) := fun v786 => decidable_of_iff' _ (Iff.of_eq (k0_chk125.eq_1 v786))
theorem k0_idx125_inb : ∀ (v786 : IVec S16 32) (k0_hw125 : k0_chk125 v786), ∀ a x, ((![v786] : Fin 1 → IVec S16 32) a x).toNat < S32768.size a := fun v786 k0_hw125 => k0_hw125
def k0_off66 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c512_i32_290 : BitVec 32 := 512#32
  let v787 : BitVec 32 := Scalar.muli v291 c512_i32_290
  let c384_i32_291 : BitVec 32 := 384#32
  let v788 : BitVec 32 := Scalar.addi v787 c384_i32_291
  let c80_i32_292 : BitVec 32 := 80#32
  let v789 : BitVec 32 := Scalar.addi v788 c80_i32_292
  let v790 : Index := Scalar.indexCast v789
  ![v790.toNat]

def k0_chk126 (v794 : IVec S16 32) : Prop :=
  (∀ a x, ((![v794] : Fin 1 → IVec S16 32) a x).toNat < S32768.size a)
instance k0_chk126.dec : ∀ (v794 : IVec S16 32), Decidable (k0_chk126 v794) := fun v794 => decidable_of_iff' _ (Iff.of_eq (k0_chk126.eq_1 v794))
theorem k0_idx126_inb : ∀ (v794 : IVec S16 32) (k0_hw126 : k0_chk126 v794), ∀ a x, ((![v794] : Fin 1 → IVec S16 32) a x).toNat < S32768.size a := fun v794 k0_hw126 => k0_hw126
def k0_off67 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c512_i32_294 : BitVec 32 := 512#32
  let v795 : BitVec 32 := Scalar.muli v291 c512_i32_294
  let c384_i32_295 : BitVec 32 := 384#32
  let v796 : BitVec 32 := Scalar.addi v795 c384_i32_295
  let c96_i32_296 : BitVec 32 := 96#32
  let v797 : BitVec 32 := Scalar.addi v796 c96_i32_296
  let v798 : Index := Scalar.indexCast v797
  ![v798.toNat]

def k0_chk127 (v802 : IVec S16 32) : Prop :=
  (∀ a x, ((![v802] : Fin 1 → IVec S16 32) a x).toNat < S32768.size a)
instance k0_chk127.dec : ∀ (v802 : IVec S16 32), Decidable (k0_chk127 v802) := fun v802 => decidable_of_iff' _ (Iff.of_eq (k0_chk127.eq_1 v802))
theorem k0_idx127_inb : ∀ (v802 : IVec S16 32) (k0_hw127 : k0_chk127 v802), ∀ a x, ((![v802] : Fin 1 → IVec S16 32) a x).toNat < S32768.size a := fun v802 k0_hw127 => k0_hw127
def k0_off68 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let c512_i32_298 : BitVec 32 := 512#32
  let v803 : BitVec 32 := Scalar.muli v291 c512_i32_298
  let c384_i32_299 : BitVec 32 := 384#32
  let v804 : BitVec 32 := Scalar.addi v803 c384_i32_299
  let c112_i32_300 : BitVec 32 := 112#32
  let v805 : BitVec 32 := Scalar.addi v804 c112_i32_300
  let v806 : Index := Scalar.indexCast v805
  ![v806.toNat]

def k0_chk128 (v810 : IVec S16 32) : Prop :=
  (∀ a x, ((![v810] : Fin 1 → IVec S16 32) a x).toNat < S32768.size a)
instance k0_chk128.dec : ∀ (v810 : IVec S16 32), Decidable (k0_chk128 v810) := fun v810 => decidable_of_iff' _ (Iff.of_eq (k0_chk128.eq_1 v810))
theorem k0_idx128_inb : ∀ (v810 : IVec S16 32) (k0_hw128 : k0_chk128 v810), ∀ a x, ((![v810] : Fin 1 → IVec S16 32) a x).toNat < S32768.size a := fun v810 k0_hw128 => k0_hw128
def k0_off69 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c0_i32_47 : BitVec 32 := 0#32
  let v291 : BitVec 32 := Scalar.addi v290 c0_i32_47
  let v811 : BitVec 32 := Scalar.addi v2 v291
  let c0_i32_302 : BitVec 32 := 0#32
  ![v811.toNat, 0]
def k0_off70 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let v817 : BitVec 32 := Scalar.addi v2 v816
  let c2_i32_305 : BitVec 32 := 2#32
  let v818 : BitVec 32 := Scalar.subi v817 c2_i32_305
  let c0_i32_306 : BitVec 32 := 0#32
  ![v818.toNat, 0]
def k0_off71 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c2_i32_308 : BitVec 32 := 2#32
  let v823 : BitVec 32 := Scalar.subi v816 c2_i32_308
  let c512_i32_309 : BitVec 32 := 512#32
  let v824 : BitVec 32 := Scalar.muli v823 c512_i32_309
  let c0_i32_310 : BitVec 32 := 0#32
  let v825 : BitVec 32 := Scalar.addi v824 c0_i32_310
  let c0_i32_311 : BitVec 32 := 0#32
  let v826 : BitVec 32 := Scalar.addi v825 c0_i32_311
  let v827 : Index := Scalar.indexCast v826
  ![v827.toNat]

def k0_chk129 (v831 : IVec S16 32) : Prop :=
  (∀ a x, ((![v831] : Fin 1 → IVec S16 32) a x).toNat < S32768.size a)
instance k0_chk129.dec : ∀ (v831 : IVec S16 32), Decidable (k0_chk129 v831) := fun v831 => decidable_of_iff' _ (Iff.of_eq (k0_chk129.eq_1 v831))
theorem k0_idx129_inb : ∀ (v831 : IVec S16 32) (k0_hw129 : k0_chk129 v831), ∀ a x, ((![v831] : Fin 1 → IVec S16 32) a x).toNat < S32768.size a := fun v831 k0_hw129 => k0_hw129
def k0_off72 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c2_i32_308 : BitVec 32 := 2#32
  let v823 : BitVec 32 := Scalar.subi v816 c2_i32_308
  let c512_i32_313 : BitVec 32 := 512#32
  let v832 : BitVec 32 := Scalar.muli v823 c512_i32_313
  let c0_i32_314 : BitVec 32 := 0#32
  let v833 : BitVec 32 := Scalar.addi v832 c0_i32_314
  let c16_i32_315 : BitVec 32 := 16#32
  let v834 : BitVec 32 := Scalar.addi v833 c16_i32_315
  let v835 : Index := Scalar.indexCast v834
  ![v835.toNat]

def k0_chk130 (v839 : IVec S16 32) : Prop :=
  (∀ a x, ((![v839] : Fin 1 → IVec S16 32) a x).toNat < S32768.size a)
instance k0_chk130.dec : ∀ (v839 : IVec S16 32), Decidable (k0_chk130 v839) := fun v839 => decidable_of_iff' _ (Iff.of_eq (k0_chk130.eq_1 v839))
theorem k0_idx130_inb : ∀ (v839 : IVec S16 32) (k0_hw130 : k0_chk130 v839), ∀ a x, ((![v839] : Fin 1 → IVec S16 32) a x).toNat < S32768.size a := fun v839 k0_hw130 => k0_hw130
def k0_off73 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c2_i32_308 : BitVec 32 := 2#32
  let v823 : BitVec 32 := Scalar.subi v816 c2_i32_308
  let c512_i32_317 : BitVec 32 := 512#32
  let v840 : BitVec 32 := Scalar.muli v823 c512_i32_317
  let c0_i32_318 : BitVec 32 := 0#32
  let v841 : BitVec 32 := Scalar.addi v840 c0_i32_318
  let c32_i32_319 : BitVec 32 := 32#32
  let v842 : BitVec 32 := Scalar.addi v841 c32_i32_319
  let v843 : Index := Scalar.indexCast v842
  ![v843.toNat]

def k0_chk131 (v847 : IVec S16 32) : Prop :=
  (∀ a x, ((![v847] : Fin 1 → IVec S16 32) a x).toNat < S32768.size a)
instance k0_chk131.dec : ∀ (v847 : IVec S16 32), Decidable (k0_chk131 v847) := fun v847 => decidable_of_iff' _ (Iff.of_eq (k0_chk131.eq_1 v847))
theorem k0_idx131_inb : ∀ (v847 : IVec S16 32) (k0_hw131 : k0_chk131 v847), ∀ a x, ((![v847] : Fin 1 → IVec S16 32) a x).toNat < S32768.size a := fun v847 k0_hw131 => k0_hw131
def k0_off74 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c2_i32_308 : BitVec 32 := 2#32
  let v823 : BitVec 32 := Scalar.subi v816 c2_i32_308
  let c512_i32_321 : BitVec 32 := 512#32
  let v848 : BitVec 32 := Scalar.muli v823 c512_i32_321
  let c0_i32_322 : BitVec 32 := 0#32
  let v849 : BitVec 32 := Scalar.addi v848 c0_i32_322
  let c48_i32_323 : BitVec 32 := 48#32
  let v850 : BitVec 32 := Scalar.addi v849 c48_i32_323
  let v851 : Index := Scalar.indexCast v850
  ![v851.toNat]

def k0_chk132 (v855 : IVec S16 32) : Prop :=
  (∀ a x, ((![v855] : Fin 1 → IVec S16 32) a x).toNat < S32768.size a)
instance k0_chk132.dec : ∀ (v855 : IVec S16 32), Decidable (k0_chk132 v855) := fun v855 => decidable_of_iff' _ (Iff.of_eq (k0_chk132.eq_1 v855))
theorem k0_idx132_inb : ∀ (v855 : IVec S16 32) (k0_hw132 : k0_chk132 v855), ∀ a x, ((![v855] : Fin 1 → IVec S16 32) a x).toNat < S32768.size a := fun v855 k0_hw132 => k0_hw132
def k0_off75 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c2_i32_308 : BitVec 32 := 2#32
  let v823 : BitVec 32 := Scalar.subi v816 c2_i32_308
  let c512_i32_325 : BitVec 32 := 512#32
  let v856 : BitVec 32 := Scalar.muli v823 c512_i32_325
  let c0_i32_326 : BitVec 32 := 0#32
  let v857 : BitVec 32 := Scalar.addi v856 c0_i32_326
  let c64_i32_327 : BitVec 32 := 64#32
  let v858 : BitVec 32 := Scalar.addi v857 c64_i32_327
  let v859 : Index := Scalar.indexCast v858
  ![v859.toNat]

def k0_chk133 (v863 : IVec S16 32) : Prop :=
  (∀ a x, ((![v863] : Fin 1 → IVec S16 32) a x).toNat < S32768.size a)
instance k0_chk133.dec : ∀ (v863 : IVec S16 32), Decidable (k0_chk133 v863) := fun v863 => decidable_of_iff' _ (Iff.of_eq (k0_chk133.eq_1 v863))
theorem k0_idx133_inb : ∀ (v863 : IVec S16 32) (k0_hw133 : k0_chk133 v863), ∀ a x, ((![v863] : Fin 1 → IVec S16 32) a x).toNat < S32768.size a := fun v863 k0_hw133 => k0_hw133
def k0_off76 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c2_i32_308 : BitVec 32 := 2#32
  let v823 : BitVec 32 := Scalar.subi v816 c2_i32_308
  let c512_i32_329 : BitVec 32 := 512#32
  let v864 : BitVec 32 := Scalar.muli v823 c512_i32_329
  let c0_i32_330 : BitVec 32 := 0#32
  let v865 : BitVec 32 := Scalar.addi v864 c0_i32_330
  let c80_i32_331 : BitVec 32 := 80#32
  let v866 : BitVec 32 := Scalar.addi v865 c80_i32_331
  let v867 : Index := Scalar.indexCast v866
  ![v867.toNat]

def k0_chk134 (v871 : IVec S16 32) : Prop :=
  (∀ a x, ((![v871] : Fin 1 → IVec S16 32) a x).toNat < S32768.size a)
instance k0_chk134.dec : ∀ (v871 : IVec S16 32), Decidable (k0_chk134 v871) := fun v871 => decidable_of_iff' _ (Iff.of_eq (k0_chk134.eq_1 v871))
theorem k0_idx134_inb : ∀ (v871 : IVec S16 32) (k0_hw134 : k0_chk134 v871), ∀ a x, ((![v871] : Fin 1 → IVec S16 32) a x).toNat < S32768.size a := fun v871 k0_hw134 => k0_hw134
def k0_off77 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c2_i32_308 : BitVec 32 := 2#32
  let v823 : BitVec 32 := Scalar.subi v816 c2_i32_308
  let c512_i32_333 : BitVec 32 := 512#32
  let v872 : BitVec 32 := Scalar.muli v823 c512_i32_333
  let c0_i32_334 : BitVec 32 := 0#32
  let v873 : BitVec 32 := Scalar.addi v872 c0_i32_334
  let c96_i32_335 : BitVec 32 := 96#32
  let v874 : BitVec 32 := Scalar.addi v873 c96_i32_335
  let v875 : Index := Scalar.indexCast v874
  ![v875.toNat]

def k0_chk135 (v879 : IVec S16 32) : Prop :=
  (∀ a x, ((![v879] : Fin 1 → IVec S16 32) a x).toNat < S32768.size a)
instance k0_chk135.dec : ∀ (v879 : IVec S16 32), Decidable (k0_chk135 v879) := fun v879 => decidable_of_iff' _ (Iff.of_eq (k0_chk135.eq_1 v879))
theorem k0_idx135_inb : ∀ (v879 : IVec S16 32) (k0_hw135 : k0_chk135 v879), ∀ a x, ((![v879] : Fin 1 → IVec S16 32) a x).toNat < S32768.size a := fun v879 k0_hw135 => k0_hw135
def k0_off78 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c2_i32_308 : BitVec 32 := 2#32
  let v823 : BitVec 32 := Scalar.subi v816 c2_i32_308
  let c512_i32_337 : BitVec 32 := 512#32
  let v880 : BitVec 32 := Scalar.muli v823 c512_i32_337
  let c0_i32_338 : BitVec 32 := 0#32
  let v881 : BitVec 32 := Scalar.addi v880 c0_i32_338
  let c112_i32_339 : BitVec 32 := 112#32
  let v882 : BitVec 32 := Scalar.addi v881 c112_i32_339
  let v883 : Index := Scalar.indexCast v882
  ![v883.toNat]

def k0_chk136 (v887 : IVec S16 32) : Prop :=
  (∀ a x, ((![v887] : Fin 1 → IVec S16 32) a x).toNat < S32768.size a)
instance k0_chk136.dec : ∀ (v887 : IVec S16 32), Decidable (k0_chk136 v887) := fun v887 => decidable_of_iff' _ (Iff.of_eq (k0_chk136.eq_1 v887))
theorem k0_idx136_inb : ∀ (v887 : IVec S16 32) (k0_hw136 : k0_chk136 v887), ∀ a x, ((![v887] : Fin 1 → IVec S16 32) a x).toNat < S32768.size a := fun v887 k0_hw136 => k0_hw136
def k0_off79 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c2_i32_308 : BitVec 32 := 2#32
  let v823 : BitVec 32 := Scalar.subi v816 c2_i32_308
  let c512_i32_341 : BitVec 32 := 512#32
  let v888 : BitVec 32 := Scalar.muli v823 c512_i32_341
  let c128_i32_342 : BitVec 32 := 128#32
  let v889 : BitVec 32 := Scalar.addi v888 c128_i32_342
  let c0_i32_343 : BitVec 32 := 0#32
  let v890 : BitVec 32 := Scalar.addi v889 c0_i32_343
  let v891 : Index := Scalar.indexCast v890
  ![v891.toNat]

def k0_chk137 (v895 : IVec S16 32) : Prop :=
  (∀ a x, ((![v895] : Fin 1 → IVec S16 32) a x).toNat < S32768.size a)
instance k0_chk137.dec : ∀ (v895 : IVec S16 32), Decidable (k0_chk137 v895) := fun v895 => decidable_of_iff' _ (Iff.of_eq (k0_chk137.eq_1 v895))
theorem k0_idx137_inb : ∀ (v895 : IVec S16 32) (k0_hw137 : k0_chk137 v895), ∀ a x, ((![v895] : Fin 1 → IVec S16 32) a x).toNat < S32768.size a := fun v895 k0_hw137 => k0_hw137
def k0_off80 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c2_i32_308 : BitVec 32 := 2#32
  let v823 : BitVec 32 := Scalar.subi v816 c2_i32_308
  let c512_i32_345 : BitVec 32 := 512#32
  let v896 : BitVec 32 := Scalar.muli v823 c512_i32_345
  let c128_i32_346 : BitVec 32 := 128#32
  let v897 : BitVec 32 := Scalar.addi v896 c128_i32_346
  let c16_i32_347 : BitVec 32 := 16#32
  let v898 : BitVec 32 := Scalar.addi v897 c16_i32_347
  let v899 : Index := Scalar.indexCast v898
  ![v899.toNat]

def k0_chk138 (v903 : IVec S16 32) : Prop :=
  (∀ a x, ((![v903] : Fin 1 → IVec S16 32) a x).toNat < S32768.size a)
instance k0_chk138.dec : ∀ (v903 : IVec S16 32), Decidable (k0_chk138 v903) := fun v903 => decidable_of_iff' _ (Iff.of_eq (k0_chk138.eq_1 v903))
theorem k0_idx138_inb : ∀ (v903 : IVec S16 32) (k0_hw138 : k0_chk138 v903), ∀ a x, ((![v903] : Fin 1 → IVec S16 32) a x).toNat < S32768.size a := fun v903 k0_hw138 => k0_hw138
def k0_off81 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c2_i32_308 : BitVec 32 := 2#32
  let v823 : BitVec 32 := Scalar.subi v816 c2_i32_308
  let c512_i32_349 : BitVec 32 := 512#32
  let v904 : BitVec 32 := Scalar.muli v823 c512_i32_349
  let c128_i32_350 : BitVec 32 := 128#32
  let v905 : BitVec 32 := Scalar.addi v904 c128_i32_350
  let c32_i32_351 : BitVec 32 := 32#32
  let v906 : BitVec 32 := Scalar.addi v905 c32_i32_351
  let v907 : Index := Scalar.indexCast v906
  ![v907.toNat]

def k0_chk139 (v911 : IVec S16 32) : Prop :=
  (∀ a x, ((![v911] : Fin 1 → IVec S16 32) a x).toNat < S32768.size a)
instance k0_chk139.dec : ∀ (v911 : IVec S16 32), Decidable (k0_chk139 v911) := fun v911 => decidable_of_iff' _ (Iff.of_eq (k0_chk139.eq_1 v911))
theorem k0_idx139_inb : ∀ (v911 : IVec S16 32) (k0_hw139 : k0_chk139 v911), ∀ a x, ((![v911] : Fin 1 → IVec S16 32) a x).toNat < S32768.size a := fun v911 k0_hw139 => k0_hw139
def k0_off82 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c2_i32_308 : BitVec 32 := 2#32
  let v823 : BitVec 32 := Scalar.subi v816 c2_i32_308
  let c512_i32_353 : BitVec 32 := 512#32
  let v912 : BitVec 32 := Scalar.muli v823 c512_i32_353
  let c128_i32_354 : BitVec 32 := 128#32
  let v913 : BitVec 32 := Scalar.addi v912 c128_i32_354
  let c48_i32_355 : BitVec 32 := 48#32
  let v914 : BitVec 32 := Scalar.addi v913 c48_i32_355
  let v915 : Index := Scalar.indexCast v914
  ![v915.toNat]

def k0_chk140 (v919 : IVec S16 32) : Prop :=
  (∀ a x, ((![v919] : Fin 1 → IVec S16 32) a x).toNat < S32768.size a)
instance k0_chk140.dec : ∀ (v919 : IVec S16 32), Decidable (k0_chk140 v919) := fun v919 => decidable_of_iff' _ (Iff.of_eq (k0_chk140.eq_1 v919))
theorem k0_idx140_inb : ∀ (v919 : IVec S16 32) (k0_hw140 : k0_chk140 v919), ∀ a x, ((![v919] : Fin 1 → IVec S16 32) a x).toNat < S32768.size a := fun v919 k0_hw140 => k0_hw140
def k0_off83 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c2_i32_308 : BitVec 32 := 2#32
  let v823 : BitVec 32 := Scalar.subi v816 c2_i32_308
  let c512_i32_357 : BitVec 32 := 512#32
  let v920 : BitVec 32 := Scalar.muli v823 c512_i32_357
  let c128_i32_358 : BitVec 32 := 128#32
  let v921 : BitVec 32 := Scalar.addi v920 c128_i32_358
  let c64_i32_359 : BitVec 32 := 64#32
  let v922 : BitVec 32 := Scalar.addi v921 c64_i32_359
  let v923 : Index := Scalar.indexCast v922
  ![v923.toNat]

def k0_chk141 (v927 : IVec S16 32) : Prop :=
  (∀ a x, ((![v927] : Fin 1 → IVec S16 32) a x).toNat < S32768.size a)
instance k0_chk141.dec : ∀ (v927 : IVec S16 32), Decidable (k0_chk141 v927) := fun v927 => decidable_of_iff' _ (Iff.of_eq (k0_chk141.eq_1 v927))
theorem k0_idx141_inb : ∀ (v927 : IVec S16 32) (k0_hw141 : k0_chk141 v927), ∀ a x, ((![v927] : Fin 1 → IVec S16 32) a x).toNat < S32768.size a := fun v927 k0_hw141 => k0_hw141
def k0_off84 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c2_i32_308 : BitVec 32 := 2#32
  let v823 : BitVec 32 := Scalar.subi v816 c2_i32_308
  let c512_i32_361 : BitVec 32 := 512#32
  let v928 : BitVec 32 := Scalar.muli v823 c512_i32_361
  let c128_i32_362 : BitVec 32 := 128#32
  let v929 : BitVec 32 := Scalar.addi v928 c128_i32_362
  let c80_i32_363 : BitVec 32 := 80#32
  let v930 : BitVec 32 := Scalar.addi v929 c80_i32_363
  let v931 : Index := Scalar.indexCast v930
  ![v931.toNat]

def k0_chk142 (v935 : IVec S16 32) : Prop :=
  (∀ a x, ((![v935] : Fin 1 → IVec S16 32) a x).toNat < S32768.size a)
instance k0_chk142.dec : ∀ (v935 : IVec S16 32), Decidable (k0_chk142 v935) := fun v935 => decidable_of_iff' _ (Iff.of_eq (k0_chk142.eq_1 v935))
theorem k0_idx142_inb : ∀ (v935 : IVec S16 32) (k0_hw142 : k0_chk142 v935), ∀ a x, ((![v935] : Fin 1 → IVec S16 32) a x).toNat < S32768.size a := fun v935 k0_hw142 => k0_hw142
def k0_off85 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c2_i32_308 : BitVec 32 := 2#32
  let v823 : BitVec 32 := Scalar.subi v816 c2_i32_308
  let c512_i32_365 : BitVec 32 := 512#32
  let v936 : BitVec 32 := Scalar.muli v823 c512_i32_365
  let c128_i32_366 : BitVec 32 := 128#32
  let v937 : BitVec 32 := Scalar.addi v936 c128_i32_366
  let c96_i32_367 : BitVec 32 := 96#32
  let v938 : BitVec 32 := Scalar.addi v937 c96_i32_367
  let v939 : Index := Scalar.indexCast v938
  ![v939.toNat]

def k0_chk143 (v943 : IVec S16 32) : Prop :=
  (∀ a x, ((![v943] : Fin 1 → IVec S16 32) a x).toNat < S32768.size a)
instance k0_chk143.dec : ∀ (v943 : IVec S16 32), Decidable (k0_chk143 v943) := fun v943 => decidable_of_iff' _ (Iff.of_eq (k0_chk143.eq_1 v943))
theorem k0_idx143_inb : ∀ (v943 : IVec S16 32) (k0_hw143 : k0_chk143 v943), ∀ a x, ((![v943] : Fin 1 → IVec S16 32) a x).toNat < S32768.size a := fun v943 k0_hw143 => k0_hw143
def k0_off86 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c2_i32_308 : BitVec 32 := 2#32
  let v823 : BitVec 32 := Scalar.subi v816 c2_i32_308
  let c512_i32_369 : BitVec 32 := 512#32
  let v944 : BitVec 32 := Scalar.muli v823 c512_i32_369
  let c128_i32_370 : BitVec 32 := 128#32
  let v945 : BitVec 32 := Scalar.addi v944 c128_i32_370
  let c112_i32_371 : BitVec 32 := 112#32
  let v946 : BitVec 32 := Scalar.addi v945 c112_i32_371
  let v947 : Index := Scalar.indexCast v946
  ![v947.toNat]

def k0_chk144 (v951 : IVec S16 32) : Prop :=
  (∀ a x, ((![v951] : Fin 1 → IVec S16 32) a x).toNat < S32768.size a)
instance k0_chk144.dec : ∀ (v951 : IVec S16 32), Decidable (k0_chk144 v951) := fun v951 => decidable_of_iff' _ (Iff.of_eq (k0_chk144.eq_1 v951))
theorem k0_idx144_inb : ∀ (v951 : IVec S16 32) (k0_hw144 : k0_chk144 v951), ∀ a x, ((![v951] : Fin 1 → IVec S16 32) a x).toNat < S32768.size a := fun v951 k0_hw144 => k0_hw144
def k0_off87 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c2_i32_308 : BitVec 32 := 2#32
  let v823 : BitVec 32 := Scalar.subi v816 c2_i32_308
  let c512_i32_373 : BitVec 32 := 512#32
  let v952 : BitVec 32 := Scalar.muli v823 c512_i32_373
  let c256_i32_374 : BitVec 32 := 256#32
  let v953 : BitVec 32 := Scalar.addi v952 c256_i32_374
  let c0_i32_375 : BitVec 32 := 0#32
  let v954 : BitVec 32 := Scalar.addi v953 c0_i32_375
  let v955 : Index := Scalar.indexCast v954
  ![v955.toNat]

def k0_chk145 (v959 : IVec S16 32) : Prop :=
  (∀ a x, ((![v959] : Fin 1 → IVec S16 32) a x).toNat < S32768.size a)
instance k0_chk145.dec : ∀ (v959 : IVec S16 32), Decidable (k0_chk145 v959) := fun v959 => decidable_of_iff' _ (Iff.of_eq (k0_chk145.eq_1 v959))
theorem k0_idx145_inb : ∀ (v959 : IVec S16 32) (k0_hw145 : k0_chk145 v959), ∀ a x, ((![v959] : Fin 1 → IVec S16 32) a x).toNat < S32768.size a := fun v959 k0_hw145 => k0_hw145
def k0_off88 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c2_i32_308 : BitVec 32 := 2#32
  let v823 : BitVec 32 := Scalar.subi v816 c2_i32_308
  let c512_i32_377 : BitVec 32 := 512#32
  let v960 : BitVec 32 := Scalar.muli v823 c512_i32_377
  let c256_i32_378 : BitVec 32 := 256#32
  let v961 : BitVec 32 := Scalar.addi v960 c256_i32_378
  let c16_i32_379 : BitVec 32 := 16#32
  let v962 : BitVec 32 := Scalar.addi v961 c16_i32_379
  let v963 : Index := Scalar.indexCast v962
  ![v963.toNat]

def k0_chk146 (v967 : IVec S16 32) : Prop :=
  (∀ a x, ((![v967] : Fin 1 → IVec S16 32) a x).toNat < S32768.size a)
instance k0_chk146.dec : ∀ (v967 : IVec S16 32), Decidable (k0_chk146 v967) := fun v967 => decidable_of_iff' _ (Iff.of_eq (k0_chk146.eq_1 v967))
theorem k0_idx146_inb : ∀ (v967 : IVec S16 32) (k0_hw146 : k0_chk146 v967), ∀ a x, ((![v967] : Fin 1 → IVec S16 32) a x).toNat < S32768.size a := fun v967 k0_hw146 => k0_hw146
def k0_off89 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c2_i32_308 : BitVec 32 := 2#32
  let v823 : BitVec 32 := Scalar.subi v816 c2_i32_308
  let c512_i32_381 : BitVec 32 := 512#32
  let v968 : BitVec 32 := Scalar.muli v823 c512_i32_381
  let c256_i32_382 : BitVec 32 := 256#32
  let v969 : BitVec 32 := Scalar.addi v968 c256_i32_382
  let c32_i32_383 : BitVec 32 := 32#32
  let v970 : BitVec 32 := Scalar.addi v969 c32_i32_383
  let v971 : Index := Scalar.indexCast v970
  ![v971.toNat]

def k0_chk147 (v975 : IVec S16 32) : Prop :=
  (∀ a x, ((![v975] : Fin 1 → IVec S16 32) a x).toNat < S32768.size a)
instance k0_chk147.dec : ∀ (v975 : IVec S16 32), Decidable (k0_chk147 v975) := fun v975 => decidable_of_iff' _ (Iff.of_eq (k0_chk147.eq_1 v975))
theorem k0_idx147_inb : ∀ (v975 : IVec S16 32) (k0_hw147 : k0_chk147 v975), ∀ a x, ((![v975] : Fin 1 → IVec S16 32) a x).toNat < S32768.size a := fun v975 k0_hw147 => k0_hw147
def k0_off90 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c2_i32_308 : BitVec 32 := 2#32
  let v823 : BitVec 32 := Scalar.subi v816 c2_i32_308
  let c512_i32_385 : BitVec 32 := 512#32
  let v976 : BitVec 32 := Scalar.muli v823 c512_i32_385
  let c256_i32_386 : BitVec 32 := 256#32
  let v977 : BitVec 32 := Scalar.addi v976 c256_i32_386
  let c48_i32_387 : BitVec 32 := 48#32
  let v978 : BitVec 32 := Scalar.addi v977 c48_i32_387
  let v979 : Index := Scalar.indexCast v978
  ![v979.toNat]

def k0_chk148 (v983 : IVec S16 32) : Prop :=
  (∀ a x, ((![v983] : Fin 1 → IVec S16 32) a x).toNat < S32768.size a)
instance k0_chk148.dec : ∀ (v983 : IVec S16 32), Decidable (k0_chk148 v983) := fun v983 => decidable_of_iff' _ (Iff.of_eq (k0_chk148.eq_1 v983))
theorem k0_idx148_inb : ∀ (v983 : IVec S16 32) (k0_hw148 : k0_chk148 v983), ∀ a x, ((![v983] : Fin 1 → IVec S16 32) a x).toNat < S32768.size a := fun v983 k0_hw148 => k0_hw148
def k0_off91 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c2_i32_308 : BitVec 32 := 2#32
  let v823 : BitVec 32 := Scalar.subi v816 c2_i32_308
  let c512_i32_389 : BitVec 32 := 512#32
  let v984 : BitVec 32 := Scalar.muli v823 c512_i32_389
  let c256_i32_390 : BitVec 32 := 256#32
  let v985 : BitVec 32 := Scalar.addi v984 c256_i32_390
  let c64_i32_391 : BitVec 32 := 64#32
  let v986 : BitVec 32 := Scalar.addi v985 c64_i32_391
  let v987 : Index := Scalar.indexCast v986
  ![v987.toNat]

def k0_chk149 (v991 : IVec S16 32) : Prop :=
  (∀ a x, ((![v991] : Fin 1 → IVec S16 32) a x).toNat < S32768.size a)
instance k0_chk149.dec : ∀ (v991 : IVec S16 32), Decidable (k0_chk149 v991) := fun v991 => decidable_of_iff' _ (Iff.of_eq (k0_chk149.eq_1 v991))
theorem k0_idx149_inb : ∀ (v991 : IVec S16 32) (k0_hw149 : k0_chk149 v991), ∀ a x, ((![v991] : Fin 1 → IVec S16 32) a x).toNat < S32768.size a := fun v991 k0_hw149 => k0_hw149
def k0_off92 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c2_i32_308 : BitVec 32 := 2#32
  let v823 : BitVec 32 := Scalar.subi v816 c2_i32_308
  let c512_i32_393 : BitVec 32 := 512#32
  let v992 : BitVec 32 := Scalar.muli v823 c512_i32_393
  let c256_i32_394 : BitVec 32 := 256#32
  let v993 : BitVec 32 := Scalar.addi v992 c256_i32_394
  let c80_i32_395 : BitVec 32 := 80#32
  let v994 : BitVec 32 := Scalar.addi v993 c80_i32_395
  let v995 : Index := Scalar.indexCast v994
  ![v995.toNat]

def k0_chk150 (v999 : IVec S16 32) : Prop :=
  (∀ a x, ((![v999] : Fin 1 → IVec S16 32) a x).toNat < S32768.size a)
instance k0_chk150.dec : ∀ (v999 : IVec S16 32), Decidable (k0_chk150 v999) := fun v999 => decidable_of_iff' _ (Iff.of_eq (k0_chk150.eq_1 v999))
theorem k0_idx150_inb : ∀ (v999 : IVec S16 32) (k0_hw150 : k0_chk150 v999), ∀ a x, ((![v999] : Fin 1 → IVec S16 32) a x).toNat < S32768.size a := fun v999 k0_hw150 => k0_hw150
def k0_off93 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c2_i32_308 : BitVec 32 := 2#32
  let v823 : BitVec 32 := Scalar.subi v816 c2_i32_308
  let c512_i32_397 : BitVec 32 := 512#32
  let v1000 : BitVec 32 := Scalar.muli v823 c512_i32_397
  let c256_i32_398 : BitVec 32 := 256#32
  let v1001 : BitVec 32 := Scalar.addi v1000 c256_i32_398
  let c96_i32_399 : BitVec 32 := 96#32
  let v1002 : BitVec 32 := Scalar.addi v1001 c96_i32_399
  let v1003 : Index := Scalar.indexCast v1002
  ![v1003.toNat]

def k0_chk151 (v1007 : IVec S16 32) : Prop :=
  (∀ a x, ((![v1007] : Fin 1 → IVec S16 32) a x).toNat < S32768.size a)
instance k0_chk151.dec : ∀ (v1007 : IVec S16 32), Decidable (k0_chk151 v1007) := fun v1007 => decidable_of_iff' _ (Iff.of_eq (k0_chk151.eq_1 v1007))
theorem k0_idx151_inb : ∀ (v1007 : IVec S16 32) (k0_hw151 : k0_chk151 v1007), ∀ a x, ((![v1007] : Fin 1 → IVec S16 32) a x).toNat < S32768.size a := fun v1007 k0_hw151 => k0_hw151
def k0_off94 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c2_i32_308 : BitVec 32 := 2#32
  let v823 : BitVec 32 := Scalar.subi v816 c2_i32_308
  let c512_i32_401 : BitVec 32 := 512#32
  let v1008 : BitVec 32 := Scalar.muli v823 c512_i32_401
  let c256_i32_402 : BitVec 32 := 256#32
  let v1009 : BitVec 32 := Scalar.addi v1008 c256_i32_402
  let c112_i32_403 : BitVec 32 := 112#32
  let v1010 : BitVec 32 := Scalar.addi v1009 c112_i32_403
  let v1011 : Index := Scalar.indexCast v1010
  ![v1011.toNat]

def k0_chk152 (v1015 : IVec S16 32) : Prop :=
  (∀ a x, ((![v1015] : Fin 1 → IVec S16 32) a x).toNat < S32768.size a)
instance k0_chk152.dec : ∀ (v1015 : IVec S16 32), Decidable (k0_chk152 v1015) := fun v1015 => decidable_of_iff' _ (Iff.of_eq (k0_chk152.eq_1 v1015))
theorem k0_idx152_inb : ∀ (v1015 : IVec S16 32) (k0_hw152 : k0_chk152 v1015), ∀ a x, ((![v1015] : Fin 1 → IVec S16 32) a x).toNat < S32768.size a := fun v1015 k0_hw152 => k0_hw152
def k0_off95 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c2_i32_308 : BitVec 32 := 2#32
  let v823 : BitVec 32 := Scalar.subi v816 c2_i32_308
  let c512_i32_405 : BitVec 32 := 512#32
  let v1016 : BitVec 32 := Scalar.muli v823 c512_i32_405
  let c384_i32_406 : BitVec 32 := 384#32
  let v1017 : BitVec 32 := Scalar.addi v1016 c384_i32_406
  let c0_i32_407 : BitVec 32 := 0#32
  let v1018 : BitVec 32 := Scalar.addi v1017 c0_i32_407
  let v1019 : Index := Scalar.indexCast v1018
  ![v1019.toNat]

def k0_chk153 (v1023 : IVec S16 32) : Prop :=
  (∀ a x, ((![v1023] : Fin 1 → IVec S16 32) a x).toNat < S32768.size a)
instance k0_chk153.dec : ∀ (v1023 : IVec S16 32), Decidable (k0_chk153 v1023) := fun v1023 => decidable_of_iff' _ (Iff.of_eq (k0_chk153.eq_1 v1023))
theorem k0_idx153_inb : ∀ (v1023 : IVec S16 32) (k0_hw153 : k0_chk153 v1023), ∀ a x, ((![v1023] : Fin 1 → IVec S16 32) a x).toNat < S32768.size a := fun v1023 k0_hw153 => k0_hw153
def k0_off96 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c2_i32_308 : BitVec 32 := 2#32
  let v823 : BitVec 32 := Scalar.subi v816 c2_i32_308
  let c512_i32_409 : BitVec 32 := 512#32
  let v1024 : BitVec 32 := Scalar.muli v823 c512_i32_409
  let c384_i32_410 : BitVec 32 := 384#32
  let v1025 : BitVec 32 := Scalar.addi v1024 c384_i32_410
  let c16_i32_411 : BitVec 32 := 16#32
  let v1026 : BitVec 32 := Scalar.addi v1025 c16_i32_411
  let v1027 : Index := Scalar.indexCast v1026
  ![v1027.toNat]

def k0_chk154 (v1031 : IVec S16 32) : Prop :=
  (∀ a x, ((![v1031] : Fin 1 → IVec S16 32) a x).toNat < S32768.size a)
instance k0_chk154.dec : ∀ (v1031 : IVec S16 32), Decidable (k0_chk154 v1031) := fun v1031 => decidable_of_iff' _ (Iff.of_eq (k0_chk154.eq_1 v1031))
theorem k0_idx154_inb : ∀ (v1031 : IVec S16 32) (k0_hw154 : k0_chk154 v1031), ∀ a x, ((![v1031] : Fin 1 → IVec S16 32) a x).toNat < S32768.size a := fun v1031 k0_hw154 => k0_hw154
def k0_off97 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c2_i32_308 : BitVec 32 := 2#32
  let v823 : BitVec 32 := Scalar.subi v816 c2_i32_308
  let c512_i32_413 : BitVec 32 := 512#32
  let v1032 : BitVec 32 := Scalar.muli v823 c512_i32_413
  let c384_i32_414 : BitVec 32 := 384#32
  let v1033 : BitVec 32 := Scalar.addi v1032 c384_i32_414
  let c32_i32_415 : BitVec 32 := 32#32
  let v1034 : BitVec 32 := Scalar.addi v1033 c32_i32_415
  let v1035 : Index := Scalar.indexCast v1034
  ![v1035.toNat]

def k0_chk155 (v1039 : IVec S16 32) : Prop :=
  (∀ a x, ((![v1039] : Fin 1 → IVec S16 32) a x).toNat < S32768.size a)
instance k0_chk155.dec : ∀ (v1039 : IVec S16 32), Decidable (k0_chk155 v1039) := fun v1039 => decidable_of_iff' _ (Iff.of_eq (k0_chk155.eq_1 v1039))
theorem k0_idx155_inb : ∀ (v1039 : IVec S16 32) (k0_hw155 : k0_chk155 v1039), ∀ a x, ((![v1039] : Fin 1 → IVec S16 32) a x).toNat < S32768.size a := fun v1039 k0_hw155 => k0_hw155
def k0_off98 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c2_i32_308 : BitVec 32 := 2#32
  let v823 : BitVec 32 := Scalar.subi v816 c2_i32_308
  let c512_i32_417 : BitVec 32 := 512#32
  let v1040 : BitVec 32 := Scalar.muli v823 c512_i32_417
  let c384_i32_418 : BitVec 32 := 384#32
  let v1041 : BitVec 32 := Scalar.addi v1040 c384_i32_418
  let c48_i32_419 : BitVec 32 := 48#32
  let v1042 : BitVec 32 := Scalar.addi v1041 c48_i32_419
  let v1043 : Index := Scalar.indexCast v1042
  ![v1043.toNat]

def k0_chk156 (v1047 : IVec S16 32) : Prop :=
  (∀ a x, ((![v1047] : Fin 1 → IVec S16 32) a x).toNat < S32768.size a)
instance k0_chk156.dec : ∀ (v1047 : IVec S16 32), Decidable (k0_chk156 v1047) := fun v1047 => decidable_of_iff' _ (Iff.of_eq (k0_chk156.eq_1 v1047))
theorem k0_idx156_inb : ∀ (v1047 : IVec S16 32) (k0_hw156 : k0_chk156 v1047), ∀ a x, ((![v1047] : Fin 1 → IVec S16 32) a x).toNat < S32768.size a := fun v1047 k0_hw156 => k0_hw156
def k0_off99 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c2_i32_308 : BitVec 32 := 2#32
  let v823 : BitVec 32 := Scalar.subi v816 c2_i32_308
  let c512_i32_421 : BitVec 32 := 512#32
  let v1048 : BitVec 32 := Scalar.muli v823 c512_i32_421
  let c384_i32_422 : BitVec 32 := 384#32
  let v1049 : BitVec 32 := Scalar.addi v1048 c384_i32_422
  let c64_i32_423 : BitVec 32 := 64#32
  let v1050 : BitVec 32 := Scalar.addi v1049 c64_i32_423
  let v1051 : Index := Scalar.indexCast v1050
  ![v1051.toNat]

def k0_chk157 (v1055 : IVec S16 32) : Prop :=
  (∀ a x, ((![v1055] : Fin 1 → IVec S16 32) a x).toNat < S32768.size a)
instance k0_chk157.dec : ∀ (v1055 : IVec S16 32), Decidable (k0_chk157 v1055) := fun v1055 => decidable_of_iff' _ (Iff.of_eq (k0_chk157.eq_1 v1055))
theorem k0_idx157_inb : ∀ (v1055 : IVec S16 32) (k0_hw157 : k0_chk157 v1055), ∀ a x, ((![v1055] : Fin 1 → IVec S16 32) a x).toNat < S32768.size a := fun v1055 k0_hw157 => k0_hw157
def k0_off100 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c2_i32_308 : BitVec 32 := 2#32
  let v823 : BitVec 32 := Scalar.subi v816 c2_i32_308
  let c512_i32_425 : BitVec 32 := 512#32
  let v1056 : BitVec 32 := Scalar.muli v823 c512_i32_425
  let c384_i32_426 : BitVec 32 := 384#32
  let v1057 : BitVec 32 := Scalar.addi v1056 c384_i32_426
  let c80_i32_427 : BitVec 32 := 80#32
  let v1058 : BitVec 32 := Scalar.addi v1057 c80_i32_427
  let v1059 : Index := Scalar.indexCast v1058
  ![v1059.toNat]

def k0_chk158 (v1063 : IVec S16 32) : Prop :=
  (∀ a x, ((![v1063] : Fin 1 → IVec S16 32) a x).toNat < S32768.size a)
instance k0_chk158.dec : ∀ (v1063 : IVec S16 32), Decidable (k0_chk158 v1063) := fun v1063 => decidable_of_iff' _ (Iff.of_eq (k0_chk158.eq_1 v1063))
theorem k0_idx158_inb : ∀ (v1063 : IVec S16 32) (k0_hw158 : k0_chk158 v1063), ∀ a x, ((![v1063] : Fin 1 → IVec S16 32) a x).toNat < S32768.size a := fun v1063 k0_hw158 => k0_hw158
def k0_off101 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c2_i32_308 : BitVec 32 := 2#32
  let v823 : BitVec 32 := Scalar.subi v816 c2_i32_308
  let c512_i32_429 : BitVec 32 := 512#32
  let v1064 : BitVec 32 := Scalar.muli v823 c512_i32_429
  let c384_i32_430 : BitVec 32 := 384#32
  let v1065 : BitVec 32 := Scalar.addi v1064 c384_i32_430
  let c96_i32_431 : BitVec 32 := 96#32
  let v1066 : BitVec 32 := Scalar.addi v1065 c96_i32_431
  let v1067 : Index := Scalar.indexCast v1066
  ![v1067.toNat]

def k0_chk159 (v1071 : IVec S16 32) : Prop :=
  (∀ a x, ((![v1071] : Fin 1 → IVec S16 32) a x).toNat < S32768.size a)
instance k0_chk159.dec : ∀ (v1071 : IVec S16 32), Decidable (k0_chk159 v1071) := fun v1071 => decidable_of_iff' _ (Iff.of_eq (k0_chk159.eq_1 v1071))
theorem k0_idx159_inb : ∀ (v1071 : IVec S16 32) (k0_hw159 : k0_chk159 v1071), ∀ a x, ((![v1071] : Fin 1 → IVec S16 32) a x).toNat < S32768.size a := fun v1071 k0_hw159 => k0_hw159
def k0_off102 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c2_i32_308 : BitVec 32 := 2#32
  let v823 : BitVec 32 := Scalar.subi v816 c2_i32_308
  let c512_i32_433 : BitVec 32 := 512#32
  let v1072 : BitVec 32 := Scalar.muli v823 c512_i32_433
  let c384_i32_434 : BitVec 32 := 384#32
  let v1073 : BitVec 32 := Scalar.addi v1072 c384_i32_434
  let c112_i32_435 : BitVec 32 := 112#32
  let v1074 : BitVec 32 := Scalar.addi v1073 c112_i32_435
  let v1075 : Index := Scalar.indexCast v1074
  ![v1075.toNat]

def k0_chk160 (v1079 : IVec S16 32) : Prop :=
  (∀ a x, ((![v1079] : Fin 1 → IVec S16 32) a x).toNat < S32768.size a)
instance k0_chk160.dec : ∀ (v1079 : IVec S16 32), Decidable (k0_chk160 v1079) := fun v1079 => decidable_of_iff' _ (Iff.of_eq (k0_chk160.eq_1 v1079))
theorem k0_idx160_inb : ∀ (v1079 : IVec S16 32) (k0_hw160 : k0_chk160 v1079), ∀ a x, ((![v1079] : Fin 1 → IVec S16 32) a x).toNat < S32768.size a := fun v1079 k0_hw160 => k0_hw160
def k0_off103 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c512_i32_437 : BitVec 32 := 512#32
  let v1080 : BitVec 32 := Scalar.muli v816 c512_i32_437
  let c0_i32_438 : BitVec 32 := 0#32
  let v1081 : BitVec 32 := Scalar.addi v1080 c0_i32_438
  let c0_i32_439 : BitVec 32 := 0#32
  let v1082 : BitVec 32 := Scalar.addi v1081 c0_i32_439
  let v1083 : Index := Scalar.indexCast v1082
  ![v1083.toNat]

def k0_chk161 (v1087 : IVec S16 32) : Prop :=
  (∀ a x, ((![v1087] : Fin 1 → IVec S16 32) a x).toNat < S32768.size a)
instance k0_chk161.dec : ∀ (v1087 : IVec S16 32), Decidable (k0_chk161 v1087) := fun v1087 => decidable_of_iff' _ (Iff.of_eq (k0_chk161.eq_1 v1087))
theorem k0_idx161_inb : ∀ (v1087 : IVec S16 32) (k0_hw161 : k0_chk161 v1087), ∀ a x, ((![v1087] : Fin 1 → IVec S16 32) a x).toNat < S32768.size a := fun v1087 k0_hw161 => k0_hw161
def k0_off104 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c512_i32_441 : BitVec 32 := 512#32
  let v1088 : BitVec 32 := Scalar.muli v816 c512_i32_441
  let c0_i32_442 : BitVec 32 := 0#32
  let v1089 : BitVec 32 := Scalar.addi v1088 c0_i32_442
  let c16_i32_443 : BitVec 32 := 16#32
  let v1090 : BitVec 32 := Scalar.addi v1089 c16_i32_443
  let v1091 : Index := Scalar.indexCast v1090
  ![v1091.toNat]

def k0_chk162 (v1095 : IVec S16 32) : Prop :=
  (∀ a x, ((![v1095] : Fin 1 → IVec S16 32) a x).toNat < S32768.size a)
instance k0_chk162.dec : ∀ (v1095 : IVec S16 32), Decidable (k0_chk162 v1095) := fun v1095 => decidable_of_iff' _ (Iff.of_eq (k0_chk162.eq_1 v1095))
theorem k0_idx162_inb : ∀ (v1095 : IVec S16 32) (k0_hw162 : k0_chk162 v1095), ∀ a x, ((![v1095] : Fin 1 → IVec S16 32) a x).toNat < S32768.size a := fun v1095 k0_hw162 => k0_hw162
def k0_off105 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c512_i32_445 : BitVec 32 := 512#32
  let v1096 : BitVec 32 := Scalar.muli v816 c512_i32_445
  let c0_i32_446 : BitVec 32 := 0#32
  let v1097 : BitVec 32 := Scalar.addi v1096 c0_i32_446
  let c32_i32_447 : BitVec 32 := 32#32
  let v1098 : BitVec 32 := Scalar.addi v1097 c32_i32_447
  let v1099 : Index := Scalar.indexCast v1098
  ![v1099.toNat]

def k0_chk163 (v1103 : IVec S16 32) : Prop :=
  (∀ a x, ((![v1103] : Fin 1 → IVec S16 32) a x).toNat < S32768.size a)
instance k0_chk163.dec : ∀ (v1103 : IVec S16 32), Decidable (k0_chk163 v1103) := fun v1103 => decidable_of_iff' _ (Iff.of_eq (k0_chk163.eq_1 v1103))
theorem k0_idx163_inb : ∀ (v1103 : IVec S16 32) (k0_hw163 : k0_chk163 v1103), ∀ a x, ((![v1103] : Fin 1 → IVec S16 32) a x).toNat < S32768.size a := fun v1103 k0_hw163 => k0_hw163
def k0_off106 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c512_i32_449 : BitVec 32 := 512#32
  let v1104 : BitVec 32 := Scalar.muli v816 c512_i32_449
  let c0_i32_450 : BitVec 32 := 0#32
  let v1105 : BitVec 32 := Scalar.addi v1104 c0_i32_450
  let c48_i32_451 : BitVec 32 := 48#32
  let v1106 : BitVec 32 := Scalar.addi v1105 c48_i32_451
  let v1107 : Index := Scalar.indexCast v1106
  ![v1107.toNat]

def k0_chk164 (v1111 : IVec S16 32) : Prop :=
  (∀ a x, ((![v1111] : Fin 1 → IVec S16 32) a x).toNat < S32768.size a)
instance k0_chk164.dec : ∀ (v1111 : IVec S16 32), Decidable (k0_chk164 v1111) := fun v1111 => decidable_of_iff' _ (Iff.of_eq (k0_chk164.eq_1 v1111))
theorem k0_idx164_inb : ∀ (v1111 : IVec S16 32) (k0_hw164 : k0_chk164 v1111), ∀ a x, ((![v1111] : Fin 1 → IVec S16 32) a x).toNat < S32768.size a := fun v1111 k0_hw164 => k0_hw164
def k0_off107 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c512_i32_453 : BitVec 32 := 512#32
  let v1112 : BitVec 32 := Scalar.muli v816 c512_i32_453
  let c0_i32_454 : BitVec 32 := 0#32
  let v1113 : BitVec 32 := Scalar.addi v1112 c0_i32_454
  let c64_i32_455 : BitVec 32 := 64#32
  let v1114 : BitVec 32 := Scalar.addi v1113 c64_i32_455
  let v1115 : Index := Scalar.indexCast v1114
  ![v1115.toNat]

def k0_chk165 (v1119 : IVec S16 32) : Prop :=
  (∀ a x, ((![v1119] : Fin 1 → IVec S16 32) a x).toNat < S32768.size a)
instance k0_chk165.dec : ∀ (v1119 : IVec S16 32), Decidable (k0_chk165 v1119) := fun v1119 => decidable_of_iff' _ (Iff.of_eq (k0_chk165.eq_1 v1119))
theorem k0_idx165_inb : ∀ (v1119 : IVec S16 32) (k0_hw165 : k0_chk165 v1119), ∀ a x, ((![v1119] : Fin 1 → IVec S16 32) a x).toNat < S32768.size a := fun v1119 k0_hw165 => k0_hw165
def k0_off108 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c512_i32_457 : BitVec 32 := 512#32
  let v1120 : BitVec 32 := Scalar.muli v816 c512_i32_457
  let c0_i32_458 : BitVec 32 := 0#32
  let v1121 : BitVec 32 := Scalar.addi v1120 c0_i32_458
  let c80_i32_459 : BitVec 32 := 80#32
  let v1122 : BitVec 32 := Scalar.addi v1121 c80_i32_459
  let v1123 : Index := Scalar.indexCast v1122
  ![v1123.toNat]

def k0_chk166 (v1127 : IVec S16 32) : Prop :=
  (∀ a x, ((![v1127] : Fin 1 → IVec S16 32) a x).toNat < S32768.size a)
instance k0_chk166.dec : ∀ (v1127 : IVec S16 32), Decidable (k0_chk166 v1127) := fun v1127 => decidable_of_iff' _ (Iff.of_eq (k0_chk166.eq_1 v1127))
theorem k0_idx166_inb : ∀ (v1127 : IVec S16 32) (k0_hw166 : k0_chk166 v1127), ∀ a x, ((![v1127] : Fin 1 → IVec S16 32) a x).toNat < S32768.size a := fun v1127 k0_hw166 => k0_hw166
def k0_off109 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c512_i32_461 : BitVec 32 := 512#32
  let v1128 : BitVec 32 := Scalar.muli v816 c512_i32_461
  let c0_i32_462 : BitVec 32 := 0#32
  let v1129 : BitVec 32 := Scalar.addi v1128 c0_i32_462
  let c96_i32_463 : BitVec 32 := 96#32
  let v1130 : BitVec 32 := Scalar.addi v1129 c96_i32_463
  let v1131 : Index := Scalar.indexCast v1130
  ![v1131.toNat]

def k0_chk167 (v1135 : IVec S16 32) : Prop :=
  (∀ a x, ((![v1135] : Fin 1 → IVec S16 32) a x).toNat < S32768.size a)
instance k0_chk167.dec : ∀ (v1135 : IVec S16 32), Decidable (k0_chk167 v1135) := fun v1135 => decidable_of_iff' _ (Iff.of_eq (k0_chk167.eq_1 v1135))
theorem k0_idx167_inb : ∀ (v1135 : IVec S16 32) (k0_hw167 : k0_chk167 v1135), ∀ a x, ((![v1135] : Fin 1 → IVec S16 32) a x).toNat < S32768.size a := fun v1135 k0_hw167 => k0_hw167
def k0_off110 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c512_i32_465 : BitVec 32 := 512#32
  let v1136 : BitVec 32 := Scalar.muli v816 c512_i32_465
  let c0_i32_466 : BitVec 32 := 0#32
  let v1137 : BitVec 32 := Scalar.addi v1136 c0_i32_466
  let c112_i32_467 : BitVec 32 := 112#32
  let v1138 : BitVec 32 := Scalar.addi v1137 c112_i32_467
  let v1139 : Index := Scalar.indexCast v1138
  ![v1139.toNat]

def k0_chk168 (v1143 : IVec S16 32) : Prop :=
  (∀ a x, ((![v1143] : Fin 1 → IVec S16 32) a x).toNat < S32768.size a)
instance k0_chk168.dec : ∀ (v1143 : IVec S16 32), Decidable (k0_chk168 v1143) := fun v1143 => decidable_of_iff' _ (Iff.of_eq (k0_chk168.eq_1 v1143))
theorem k0_idx168_inb : ∀ (v1143 : IVec S16 32) (k0_hw168 : k0_chk168 v1143), ∀ a x, ((![v1143] : Fin 1 → IVec S16 32) a x).toNat < S32768.size a := fun v1143 k0_hw168 => k0_hw168
def k0_off111 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c512_i32_469 : BitVec 32 := 512#32
  let v1144 : BitVec 32 := Scalar.muli v816 c512_i32_469
  let c128_i32_470 : BitVec 32 := 128#32
  let v1145 : BitVec 32 := Scalar.addi v1144 c128_i32_470
  let c0_i32_471 : BitVec 32 := 0#32
  let v1146 : BitVec 32 := Scalar.addi v1145 c0_i32_471
  let v1147 : Index := Scalar.indexCast v1146
  ![v1147.toNat]

def k0_chk169 (v1151 : IVec S16 32) : Prop :=
  (∀ a x, ((![v1151] : Fin 1 → IVec S16 32) a x).toNat < S32768.size a)
instance k0_chk169.dec : ∀ (v1151 : IVec S16 32), Decidable (k0_chk169 v1151) := fun v1151 => decidable_of_iff' _ (Iff.of_eq (k0_chk169.eq_1 v1151))
theorem k0_idx169_inb : ∀ (v1151 : IVec S16 32) (k0_hw169 : k0_chk169 v1151), ∀ a x, ((![v1151] : Fin 1 → IVec S16 32) a x).toNat < S32768.size a := fun v1151 k0_hw169 => k0_hw169
def k0_off112 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c512_i32_473 : BitVec 32 := 512#32
  let v1152 : BitVec 32 := Scalar.muli v816 c512_i32_473
  let c128_i32_474 : BitVec 32 := 128#32
  let v1153 : BitVec 32 := Scalar.addi v1152 c128_i32_474
  let c16_i32_475 : BitVec 32 := 16#32
  let v1154 : BitVec 32 := Scalar.addi v1153 c16_i32_475
  let v1155 : Index := Scalar.indexCast v1154
  ![v1155.toNat]

def k0_chk170 (v1159 : IVec S16 32) : Prop :=
  (∀ a x, ((![v1159] : Fin 1 → IVec S16 32) a x).toNat < S32768.size a)
instance k0_chk170.dec : ∀ (v1159 : IVec S16 32), Decidable (k0_chk170 v1159) := fun v1159 => decidable_of_iff' _ (Iff.of_eq (k0_chk170.eq_1 v1159))
theorem k0_idx170_inb : ∀ (v1159 : IVec S16 32) (k0_hw170 : k0_chk170 v1159), ∀ a x, ((![v1159] : Fin 1 → IVec S16 32) a x).toNat < S32768.size a := fun v1159 k0_hw170 => k0_hw170
def k0_off113 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c512_i32_477 : BitVec 32 := 512#32
  let v1160 : BitVec 32 := Scalar.muli v816 c512_i32_477
  let c128_i32_478 : BitVec 32 := 128#32
  let v1161 : BitVec 32 := Scalar.addi v1160 c128_i32_478
  let c32_i32_479 : BitVec 32 := 32#32
  let v1162 : BitVec 32 := Scalar.addi v1161 c32_i32_479
  let v1163 : Index := Scalar.indexCast v1162
  ![v1163.toNat]

def k0_chk171 (v1167 : IVec S16 32) : Prop :=
  (∀ a x, ((![v1167] : Fin 1 → IVec S16 32) a x).toNat < S32768.size a)
instance k0_chk171.dec : ∀ (v1167 : IVec S16 32), Decidable (k0_chk171 v1167) := fun v1167 => decidable_of_iff' _ (Iff.of_eq (k0_chk171.eq_1 v1167))
theorem k0_idx171_inb : ∀ (v1167 : IVec S16 32) (k0_hw171 : k0_chk171 v1167), ∀ a x, ((![v1167] : Fin 1 → IVec S16 32) a x).toNat < S32768.size a := fun v1167 k0_hw171 => k0_hw171
def k0_off114 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c512_i32_481 : BitVec 32 := 512#32
  let v1168 : BitVec 32 := Scalar.muli v816 c512_i32_481
  let c128_i32_482 : BitVec 32 := 128#32
  let v1169 : BitVec 32 := Scalar.addi v1168 c128_i32_482
  let c48_i32_483 : BitVec 32 := 48#32
  let v1170 : BitVec 32 := Scalar.addi v1169 c48_i32_483
  let v1171 : Index := Scalar.indexCast v1170
  ![v1171.toNat]

def k0_chk172 (v1175 : IVec S16 32) : Prop :=
  (∀ a x, ((![v1175] : Fin 1 → IVec S16 32) a x).toNat < S32768.size a)
instance k0_chk172.dec : ∀ (v1175 : IVec S16 32), Decidable (k0_chk172 v1175) := fun v1175 => decidable_of_iff' _ (Iff.of_eq (k0_chk172.eq_1 v1175))
theorem k0_idx172_inb : ∀ (v1175 : IVec S16 32) (k0_hw172 : k0_chk172 v1175), ∀ a x, ((![v1175] : Fin 1 → IVec S16 32) a x).toNat < S32768.size a := fun v1175 k0_hw172 => k0_hw172
def k0_off115 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c512_i32_485 : BitVec 32 := 512#32
  let v1176 : BitVec 32 := Scalar.muli v816 c512_i32_485
  let c128_i32_486 : BitVec 32 := 128#32
  let v1177 : BitVec 32 := Scalar.addi v1176 c128_i32_486
  let c64_i32_487 : BitVec 32 := 64#32
  let v1178 : BitVec 32 := Scalar.addi v1177 c64_i32_487
  let v1179 : Index := Scalar.indexCast v1178
  ![v1179.toNat]

def k0_chk173 (v1183 : IVec S16 32) : Prop :=
  (∀ a x, ((![v1183] : Fin 1 → IVec S16 32) a x).toNat < S32768.size a)
instance k0_chk173.dec : ∀ (v1183 : IVec S16 32), Decidable (k0_chk173 v1183) := fun v1183 => decidable_of_iff' _ (Iff.of_eq (k0_chk173.eq_1 v1183))
theorem k0_idx173_inb : ∀ (v1183 : IVec S16 32) (k0_hw173 : k0_chk173 v1183), ∀ a x, ((![v1183] : Fin 1 → IVec S16 32) a x).toNat < S32768.size a := fun v1183 k0_hw173 => k0_hw173
def k0_off116 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c512_i32_489 : BitVec 32 := 512#32
  let v1184 : BitVec 32 := Scalar.muli v816 c512_i32_489
  let c128_i32_490 : BitVec 32 := 128#32
  let v1185 : BitVec 32 := Scalar.addi v1184 c128_i32_490
  let c80_i32_491 : BitVec 32 := 80#32
  let v1186 : BitVec 32 := Scalar.addi v1185 c80_i32_491
  let v1187 : Index := Scalar.indexCast v1186
  ![v1187.toNat]

def k0_chk174 (v1191 : IVec S16 32) : Prop :=
  (∀ a x, ((![v1191] : Fin 1 → IVec S16 32) a x).toNat < S32768.size a)
instance k0_chk174.dec : ∀ (v1191 : IVec S16 32), Decidable (k0_chk174 v1191) := fun v1191 => decidable_of_iff' _ (Iff.of_eq (k0_chk174.eq_1 v1191))
theorem k0_idx174_inb : ∀ (v1191 : IVec S16 32) (k0_hw174 : k0_chk174 v1191), ∀ a x, ((![v1191] : Fin 1 → IVec S16 32) a x).toNat < S32768.size a := fun v1191 k0_hw174 => k0_hw174
def k0_off117 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c512_i32_493 : BitVec 32 := 512#32
  let v1192 : BitVec 32 := Scalar.muli v816 c512_i32_493
  let c128_i32_494 : BitVec 32 := 128#32
  let v1193 : BitVec 32 := Scalar.addi v1192 c128_i32_494
  let c96_i32_495 : BitVec 32 := 96#32
  let v1194 : BitVec 32 := Scalar.addi v1193 c96_i32_495
  let v1195 : Index := Scalar.indexCast v1194
  ![v1195.toNat]

def k0_chk175 (v1199 : IVec S16 32) : Prop :=
  (∀ a x, ((![v1199] : Fin 1 → IVec S16 32) a x).toNat < S32768.size a)
instance k0_chk175.dec : ∀ (v1199 : IVec S16 32), Decidable (k0_chk175 v1199) := fun v1199 => decidable_of_iff' _ (Iff.of_eq (k0_chk175.eq_1 v1199))
theorem k0_idx175_inb : ∀ (v1199 : IVec S16 32) (k0_hw175 : k0_chk175 v1199), ∀ a x, ((![v1199] : Fin 1 → IVec S16 32) a x).toNat < S32768.size a := fun v1199 k0_hw175 => k0_hw175
def k0_off118 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c512_i32_497 : BitVec 32 := 512#32
  let v1200 : BitVec 32 := Scalar.muli v816 c512_i32_497
  let c128_i32_498 : BitVec 32 := 128#32
  let v1201 : BitVec 32 := Scalar.addi v1200 c128_i32_498
  let c112_i32_499 : BitVec 32 := 112#32
  let v1202 : BitVec 32 := Scalar.addi v1201 c112_i32_499
  let v1203 : Index := Scalar.indexCast v1202
  ![v1203.toNat]

def k0_chk176 (v1207 : IVec S16 32) : Prop :=
  (∀ a x, ((![v1207] : Fin 1 → IVec S16 32) a x).toNat < S32768.size a)
instance k0_chk176.dec : ∀ (v1207 : IVec S16 32), Decidable (k0_chk176 v1207) := fun v1207 => decidable_of_iff' _ (Iff.of_eq (k0_chk176.eq_1 v1207))
theorem k0_idx176_inb : ∀ (v1207 : IVec S16 32) (k0_hw176 : k0_chk176 v1207), ∀ a x, ((![v1207] : Fin 1 → IVec S16 32) a x).toNat < S32768.size a := fun v1207 k0_hw176 => k0_hw176
def k0_off119 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c512_i32_501 : BitVec 32 := 512#32
  let v1208 : BitVec 32 := Scalar.muli v816 c512_i32_501
  let c256_i32_502 : BitVec 32 := 256#32
  let v1209 : BitVec 32 := Scalar.addi v1208 c256_i32_502
  let c0_i32_503 : BitVec 32 := 0#32
  let v1210 : BitVec 32 := Scalar.addi v1209 c0_i32_503
  let v1211 : Index := Scalar.indexCast v1210
  ![v1211.toNat]

def k0_chk177 (v1215 : IVec S16 32) : Prop :=
  (∀ a x, ((![v1215] : Fin 1 → IVec S16 32) a x).toNat < S32768.size a)
instance k0_chk177.dec : ∀ (v1215 : IVec S16 32), Decidable (k0_chk177 v1215) := fun v1215 => decidable_of_iff' _ (Iff.of_eq (k0_chk177.eq_1 v1215))
theorem k0_idx177_inb : ∀ (v1215 : IVec S16 32) (k0_hw177 : k0_chk177 v1215), ∀ a x, ((![v1215] : Fin 1 → IVec S16 32) a x).toNat < S32768.size a := fun v1215 k0_hw177 => k0_hw177
def k0_off120 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c512_i32_505 : BitVec 32 := 512#32
  let v1216 : BitVec 32 := Scalar.muli v816 c512_i32_505
  let c256_i32_506 : BitVec 32 := 256#32
  let v1217 : BitVec 32 := Scalar.addi v1216 c256_i32_506
  let c16_i32_507 : BitVec 32 := 16#32
  let v1218 : BitVec 32 := Scalar.addi v1217 c16_i32_507
  let v1219 : Index := Scalar.indexCast v1218
  ![v1219.toNat]

def k0_chk178 (v1223 : IVec S16 32) : Prop :=
  (∀ a x, ((![v1223] : Fin 1 → IVec S16 32) a x).toNat < S32768.size a)
instance k0_chk178.dec : ∀ (v1223 : IVec S16 32), Decidable (k0_chk178 v1223) := fun v1223 => decidable_of_iff' _ (Iff.of_eq (k0_chk178.eq_1 v1223))
theorem k0_idx178_inb : ∀ (v1223 : IVec S16 32) (k0_hw178 : k0_chk178 v1223), ∀ a x, ((![v1223] : Fin 1 → IVec S16 32) a x).toNat < S32768.size a := fun v1223 k0_hw178 => k0_hw178
def k0_off121 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c512_i32_509 : BitVec 32 := 512#32
  let v1224 : BitVec 32 := Scalar.muli v816 c512_i32_509
  let c256_i32_510 : BitVec 32 := 256#32
  let v1225 : BitVec 32 := Scalar.addi v1224 c256_i32_510
  let c32_i32_511 : BitVec 32 := 32#32
  let v1226 : BitVec 32 := Scalar.addi v1225 c32_i32_511
  let v1227 : Index := Scalar.indexCast v1226
  ![v1227.toNat]

def k0_chk179 (v1231 : IVec S16 32) : Prop :=
  (∀ a x, ((![v1231] : Fin 1 → IVec S16 32) a x).toNat < S32768.size a)
instance k0_chk179.dec : ∀ (v1231 : IVec S16 32), Decidable (k0_chk179 v1231) := fun v1231 => decidable_of_iff' _ (Iff.of_eq (k0_chk179.eq_1 v1231))
theorem k0_idx179_inb : ∀ (v1231 : IVec S16 32) (k0_hw179 : k0_chk179 v1231), ∀ a x, ((![v1231] : Fin 1 → IVec S16 32) a x).toNat < S32768.size a := fun v1231 k0_hw179 => k0_hw179
def k0_off122 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c512_i32_513 : BitVec 32 := 512#32
  let v1232 : BitVec 32 := Scalar.muli v816 c512_i32_513
  let c256_i32_514 : BitVec 32 := 256#32
  let v1233 : BitVec 32 := Scalar.addi v1232 c256_i32_514
  let c48_i32_515 : BitVec 32 := 48#32
  let v1234 : BitVec 32 := Scalar.addi v1233 c48_i32_515
  let v1235 : Index := Scalar.indexCast v1234
  ![v1235.toNat]

def k0_chk180 (v1239 : IVec S16 32) : Prop :=
  (∀ a x, ((![v1239] : Fin 1 → IVec S16 32) a x).toNat < S32768.size a)
instance k0_chk180.dec : ∀ (v1239 : IVec S16 32), Decidable (k0_chk180 v1239) := fun v1239 => decidable_of_iff' _ (Iff.of_eq (k0_chk180.eq_1 v1239))
theorem k0_idx180_inb : ∀ (v1239 : IVec S16 32) (k0_hw180 : k0_chk180 v1239), ∀ a x, ((![v1239] : Fin 1 → IVec S16 32) a x).toNat < S32768.size a := fun v1239 k0_hw180 => k0_hw180
def k0_off123 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c512_i32_517 : BitVec 32 := 512#32
  let v1240 : BitVec 32 := Scalar.muli v816 c512_i32_517
  let c256_i32_518 : BitVec 32 := 256#32
  let v1241 : BitVec 32 := Scalar.addi v1240 c256_i32_518
  let c64_i32_519 : BitVec 32 := 64#32
  let v1242 : BitVec 32 := Scalar.addi v1241 c64_i32_519
  let v1243 : Index := Scalar.indexCast v1242
  ![v1243.toNat]

def k0_chk181 (v1247 : IVec S16 32) : Prop :=
  (∀ a x, ((![v1247] : Fin 1 → IVec S16 32) a x).toNat < S32768.size a)
instance k0_chk181.dec : ∀ (v1247 : IVec S16 32), Decidable (k0_chk181 v1247) := fun v1247 => decidable_of_iff' _ (Iff.of_eq (k0_chk181.eq_1 v1247))
theorem k0_idx181_inb : ∀ (v1247 : IVec S16 32) (k0_hw181 : k0_chk181 v1247), ∀ a x, ((![v1247] : Fin 1 → IVec S16 32) a x).toNat < S32768.size a := fun v1247 k0_hw181 => k0_hw181
def k0_off124 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c512_i32_521 : BitVec 32 := 512#32
  let v1248 : BitVec 32 := Scalar.muli v816 c512_i32_521
  let c256_i32_522 : BitVec 32 := 256#32
  let v1249 : BitVec 32 := Scalar.addi v1248 c256_i32_522
  let c80_i32_523 : BitVec 32 := 80#32
  let v1250 : BitVec 32 := Scalar.addi v1249 c80_i32_523
  let v1251 : Index := Scalar.indexCast v1250
  ![v1251.toNat]

def k0_chk182 (v1255 : IVec S16 32) : Prop :=
  (∀ a x, ((![v1255] : Fin 1 → IVec S16 32) a x).toNat < S32768.size a)
instance k0_chk182.dec : ∀ (v1255 : IVec S16 32), Decidable (k0_chk182 v1255) := fun v1255 => decidable_of_iff' _ (Iff.of_eq (k0_chk182.eq_1 v1255))
theorem k0_idx182_inb : ∀ (v1255 : IVec S16 32) (k0_hw182 : k0_chk182 v1255), ∀ a x, ((![v1255] : Fin 1 → IVec S16 32) a x).toNat < S32768.size a := fun v1255 k0_hw182 => k0_hw182
def k0_off125 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c512_i32_525 : BitVec 32 := 512#32
  let v1256 : BitVec 32 := Scalar.muli v816 c512_i32_525
  let c256_i32_526 : BitVec 32 := 256#32
  let v1257 : BitVec 32 := Scalar.addi v1256 c256_i32_526
  let c96_i32_527 : BitVec 32 := 96#32
  let v1258 : BitVec 32 := Scalar.addi v1257 c96_i32_527
  let v1259 : Index := Scalar.indexCast v1258
  ![v1259.toNat]

def k0_chk183 (v1263 : IVec S16 32) : Prop :=
  (∀ a x, ((![v1263] : Fin 1 → IVec S16 32) a x).toNat < S32768.size a)
instance k0_chk183.dec : ∀ (v1263 : IVec S16 32), Decidable (k0_chk183 v1263) := fun v1263 => decidable_of_iff' _ (Iff.of_eq (k0_chk183.eq_1 v1263))
theorem k0_idx183_inb : ∀ (v1263 : IVec S16 32) (k0_hw183 : k0_chk183 v1263), ∀ a x, ((![v1263] : Fin 1 → IVec S16 32) a x).toNat < S32768.size a := fun v1263 k0_hw183 => k0_hw183
def k0_off126 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c512_i32_529 : BitVec 32 := 512#32
  let v1264 : BitVec 32 := Scalar.muli v816 c512_i32_529
  let c256_i32_530 : BitVec 32 := 256#32
  let v1265 : BitVec 32 := Scalar.addi v1264 c256_i32_530
  let c112_i32_531 : BitVec 32 := 112#32
  let v1266 : BitVec 32 := Scalar.addi v1265 c112_i32_531
  let v1267 : Index := Scalar.indexCast v1266
  ![v1267.toNat]

def k0_chk184 (v1271 : IVec S16 32) : Prop :=
  (∀ a x, ((![v1271] : Fin 1 → IVec S16 32) a x).toNat < S32768.size a)
instance k0_chk184.dec : ∀ (v1271 : IVec S16 32), Decidable (k0_chk184 v1271) := fun v1271 => decidable_of_iff' _ (Iff.of_eq (k0_chk184.eq_1 v1271))
theorem k0_idx184_inb : ∀ (v1271 : IVec S16 32) (k0_hw184 : k0_chk184 v1271), ∀ a x, ((![v1271] : Fin 1 → IVec S16 32) a x).toNat < S32768.size a := fun v1271 k0_hw184 => k0_hw184
def k0_off127 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c512_i32_533 : BitVec 32 := 512#32
  let v1272 : BitVec 32 := Scalar.muli v816 c512_i32_533
  let c384_i32_534 : BitVec 32 := 384#32
  let v1273 : BitVec 32 := Scalar.addi v1272 c384_i32_534
  let c0_i32_535 : BitVec 32 := 0#32
  let v1274 : BitVec 32 := Scalar.addi v1273 c0_i32_535
  let v1275 : Index := Scalar.indexCast v1274
  ![v1275.toNat]

def k0_chk185 (v1279 : IVec S16 32) : Prop :=
  (∀ a x, ((![v1279] : Fin 1 → IVec S16 32) a x).toNat < S32768.size a)
instance k0_chk185.dec : ∀ (v1279 : IVec S16 32), Decidable (k0_chk185 v1279) := fun v1279 => decidable_of_iff' _ (Iff.of_eq (k0_chk185.eq_1 v1279))
theorem k0_idx185_inb : ∀ (v1279 : IVec S16 32) (k0_hw185 : k0_chk185 v1279), ∀ a x, ((![v1279] : Fin 1 → IVec S16 32) a x).toNat < S32768.size a := fun v1279 k0_hw185 => k0_hw185
def k0_off128 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c512_i32_537 : BitVec 32 := 512#32
  let v1280 : BitVec 32 := Scalar.muli v816 c512_i32_537
  let c384_i32_538 : BitVec 32 := 384#32
  let v1281 : BitVec 32 := Scalar.addi v1280 c384_i32_538
  let c16_i32_539 : BitVec 32 := 16#32
  let v1282 : BitVec 32 := Scalar.addi v1281 c16_i32_539
  let v1283 : Index := Scalar.indexCast v1282
  ![v1283.toNat]

def k0_chk186 (v1287 : IVec S16 32) : Prop :=
  (∀ a x, ((![v1287] : Fin 1 → IVec S16 32) a x).toNat < S32768.size a)
instance k0_chk186.dec : ∀ (v1287 : IVec S16 32), Decidable (k0_chk186 v1287) := fun v1287 => decidable_of_iff' _ (Iff.of_eq (k0_chk186.eq_1 v1287))
theorem k0_idx186_inb : ∀ (v1287 : IVec S16 32) (k0_hw186 : k0_chk186 v1287), ∀ a x, ((![v1287] : Fin 1 → IVec S16 32) a x).toNat < S32768.size a := fun v1287 k0_hw186 => k0_hw186
def k0_off129 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c512_i32_541 : BitVec 32 := 512#32
  let v1288 : BitVec 32 := Scalar.muli v816 c512_i32_541
  let c384_i32_542 : BitVec 32 := 384#32
  let v1289 : BitVec 32 := Scalar.addi v1288 c384_i32_542
  let c32_i32_543 : BitVec 32 := 32#32
  let v1290 : BitVec 32 := Scalar.addi v1289 c32_i32_543
  let v1291 : Index := Scalar.indexCast v1290
  ![v1291.toNat]

def k0_chk187 (v1295 : IVec S16 32) : Prop :=
  (∀ a x, ((![v1295] : Fin 1 → IVec S16 32) a x).toNat < S32768.size a)
instance k0_chk187.dec : ∀ (v1295 : IVec S16 32), Decidable (k0_chk187 v1295) := fun v1295 => decidable_of_iff' _ (Iff.of_eq (k0_chk187.eq_1 v1295))
theorem k0_idx187_inb : ∀ (v1295 : IVec S16 32) (k0_hw187 : k0_chk187 v1295), ∀ a x, ((![v1295] : Fin 1 → IVec S16 32) a x).toNat < S32768.size a := fun v1295 k0_hw187 => k0_hw187
def k0_off130 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c512_i32_545 : BitVec 32 := 512#32
  let v1296 : BitVec 32 := Scalar.muli v816 c512_i32_545
  let c384_i32_546 : BitVec 32 := 384#32
  let v1297 : BitVec 32 := Scalar.addi v1296 c384_i32_546
  let c48_i32_547 : BitVec 32 := 48#32
  let v1298 : BitVec 32 := Scalar.addi v1297 c48_i32_547
  let v1299 : Index := Scalar.indexCast v1298
  ![v1299.toNat]

def k0_chk188 (v1303 : IVec S16 32) : Prop :=
  (∀ a x, ((![v1303] : Fin 1 → IVec S16 32) a x).toNat < S32768.size a)
instance k0_chk188.dec : ∀ (v1303 : IVec S16 32), Decidable (k0_chk188 v1303) := fun v1303 => decidable_of_iff' _ (Iff.of_eq (k0_chk188.eq_1 v1303))
theorem k0_idx188_inb : ∀ (v1303 : IVec S16 32) (k0_hw188 : k0_chk188 v1303), ∀ a x, ((![v1303] : Fin 1 → IVec S16 32) a x).toNat < S32768.size a := fun v1303 k0_hw188 => k0_hw188
def k0_off131 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c512_i32_549 : BitVec 32 := 512#32
  let v1304 : BitVec 32 := Scalar.muli v816 c512_i32_549
  let c384_i32_550 : BitVec 32 := 384#32
  let v1305 : BitVec 32 := Scalar.addi v1304 c384_i32_550
  let c64_i32_551 : BitVec 32 := 64#32
  let v1306 : BitVec 32 := Scalar.addi v1305 c64_i32_551
  let v1307 : Index := Scalar.indexCast v1306
  ![v1307.toNat]

def k0_chk189 (v1311 : IVec S16 32) : Prop :=
  (∀ a x, ((![v1311] : Fin 1 → IVec S16 32) a x).toNat < S32768.size a)
instance k0_chk189.dec : ∀ (v1311 : IVec S16 32), Decidable (k0_chk189 v1311) := fun v1311 => decidable_of_iff' _ (Iff.of_eq (k0_chk189.eq_1 v1311))
theorem k0_idx189_inb : ∀ (v1311 : IVec S16 32) (k0_hw189 : k0_chk189 v1311), ∀ a x, ((![v1311] : Fin 1 → IVec S16 32) a x).toNat < S32768.size a := fun v1311 k0_hw189 => k0_hw189
def k0_off132 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c512_i32_553 : BitVec 32 := 512#32
  let v1312 : BitVec 32 := Scalar.muli v816 c512_i32_553
  let c384_i32_554 : BitVec 32 := 384#32
  let v1313 : BitVec 32 := Scalar.addi v1312 c384_i32_554
  let c80_i32_555 : BitVec 32 := 80#32
  let v1314 : BitVec 32 := Scalar.addi v1313 c80_i32_555
  let v1315 : Index := Scalar.indexCast v1314
  ![v1315.toNat]

def k0_chk190 (v1319 : IVec S16 32) : Prop :=
  (∀ a x, ((![v1319] : Fin 1 → IVec S16 32) a x).toNat < S32768.size a)
instance k0_chk190.dec : ∀ (v1319 : IVec S16 32), Decidable (k0_chk190 v1319) := fun v1319 => decidable_of_iff' _ (Iff.of_eq (k0_chk190.eq_1 v1319))
theorem k0_idx190_inb : ∀ (v1319 : IVec S16 32) (k0_hw190 : k0_chk190 v1319), ∀ a x, ((![v1319] : Fin 1 → IVec S16 32) a x).toNat < S32768.size a := fun v1319 k0_hw190 => k0_hw190
def k0_off133 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c512_i32_557 : BitVec 32 := 512#32
  let v1320 : BitVec 32 := Scalar.muli v816 c512_i32_557
  let c384_i32_558 : BitVec 32 := 384#32
  let v1321 : BitVec 32 := Scalar.addi v1320 c384_i32_558
  let c96_i32_559 : BitVec 32 := 96#32
  let v1322 : BitVec 32 := Scalar.addi v1321 c96_i32_559
  let v1323 : Index := Scalar.indexCast v1322
  ![v1323.toNat]

def k0_chk191 (v1327 : IVec S16 32) : Prop :=
  (∀ a x, ((![v1327] : Fin 1 → IVec S16 32) a x).toNat < S32768.size a)
instance k0_chk191.dec : ∀ (v1327 : IVec S16 32), Decidable (k0_chk191 v1327) := fun v1327 => decidable_of_iff' _ (Iff.of_eq (k0_chk191.eq_1 v1327))
theorem k0_idx191_inb : ∀ (v1327 : IVec S16 32) (k0_hw191 : k0_chk191 v1327), ∀ a x, ((![v1327] : Fin 1 → IVec S16 32) a x).toNat < S32768.size a := fun v1327 k0_hw191 => k0_hw191
def k0_off134 (k0_t1 : Fin k0_t1_loop.trips) : Fin 1 → Nat :=
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let c512_i32_561 : BitVec 32 := 512#32
  let v1328 : BitVec 32 := Scalar.muli v816 c512_i32_561
  let c384_i32_562 : BitVec 32 := 384#32
  let v1329 : BitVec 32 := Scalar.addi v1328 c384_i32_562
  let c112_i32_563 : BitVec 32 := 112#32
  let v1330 : BitVec 32 := Scalar.addi v1329 c112_i32_563
  let v1331 : Index := Scalar.indexCast v1330
  ![v1331.toNat]

def k0_chk192 (v1335 : IVec S16 32) : Prop :=
  (∀ a x, ((![v1335] : Fin 1 → IVec S16 32) a x).toNat < S32768.size a)
instance k0_chk192.dec : ∀ (v1335 : IVec S16 32), Decidable (k0_chk192 v1335) := fun v1335 => decidable_of_iff' _ (Iff.of_eq (k0_chk192.eq_1 v1335))
theorem k0_idx192_inb : ∀ (v1335 : IVec S16 32) (k0_hw192 : k0_chk192 v1335), ∀ a x, ((![v1335] : Fin 1 → IVec S16 32) a x).toNat < S32768.size a := fun v1335 k0_hw192 => k0_hw192
def k0_off135 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_46 : BitVec 32 := 2#32
  let c1_i32_39 : BitVec 32 := 1#32
  let c1_i32_40 : BitVec 32 := 1#32
  let arg11 : BitVec 32 := Scf.iv c1_i32_39 c1_i32_40 k0_t1
  let v290 : BitVec 32 := Scalar.muli c2_i32_46 arg11
  let c1_i32_304 : BitVec 32 := 1#32
  let v816 : BitVec 32 := Scalar.addi v290 c1_i32_304
  let v1336 : BitVec 32 := Scalar.addi v2 v816
  let c0_i32_565 : BitVec 32 := 0#32
  ![v1336.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1024x4x128_S524288 : S1024x4x128.ShapeCasts S524288
  bcast_S_S32768 : S_.BroadcastsInDim S32768 (![] : Fin 0 → Fin S32768.rank)
  iota_S16_d0_w32_scVector : S16.Iotas .scVector 32 [0]
  inb_S16384_S16_0 : ∀ a, (![0] : Fin 1 → Nat) a + S16.size a ≤ S16384.size a
  h_S16 : 0 < S16.numel
  h_S32768 : 0 < S32768.numel
  inb_S16384_S16_16 : ∀ a, (![16] : Fin 1 → Nat) a + S16.size a ≤ S16384.size a
  inb_S16384_S16_32 : ∀ a, (![32] : Fin 1 → Nat) a + S16.size a ≤ S16384.size a
  inb_S16384_S16_48 : ∀ a, (![48] : Fin 1 → Nat) a + S16.size a ≤ S16384.size a
  inb_S16384_S16_64 : ∀ a, (![64] : Fin 1 → Nat) a + S16.size a ≤ S16384.size a
  inb_S16384_S16_80 : ∀ a, (![80] : Fin 1 → Nat) a + S16.size a ≤ S16384.size a
  inb_S16384_S16_96 : ∀ a, (![96] : Fin 1 → Nat) a + S16.size a ≤ S16384.size a
  inb_S16384_S16_112 : ∀ a, (![112] : Fin 1 → Nat) a + S16.size a ≤ S16384.size a
  inb_S16384_S16_128 : ∀ a, (![128] : Fin 1 → Nat) a + S16.size a ≤ S16384.size a
  inb_S16384_S16_144 : ∀ a, (![144] : Fin 1 → Nat) a + S16.size a ≤ S16384.size a
  inb_S16384_S16_160 : ∀ a, (![160] : Fin 1 → Nat) a + S16.size a ≤ S16384.size a
  inb_S16384_S16_176 : ∀ a, (![176] : Fin 1 → Nat) a + S16.size a ≤ S16384.size a
  inb_S16384_S16_192 : ∀ a, (![192] : Fin 1 → Nat) a + S16.size a ≤ S16384.size a
  inb_S16384_S16_208 : ∀ a, (![208] : Fin 1 → Nat) a + S16.size a ≤ S16384.size a
  inb_S16384_S16_224 : ∀ a, (![224] : Fin 1 → Nat) a + S16.size a ≤ S16384.size a
  inb_S16384_S16_240 : ∀ a, (![240] : Fin 1 → Nat) a + S16.size a ≤ S16384.size a
  inb_S16384_S16_256 : ∀ a, (![256] : Fin 1 → Nat) a + S16.size a ≤ S16384.size a
  inb_S16384_S16_272 : ∀ a, (![272] : Fin 1 → Nat) a + S16.size a ≤ S16384.size a
  inb_S16384_S16_288 : ∀ a, (![288] : Fin 1 → Nat) a + S16.size a ≤ S16384.size a
  inb_S16384_S16_304 : ∀ a, (![304] : Fin 1 → Nat) a + S16.size a ≤ S16384.size a
  inb_S16384_S16_320 : ∀ a, (![320] : Fin 1 → Nat) a + S16.size a ≤ S16384.size a
  inb_S16384_S16_336 : ∀ a, (![336] : Fin 1 → Nat) a + S16.size a ≤ S16384.size a
  inb_S16384_S16_352 : ∀ a, (![352] : Fin 1 → Nat) a + S16.size a ≤ S16384.size a
  inb_S16384_S16_368 : ∀ a, (![368] : Fin 1 → Nat) a + S16.size a ≤ S16384.size a
  inb_S16384_S16_384 : ∀ a, (![384] : Fin 1 → Nat) a + S16.size a ≤ S16384.size a
  inb_S16384_S16_400 : ∀ a, (![400] : Fin 1 → Nat) a + S16.size a ≤ S16384.size a
  inb_S16384_S16_416 : ∀ a, (![416] : Fin 1 → Nat) a + S16.size a ≤ S16384.size a
  inb_S16384_S16_432 : ∀ a, (![432] : Fin 1 → Nat) a + S16.size a ≤ S16384.size a
  inb_S16384_S16_448 : ∀ a, (![448] : Fin 1 → Nat) a + S16.size a ≤ S16384.size a
  inb_S16384_S16_464 : ∀ a, (![464] : Fin 1 → Nat) a + S16.size a ≤ S16384.size a
  inb_S16384_S16_480 : ∀ a, (![480] : Fin 1 → Nat) a + S16.size a ≤ S16384.size a
  inb_S16384_S16_496 : ∀ a, (![496] : Fin 1 → Nat) a + S16.size a ≤ S16384.size a
  squeezes_S1x32768_S32768 : S1x32768.Squeezes S32768
  inb_S16384_S16_512 : ∀ a, (![512] : Fin 1 → Nat) a + S16.size a ≤ S16384.size a
  inb_S16384_S16_528 : ∀ a, (![528] : Fin 1 → Nat) a + S16.size a ≤ S16384.size a
  inb_S16384_S16_544 : ∀ a, (![544] : Fin 1 → Nat) a + S16.size a ≤ S16384.size a
  inb_S16384_S16_560 : ∀ a, (![560] : Fin 1 → Nat) a + S16.size a ≤ S16384.size a
  inb_S16384_S16_576 : ∀ a, (![576] : Fin 1 → Nat) a + S16.size a ≤ S16384.size a
  inb_S16384_S16_592 : ∀ a, (![592] : Fin 1 → Nat) a + S16.size a ≤ S16384.size a
  inb_S16384_S16_608 : ∀ a, (![608] : Fin 1 → Nat) a + S16.size a ≤ S16384.size a
  inb_S16384_S16_624 : ∀ a, (![624] : Fin 1 → Nat) a + S16.size a ≤ S16384.size a
  inb_S16384_S16_640 : ∀ a, (![640] : Fin 1 → Nat) a + S16.size a ≤ S16384.size a
  inb_S16384_S16_656 : ∀ a, (![656] : Fin 1 → Nat) a + S16.size a ≤ S16384.size a
  inb_S16384_S16_672 : ∀ a, (![672] : Fin 1 → Nat) a + S16.size a ≤ S16384.size a
  inb_S16384_S16_688 : ∀ a, (![688] : Fin 1 → Nat) a + S16.size a ≤ S16384.size a
  inb_S16384_S16_704 : ∀ a, (![704] : Fin 1 → Nat) a + S16.size a ≤ S16384.size a
  inb_S16384_S16_720 : ∀ a, (![720] : Fin 1 → Nat) a + S16.size a ≤ S16384.size a
  inb_S16384_S16_736 : ∀ a, (![736] : Fin 1 → Nat) a + S16.size a ≤ S16384.size a
  inb_S16384_S16_752 : ∀ a, (![752] : Fin 1 → Nat) a + S16.size a ≤ S16384.size a
  inb_S16384_S16_768 : ∀ a, (![768] : Fin 1 → Nat) a + S16.size a ≤ S16384.size a
  inb_S16384_S16_784 : ∀ a, (![784] : Fin 1 → Nat) a + S16.size a ≤ S16384.size a
  inb_S16384_S16_800 : ∀ a, (![800] : Fin 1 → Nat) a + S16.size a ≤ S16384.size a
  inb_S16384_S16_816 : ∀ a, (![816] : Fin 1 → Nat) a + S16.size a ≤ S16384.size a
  inb_S16384_S16_832 : ∀ a, (![832] : Fin 1 → Nat) a + S16.size a ≤ S16384.size a
  inb_S16384_S16_848 : ∀ a, (![848] : Fin 1 → Nat) a + S16.size a ≤ S16384.size a
  inb_S16384_S16_864 : ∀ a, (![864] : Fin 1 → Nat) a + S16.size a ≤ S16384.size a
  inb_S16384_S16_880 : ∀ a, (![880] : Fin 1 → Nat) a + S16.size a ≤ S16384.size a
  inb_S16384_S16_896 : ∀ a, (![896] : Fin 1 → Nat) a + S16.size a ≤ S16384.size a
  inb_S16384_S16_912 : ∀ a, (![912] : Fin 1 → Nat) a + S16.size a ≤ S16384.size a
  inb_S16384_S16_928 : ∀ a, (![928] : Fin 1 → Nat) a + S16.size a ≤ S16384.size a
  inb_S16384_S16_944 : ∀ a, (![944] : Fin 1 → Nat) a + S16.size a ≤ S16384.size a
  inb_S16384_S16_960 : ∀ a, (![960] : Fin 1 → Nat) a + S16.size a ≤ S16384.size a
  inb_S16384_S16_976 : ∀ a, (![976] : Fin 1 → Nat) a + S16.size a ≤ S16384.size a
  inb_S16384_S16_992 : ∀ a, (![992] : Fin 1 → Nat) a + S16.size a ≤ S16384.size a
  inb_S16384_S16_1008 : ∀ a, (![1008] : Fin 1 → Nat) a + S16.size a ≤ S16384.size a
  shapeCasts_S1024x32768_S1024x128x256 : S1024x32768.ShapeCasts S1024x128x256
  hcc0_scratch3 : 0 + S_.numel ≤ 3
  hcc0_scratch4 : 1 + S_.numel ≤ 3
  hcc0_scratch5 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S16384.size a ≤ S524288.size a
  k0_off2_inb : ∀ i : grid0.Coords, ∀ a, (k0_off2 i) a + S1x32768.size a ≤ S1024x32768.size a
  k0_off3_inb : ∀ i : grid0.Coords, ∀ (r : Fin 3), ∀ a, (k0_off3 i (k0_off3_at r)) a + S1x32768.size a ≤ S1024x32768.size a
  k0_t1_ok : k0_t1_loop.OK
  k0_off4_inb : ∀ (i : grid0.Coords) (k0_t1 : Fin k0_t1_loop.trips), ∀ a, (k0_off4 i k0_t1) a + S1x32768.size a ≤ S1024x32768.size a
  k0_off5_inb : ∀ k0_t1 : Fin k0_t1_loop.trips, ∀ a, (k0_off5 k0_t1) a + S16.size a ≤ S16384.size a
  k0_off6_inb : ∀ k0_t1 : Fin k0_t1_loop.trips, ∀ a, (k0_off6 k0_t1) a + S16.size a ≤ S16384.size a
  k0_off7_inb : ∀ k0_t1 : Fin k0_t1_loop.trips, ∀ a, (k0_off7 k0_t1) a + S16.size a ≤ S16384.size a
  k0_off8_inb : ∀ k0_t1 : Fin k0_t1_loop.trips, ∀ a, (k0_off8 k0_t1) a + S16.size a ≤ S16384.size a
  k0_off9_inb : ∀ k0_t1 : Fin k0_t1_loop.trips, ∀ a, (k0_off9 k0_t1) a + S16.size a ≤ S16384.size a
  k0_off10_inb : ∀ k0_t1 : Fin k0_t1_loop.trips, ∀ a, (k0_off10 k0_t1) a + S16.size a ≤ S16384.size a
  k0_off11_inb : ∀ k0_t1 : Fin k0_t1_loop.trips, ∀ a, (k0_off11 k0_t1) a + S16.size a ≤ S16384.size a
  k0_off12_inb : ∀ k0_t1 : Fin k0_t1_loop.trips, ∀ a, (k0_off12 k0_t1) a + S16.size a ≤ S16384.size a
  k0_off13_inb : ∀ k0_t1 : Fin k0_t1_loop.trips, ∀ a, (k0_off13 k0_t1) a + S16.size a ≤ S16384.size a
  k0_off14_inb : ∀ k0_t1 : Fin k0_t1_loop.trips, ∀ a, (k0_off14 k0_t1) a + S16.size a ≤ S16384.size a
  k0_off15_inb : ∀ k0_t1 : Fin k0_t1_loop.trips, ∀ a, (k0_off15 k0_t1) a + S16.size a ≤ S16384.size a
  k0_off16_inb : ∀ k0_t1 : Fin k0_t1_loop.trips, ∀ a, (k0_off16 k0_t1) a + S16.size a ≤ S16384.size a
  k0_off17_inb : ∀ k0_t1 : Fin k0_t1_loop.trips, ∀ a, (k0_off17 k0_t1) a + S16.size a ≤ S16384.size a
  k0_off18_inb : ∀ k0_t1 : Fin k0_t1_loop.trips, ∀ a, (k0_off18 k0_t1) a + S16.size a ≤ S16384.size a
  k0_off19_inb : ∀ k0_t1 : Fin k0_t1_loop.trips, ∀ a, (k0_off19 k0_t1) a + S16.size a ≤ S16384.size a
  k0_off20_inb : ∀ k0_t1 : Fin k0_t1_loop.trips, ∀ a, (k0_off20 k0_t1) a + S16.size a ≤ S16384.size a
  k0_off21_inb : ∀ k0_t1 : Fin k0_t1_loop.trips, ∀ a, (k0_off21 k0_t1) a + S16.size a ≤ S16384.size a
  k0_off22_inb : ∀ k0_t1 : Fin k0_t1_loop.trips, ∀ a, (k0_off22 k0_t1) a + S16.size a ≤ S16384.size a
  k0_off23_inb : ∀ k0_t1 : Fin k0_t1_loop.trips, ∀ a, (k0_off23 k0_t1) a + S16.size a ≤ S16384.size a
  k0_off24_inb : ∀ k0_t1 : Fin k0_t1_loop.trips, ∀ a, (k0_off24 k0_t1) a + S16.size a ≤ S16384.size a
  k0_off25_inb : ∀ k0_t1 : Fin k0_t1_loop.trips, ∀ a, (k0_off25 k0_t1) a + S16.size a ≤ S16384.size a
  k0_off26_inb : ∀ k0_t1 : Fin k0_t1_loop.trips, ∀ a, (k0_off26 k0_t1) a + S16.size a ≤ S16384.size a
  k0_off27_inb : ∀ k0_t1 : Fin k0_t1_loop.trips, ∀ a, (k0_off27 k0_t1) a + S16.size a ≤ S16384.size a
  k0_off28_inb : ∀ k0_t1 : Fin k0_t1_loop.trips, ∀ a, (k0_off28 k0_t1) a + S16.size a ≤ S16384.size a
  k0_off29_inb : ∀ k0_t1 : Fin k0_t1_loop.trips, ∀ a, (k0_off29 k0_t1) a + S16.size a ≤ S16384.size a
  k0_off30_inb : ∀ k0_t1 : Fin k0_t1_loop.trips, ∀ a, (k0_off30 k0_t1) a + S16.size a ≤ S16384.size a
  k0_off31_inb : ∀ k0_t1 : Fin k0_t1_loop.trips, ∀ a, (k0_off31 k0_t1) a + S16.size a ≤ S16384.size a
  k0_off32_inb : ∀ k0_t1 : Fin k0_t1_loop.trips, ∀ a, (k0_off32 k0_t1) a + S16.size a ≤ S16384.size a
  k0_off33_inb : ∀ k0_t1 : Fin k0_t1_loop.trips, ∀ a, (k0_off33 k0_t1) a + S16.size a ≤ S16384.size a
  k0_off34_inb : ∀ k0_t1 : Fin k0_t1_loop.trips, ∀ a, (k0_off34 k0_t1) a + S16.size a ≤ S16384.size a
  k0_off35_inb : ∀ k0_t1 : Fin k0_t1_loop.trips, ∀ a, (k0_off35 k0_t1) a + S16.size a ≤ S16384.size a
  k0_off36_inb : ∀ k0_t1 : Fin k0_t1_loop.trips, ∀ a, (k0_off36 k0_t1) a + S16.size a ≤ S16384.size a
  k0_off37_inb : ∀ k0_t1 : Fin k0_t1_loop.trips, ∀ a, (k0_off37 k0_t1) a + S16.size a ≤ S16384.size a
  k0_off38_inb : ∀ k0_t1 : Fin k0_t1_loop.trips, ∀ a, (k0_off38 k0_t1) a + S16.size a ≤ S16384.size a
  k0_off39_inb : ∀ k0_t1 : Fin k0_t1_loop.trips, ∀ a, (k0_off39 k0_t1) a + S16.size a ≤ S16384.size a
  k0_off40_inb : ∀ k0_t1 : Fin k0_t1_loop.trips, ∀ a, (k0_off40 k0_t1) a + S16.size a ≤ S16384.size a
  k0_off41_inb : ∀ k0_t1 : Fin k0_t1_loop.trips, ∀ a, (k0_off41 k0_t1) a + S16.size a ≤ S16384.size a
  k0_off42_inb : ∀ k0_t1 : Fin k0_t1_loop.trips, ∀ a, (k0_off42 k0_t1) a + S16.size a ≤ S16384.size a
  k0_off43_inb : ∀ k0_t1 : Fin k0_t1_loop.trips, ∀ a, (k0_off43 k0_t1) a + S16.size a ≤ S16384.size a
  k0_off44_inb : ∀ k0_t1 : Fin k0_t1_loop.trips, ∀ a, (k0_off44 k0_t1) a + S16.size a ≤ S16384.size a
  k0_off45_inb : ∀ k0_t1 : Fin k0_t1_loop.trips, ∀ a, (k0_off45 k0_t1) a + S16.size a ≤ S16384.size a
  k0_off46_inb : ∀ k0_t1 : Fin k0_t1_loop.trips, ∀ a, (k0_off46 k0_t1) a + S16.size a ≤ S16384.size a
  k0_off47_inb : ∀ k0_t1 : Fin k0_t1_loop.trips, ∀ a, (k0_off47 k0_t1) a + S16.size a ≤ S16384.size a
  k0_off48_inb : ∀ k0_t1 : Fin k0_t1_loop.trips, ∀ a, (k0_off48 k0_t1) a + S16.size a ≤ S16384.size a
  k0_off49_inb : ∀ k0_t1 : Fin k0_t1_loop.trips, ∀ a, (k0_off49 k0_t1) a + S16.size a ≤ S16384.size a
  k0_off50_inb : ∀ k0_t1 : Fin k0_t1_loop.trips, ∀ a, (k0_off50 k0_t1) a + S16.size a ≤ S16384.size a
  k0_off51_inb : ∀ k0_t1 : Fin k0_t1_loop.trips, ∀ a, (k0_off51 k0_t1) a + S16.size a ≤ S16384.size a
  k0_off52_inb : ∀ k0_t1 : Fin k0_t1_loop.trips, ∀ a, (k0_off52 k0_t1) a + S16.size a ≤ S16384.size a
  k0_off53_inb : ∀ k0_t1 : Fin k0_t1_loop.trips, ∀ a, (k0_off53 k0_t1) a + S16.size a ≤ S16384.size a
  k0_off54_inb : ∀ k0_t1 : Fin k0_t1_loop.trips, ∀ a, (k0_off54 k0_t1) a + S16.size a ≤ S16384.size a
  k0_off55_inb : ∀ k0_t1 : Fin k0_t1_loop.trips, ∀ a, (k0_off55 k0_t1) a + S16.size a ≤ S16384.size a
  k0_off56_inb : ∀ k0_t1 : Fin k0_t1_loop.trips, ∀ a, (k0_off56 k0_t1) a + S16.size a ≤ S16384.size a
  k0_off57_inb : ∀ k0_t1 : Fin k0_t1_loop.trips, ∀ a, (k0_off57 k0_t1) a + S16.size a ≤ S16384.size a
  k0_off58_inb : ∀ k0_t1 : Fin k0_t1_loop.trips, ∀ a, (k0_off58 k0_t1) a + S16.size a ≤ S16384.size a
  k0_off59_inb : ∀ k0_t1 : Fin k0_t1_loop.trips, ∀ a, (k0_off59 k0_t1) a + S16.size a ≤ S16384.size a
  k0_off60_inb : ∀ k0_t1 : Fin k0_t1_loop.trips, ∀ a, (k0_off60 k0_t1) a + S16.size a ≤ S16384.size a
  k0_off61_inb : ∀ k0_t1 : Fin k0_t1_loop.trips, ∀ a, (k0_off61 k0_t1) a + S16.size a ≤ S16384.size a
  k0_off62_inb : ∀ k0_t1 : Fin k0_t1_loop.trips, ∀ a, (k0_off62 k0_t1) a + S16.size a ≤ S16384.size a
  k0_off63_inb : ∀ k0_t1 : Fin k0_t1_loop.trips, ∀ a, (k0_off63 k0_t1) a + S16.size a ≤ S16384.size a
  k0_off64_inb : ∀ k0_t1 : Fin k0_t1_loop.trips, ∀ a, (k0_off64 k0_t1) a + S16.size a ≤ S16384.size a
  k0_off65_inb : ∀ k0_t1 : Fin k0_t1_loop.trips, ∀ a, (k0_off65 k0_t1) a + S16.size a ≤ S16384.size a
  k0_off66_inb : ∀ k0_t1 : Fin k0_t1_loop.trips, ∀ a, (k0_off66 k0_t1) a + S16.size a ≤ S16384.size a
  k0_off67_inb : ∀ k0_t1 : Fin k0_t1_loop.trips, ∀ a, (k0_off67 k0_t1) a + S16.size a ≤ S16384.size a
  k0_off68_inb : ∀ k0_t1 : Fin k0_t1_loop.trips, ∀ a, (k0_off68 k0_t1) a + S16.size a ≤ S16384.size a
  k0_off69_inb : ∀ (i : grid0.Coords) (k0_t1 : Fin k0_t1_loop.trips), ∀ a, (k0_off69 i k0_t1) a + S1x32768.size a ≤ S1024x32768.size a
  k0_off70_inb : ∀ (i : grid0.Coords) (k0_t1 : Fin k0_t1_loop.trips), ∀ a, (k0_off70 i k0_t1) a + S1x32768.size a ≤ S1024x32768.size a
  k0_off71_inb : ∀ k0_t1 : Fin k0_t1_loop.trips, ∀ a, (k0_off71 k0_t1) a + S16.size a ≤ S16384.size a
  k0_off72_inb : ∀ k0_t1 : Fin k0_t1_loop.trips, ∀ a, (k0_off72 k0_t1) a + S16.size a ≤ S16384.size a
  k0_off73_inb : ∀ k0_t1 : Fin k0_t1_loop.trips, ∀ a, (k0_off73 k0_t1) a + S16.size a ≤ S16384.size a
  k0_off74_inb : ∀ k0_t1 : Fin k0_t1_loop.trips, ∀ a, (k0_off74 k0_t1) a + S16.size a ≤ S16384.size a
  k0_off75_inb : ∀ k0_t1 : Fin k0_t1_loop.trips, ∀ a, (k0_off75 k0_t1) a + S16.size a ≤ S16384.size a
  k0_off76_inb : ∀ k0_t1 : Fin k0_t1_loop.trips, ∀ a, (k0_off76 k0_t1) a + S16.size a ≤ S16384.size a
  k0_off77_inb : ∀ k0_t1 : Fin k0_t1_loop.trips, ∀ a, (k0_off77 k0_t1) a + S16.size a ≤ S16384.size a
  k0_off78_inb : ∀ k0_t1 : Fin k0_t1_loop.trips, ∀ a, (k0_off78 k0_t1) a + S16.size a ≤ S16384.size a
  k0_off79_inb : ∀ k0_t1 : Fin k0_t1_loop.trips, ∀ a, (k0_off79 k0_t1) a + S16.size a ≤ S16384.size a
  k0_off80_inb : ∀ k0_t1 : Fin k0_t1_loop.trips, ∀ a, (k0_off80 k0_t1) a + S16.size a ≤ S16384.size a
  k0_off81_inb : ∀ k0_t1 : Fin k0_t1_loop.trips, ∀ a, (k0_off81 k0_t1) a + S16.size a ≤ S16384.size a
  k0_off82_inb : ∀ k0_t1 : Fin k0_t1_loop.trips, ∀ a, (k0_off82 k0_t1) a + S16.size a ≤ S16384.size a
  k0_off83_inb : ∀ k0_t1 : Fin k0_t1_loop.trips, ∀ a, (k0_off83 k0_t1) a + S16.size a ≤ S16384.size a
  k0_off84_inb : ∀ k0_t1 : Fin k0_t1_loop.trips, ∀ a, (k0_off84 k0_t1) a + S16.size a ≤ S16384.size a
  k0_off85_inb : ∀ k0_t1 : Fin k0_t1_loop.trips, ∀ a, (k0_off85 k0_t1) a + S16.size a ≤ S16384.size a
  k0_off86_inb : ∀ k0_t1 : Fin k0_t1_loop.trips, ∀ a, (k0_off86 k0_t1) a + S16.size a ≤ S16384.size a
  k0_off87_inb : ∀ k0_t1 : Fin k0_t1_loop.trips, ∀ a, (k0_off87 k0_t1) a + S16.size a ≤ S16384.size a
  k0_off88_inb : ∀ k0_t1 : Fin k0_t1_loop.trips, ∀ a, (k0_off88 k0_t1) a + S16.size a ≤ S16384.size a
  k0_off89_inb : ∀ k0_t1 : Fin k0_t1_loop.trips, ∀ a, (k0_off89 k0_t1) a + S16.size a ≤ S16384.size a
  k0_off90_inb : ∀ k0_t1 : Fin k0_t1_loop.trips, ∀ a, (k0_off90 k0_t1) a + S16.size a ≤ S16384.size a
  k0_off91_inb : ∀ k0_t1 : Fin k0_t1_loop.trips, ∀ a, (k0_off91 k0_t1) a + S16.size a ≤ S16384.size a
  k0_off92_inb : ∀ k0_t1 : Fin k0_t1_loop.trips, ∀ a, (k0_off92 k0_t1) a + S16.size a ≤ S16384.size a
  k0_off93_inb : ∀ k0_t1 : Fin k0_t1_loop.trips, ∀ a, (k0_off93 k0_t1) a + S16.size a ≤ S16384.size a
  k0_off94_inb : ∀ k0_t1 : Fin k0_t1_loop.trips, ∀ a, (k0_off94 k0_t1) a + S16.size a ≤ S16384.size a
  k0_off95_inb : ∀ k0_t1 : Fin k0_t1_loop.trips, ∀ a, (k0_off95 k0_t1) a + S16.size a ≤ S16384.size a
  k0_off96_inb : ∀ k0_t1 : Fin k0_t1_loop.trips, ∀ a, (k0_off96 k0_t1) a + S16.size a ≤ S16384.size a
  k0_off97_inb : ∀ k0_t1 : Fin k0_t1_loop.trips, ∀ a, (k0_off97 k0_t1) a + S16.size a ≤ S16384.size a
  k0_off98_inb : ∀ k0_t1 : Fin k0_t1_loop.trips, ∀ a, (k0_off98 k0_t1) a + S16.size a ≤ S16384.size a
  k0_off99_inb : ∀ k0_t1 : Fin k0_t1_loop.trips, ∀ a, (k0_off99 k0_t1) a + S16.size a ≤ S16384.size a
  k0_off100_inb : ∀ k0_t1 : Fin k0_t1_loop.trips, ∀ a, (k0_off100 k0_t1) a + S16.size a ≤ S16384.size a
  k0_off101_inb : ∀ k0_t1 : Fin k0_t1_loop.trips, ∀ a, (k0_off101 k0_t1) a + S16.size a ≤ S16384.size a
  k0_off102_inb : ∀ k0_t1 : Fin k0_t1_loop.trips, ∀ a, (k0_off102 k0_t1) a + S16.size a ≤ S16384.size a
  k0_off103_inb : ∀ k0_t1 : Fin k0_t1_loop.trips, ∀ a, (k0_off103 k0_t1) a + S16.size a ≤ S16384.size a
  k0_off104_inb : ∀ k0_t1 : Fin k0_t1_loop.trips, ∀ a, (k0_off104 k0_t1) a + S16.size a ≤ S16384.size a
  k0_off105_inb : ∀ k0_t1 : Fin k0_t1_loop.trips, ∀ a, (k0_off105 k0_t1) a + S16.size a ≤ S16384.size a
  k0_off106_inb : ∀ k0_t1 : Fin k0_t1_loop.trips, ∀ a, (k0_off106 k0_t1) a + S16.size a ≤ S16384.size a
  k0_off107_inb : ∀ k0_t1 : Fin k0_t1_loop.trips, ∀ a, (k0_off107 k0_t1) a + S16.size a ≤ S16384.size a
  k0_off108_inb : ∀ k0_t1 : Fin k0_t1_loop.trips, ∀ a, (k0_off108 k0_t1) a + S16.size a ≤ S16384.size a
  k0_off109_inb : ∀ k0_t1 : Fin k0_t1_loop.trips, ∀ a, (k0_off109 k0_t1) a + S16.size a ≤ S16384.size a
  k0_off110_inb : ∀ k0_t1 : Fin k0_t1_loop.trips, ∀ a, (k0_off110 k0_t1) a + S16.size a ≤ S16384.size a
  k0_off111_inb : ∀ k0_t1 : Fin k0_t1_loop.trips, ∀ a, (k0_off111 k0_t1) a + S16.size a ≤ S16384.size a
  k0_off112_inb : ∀ k0_t1 : Fin k0_t1_loop.trips, ∀ a, (k0_off112 k0_t1) a + S16.size a ≤ S16384.size a
  k0_off113_inb : ∀ k0_t1 : Fin k0_t1_loop.trips, ∀ a, (k0_off113 k0_t1) a + S16.size a ≤ S16384.size a
  k0_off114_inb : ∀ k0_t1 : Fin k0_t1_loop.trips, ∀ a, (k0_off114 k0_t1) a + S16.size a ≤ S16384.size a
  k0_off115_inb : ∀ k0_t1 : Fin k0_t1_loop.trips, ∀ a, (k0_off115 k0_t1) a + S16.size a ≤ S16384.size a
  k0_off116_inb : ∀ k0_t1 : Fin k0_t1_loop.trips, ∀ a, (k0_off116 k0_t1) a + S16.size a ≤ S16384.size a
  k0_off117_inb : ∀ k0_t1 : Fin k0_t1_loop.trips, ∀ a, (k0_off117 k0_t1) a + S16.size a ≤ S16384.size a
  k0_off118_inb : ∀ k0_t1 : Fin k0_t1_loop.trips, ∀ a, (k0_off118 k0_t1) a + S16.size a ≤ S16384.size a
  k0_off119_inb : ∀ k0_t1 : Fin k0_t1_loop.trips, ∀ a, (k0_off119 k0_t1) a + S16.size a ≤ S16384.size a
  k0_off120_inb : ∀ k0_t1 : Fin k0_t1_loop.trips, ∀ a, (k0_off120 k0_t1) a + S16.size a ≤ S16384.size a
  k0_off121_inb : ∀ k0_t1 : Fin k0_t1_loop.trips, ∀ a, (k0_off121 k0_t1) a + S16.size a ≤ S16384.size a
  k0_off122_inb : ∀ k0_t1 : Fin k0_t1_loop.trips, ∀ a, (k0_off122 k0_t1) a + S16.size a ≤ S16384.size a
  k0_off123_inb : ∀ k0_t1 : Fin k0_t1_loop.trips, ∀ a, (k0_off123 k0_t1) a + S16.size a ≤ S16384.size a
  k0_off124_inb : ∀ k0_t1 : Fin k0_t1_loop.trips, ∀ a, (k0_off124 k0_t1) a + S16.size a ≤ S16384.size a
  k0_off125_inb : ∀ k0_t1 : Fin k0_t1_loop.trips, ∀ a, (k0_off125 k0_t1) a + S16.size a ≤ S16384.size a
  k0_off126_inb : ∀ k0_t1 : Fin k0_t1_loop.trips, ∀ a, (k0_off126 k0_t1) a + S16.size a ≤ S16384.size a
  k0_off127_inb : ∀ k0_t1 : Fin k0_t1_loop.trips, ∀ a, (k0_off127 k0_t1) a + S16.size a ≤ S16384.size a
  k0_off128_inb : ∀ k0_t1 : Fin k0_t1_loop.trips, ∀ a, (k0_off128 k0_t1) a + S16.size a ≤ S16384.size a
  k0_off129_inb : ∀ k0_t1 : Fin k0_t1_loop.trips, ∀ a, (k0_off129 k0_t1) a + S16.size a ≤ S16384.size a
  k0_off130_inb : ∀ k0_t1 : Fin k0_t1_loop.trips, ∀ a, (k0_off130 k0_t1) a + S16.size a ≤ S16384.size a
  k0_off131_inb : ∀ k0_t1 : Fin k0_t1_loop.trips, ∀ a, (k0_off131 k0_t1) a + S16.size a ≤ S16384.size a
  k0_off132_inb : ∀ k0_t1 : Fin k0_t1_loop.trips, ∀ a, (k0_off132 k0_t1) a + S16.size a ≤ S16384.size a
  k0_off133_inb : ∀ k0_t1 : Fin k0_t1_loop.trips, ∀ a, (k0_off133 k0_t1) a + S16.size a ≤ S16384.size a
  k0_off134_inb : ∀ k0_t1 : Fin k0_t1_loop.trips, ∀ a, (k0_off134 k0_t1) a + S16.size a ≤ S16384.size a
  k0_off135_inb : ∀ (i : grid0.Coords) (k0_t1 : Fin k0_t1_loop.trips), ∀ a, (k0_off135 i k0_t1) a + S1x32768.size a ≤ S1024x32768.size a

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5

class Facts : Prop extends Facts₀ where

variable [Facts]
-- ==== ReferenceIdeal.lean ====
abbrev S1024x4x128 : Shape := ⟨3, ![1024, 4, 128]⟩
abbrev S4 : Shape := ⟨1, ![4]⟩
abbrev S1x4x1 : Shape := ⟨3, ![1, 4, 1]⟩
abbrev S1024 : Shape := ⟨1, ![1024]⟩
abbrev S1024x1x1 : Shape := ⟨3, ![1024, 1, 1]⟩
abbrev S128 : Shape := ⟨1, ![128]⟩
abbrev S1x1x128 : Shape := ⟨3, ![1, 1, 128]⟩
abbrev S_ : Shape := ⟨0, ![]⟩
abbrev S1024x128x256 : Shape := ⟨3, ![1024, 128, 256]⟩
abbrev S1024x4x128x1 : Shape := ⟨4, ![1024, 4, 128, 1]⟩
abbrev S1024x4x128x3 : Shape := ⟨4, ![1024, 4, 128, 3]⟩

abbrev nBuf : Space → Nat
  | .hbm => 41
  | .vmem => 0
  | .smem => 0
  | _ => 0

abbrev bufTy : (tb : Table) → Fin (tcTables nBuf tb) → BufTy
  | .hbm, ⟨0, _⟩ => ⟨S1024x4x128, .i32⟩
  | .hbm, ⟨1, _⟩ => ⟨S4, .i32⟩
  | .hbm, ⟨2, _⟩ => ⟨S1x4x1, .i32⟩
  | .hbm, ⟨3, _⟩ => ⟨S1024x4x128, .i32⟩
  | .hbm, ⟨4, _⟩ => ⟨S1024x4x128, .i32⟩
  | .hbm, ⟨5, _⟩ => ⟨S1024, .i32⟩
  | .hbm, ⟨6, _⟩ => ⟨S1024x1x1, .i32⟩
  | .hbm, ⟨7, _⟩ => ⟨S1024x4x128, .i32⟩
  | .hbm, ⟨8, _⟩ => ⟨S128, .i32⟩
  | .hbm, ⟨9, _⟩ => ⟨S1x1x128, .i32⟩
  | .hbm, ⟨10, _⟩ => ⟨S1024x4x128, .i32⟩
  | .hbm, ⟨11, _⟩ => ⟨S_, .f32⟩
  | .hbm, ⟨12, _⟩ => ⟨S1024x128x256, .f32⟩
  | .hbm, ⟨13, _⟩ => ⟨S_, .i32⟩
  | .hbm, ⟨14, _⟩ => ⟨S1024x4x128, .i32⟩
  | .hbm, ⟨15, _⟩ => ⟨S1024x4x128, .i1⟩
  | .hbm, ⟨16, _⟩ => ⟨S_, .i32⟩
  | .hbm, ⟨17, _⟩ => ⟨S1024x4x128, .i32⟩
  | .hbm, ⟨18, _⟩ => ⟨S1024x4x128, .i32⟩
  | .hbm, ⟨19, _⟩ => ⟨S1024x4x128, .i32⟩
  | .hbm, ⟨20, _⟩ => ⟨S_, .i32⟩
  | .hbm, ⟨21, _⟩ => ⟨S1024x4x128, .i32⟩
  | .hbm, ⟨22, _⟩ => ⟨S1024x4x128, .i1⟩
  | .hbm, ⟨23, _⟩ => ⟨S_, .i32⟩
  | .hbm, ⟨24, _⟩ => ⟨S1024x4x128, .i32⟩
  | .hbm, ⟨25, _⟩ => ⟨S1024x4x128, .i32⟩
  | .hbm, ⟨26, _⟩ => ⟨S1024x4x128, .i32⟩
  | .hbm, ⟨27, _⟩ => ⟨S_, .i32⟩
  | .hbm, ⟨28, _⟩ => ⟨S1024x4x128, .i32⟩
  | .hbm, ⟨29, _⟩ => ⟨S1024x4x128, .i1⟩
  | .hbm, ⟨30, _⟩ => ⟨S_, .i32⟩
  | .hbm, ⟨31, _⟩ => ⟨S1024x4x128, .i32⟩
  | .hbm, ⟨32, _⟩ => ⟨S1024x4x128, .i32⟩
  | .hbm, ⟨33, _⟩ => ⟨S1024x4x128, .i32⟩
  | .hbm, ⟨34, _⟩ => ⟨S1024x4x128x1, .i32⟩
  | .hbm, ⟨35, _⟩ => ⟨S1024x4x128x1, .i32⟩
  | .hbm, ⟨36, _⟩ => ⟨S1024x4x128x1, .i32⟩
  | .hbm, ⟨37, _⟩ => ⟨S1024x4x128x3, .i32⟩
  | .hbm, ⟨38, _⟩ => ⟨S_, .f32⟩
  | .hbm, ⟨39, _⟩ => ⟨S1024x4x128, .f32⟩
  | .hbm, ⟨40, _⟩ => ⟨S1024x128x256, .f32⟩
  | _, _ => ⟨S1024x4x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_2 : Ref sig .tc := ⟨.hbm, 20, rfl⟩
abbrev main_v15 : Ref sig .tc := ⟨.hbm, 21, rfl⟩
abbrev main_v16 : Ref sig .tc := ⟨.hbm, 22, rfl⟩
abbrev main_c_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_4 : Ref sig .tc := ⟨.hbm, 27, rfl⟩
abbrev main_v20 : Ref sig .tc := ⟨.hbm, 28, rfl⟩
abbrev main_v21 : Ref sig .tc := ⟨.hbm, 29, rfl⟩
abbrev main_c_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]

class Facts₀ : Prop where
  bcast_S4_S1x4x1_1 : S4.BroadcastsInDim S1x4x1 (![1] : Fin 1 → Fin S1x4x1.rank)
  bcast_S1x4x1_S1024x4x128_0_1_2 : S1x4x1.BroadcastsInDim S1024x4x128 (![0, 1, 2] : Fin 3 → Fin S1024x4x128.rank)
  bcast_S1024_S1024x1x1_0 : S1024.BroadcastsInDim S1024x1x1 (![0] : Fin 1 → Fin S1024x1x1.rank)
  bcast_S1024x1x1_S1024x4x128_0_1_2 : S1024x1x1.BroadcastsInDim S1024x4x128 (![0, 1, 2] : Fin 3 → Fin S1024x4x128.rank)
  bcast_S128_S1x1x128_2 : S128.BroadcastsInDim S1x1x128 (![2] : Fin 1 → Fin S1x1x128.rank)
  bcast_S1x1x128_S1024x4x128_0_1_2 : S1x1x128.BroadcastsInDim S1024x4x128 (![0, 1, 2] : Fin 3 → Fin S1024x4x128.rank)
  bcast_S_S1024x128x256 : S_.BroadcastsInDim S1024x128x256 (![] : Fin 0 → Fin S1024x128x256.rank)
  bcast_S_S1024x4x128 : S_.BroadcastsInDim S1024x4x128 (![] : Fin 0 → Fin S1024x4x128.rank)
  bcast_S1024x4x128_S1024x4x128x1_0_1_2 : S1024x4x128.BroadcastsInDim S1024x4x128x1 (![0, 1, 2] : Fin 3 → Fin S1024x4x128x1.rank)
  concatenates_S1024x4x128x1_S1024x4x128x1_S1024x4x128x1_S1024x4x128x3_d3 : Shape.Concatenates [S1024x4x128x1, S1024x4x128x1, S1024x4x128x1] S1024x4x128x3 3
  scatter_S1024x128x256_S1024x4x128x3_S1024x4x128_n_012_012_3_wf : ScatterDims.WF S1024x128x256 S1024x4x128x3 S1024x4x128 [] [0, 1, 2] [0, 1, 2] 3

variable [Facts₀]

def scatter_S1024x128x256_S1024x4x128x3_S1024x4x128_n_012_012_3 : ScatterDims S1024x128x256 S1024x4x128x3 S1024x4x128 where
  updateWindowDims := []
  insertedWindowDims := [0, 1, 2]
  scatterDimsToOperandDims := [0, 1, 2]
  indexVectorDim := 3
  wf := scatter_S1024x128x256_S1024x4x128x3_S1024x4x128_n_012_012_3_wf

class Facts : Prop extends Facts₀ where

variable [Facts]
-- ==== Proof.Spec.lean ====
/-
  The common value. Entry (f, s, c) of the one-hot array is 1 when some action type t has a[f, t, s] + 64 t = c and 0
  otherwise; each type owns its own 64 classes, so two types never name one class.
-/
import Idealize.ShloMosaic.PureOps
import Idealize.ShloMosaic.Lib.ValueIdx

noncomputable section

namespace Cert.Spec

open Idealize.ShloMosaic Idealize.ShloMosaic.ValueIdx

abbrev SAct : Shape := ⟨3, ![1024, 4, 128]⟩
abbrev SOut : Shape := ⟨3, ![1024, 128, 256]⟩

def InRange (a : IVec SAct 32) : Prop := ∀ i : SAct.Idx, (a i).toNat ≤ 63

def Hit (a : IVec SAct 32) (f : Fin 1024) (s : Fin 128) (c : Fin 256) : Prop :=
  ∃ t : Fin 4, (a (ix3 f t s)).toNat + 64 * t.val = c.val

variable {F : FTy → Type} [FloatOps F]

open Classical in
def onehot (a : IVec SAct 32) : FVec F SOut .f32 := fun j =>
  if Hit a (j 0 : Fin 1024) (j 1 : Fin 128) (j 2 : Fin 256) then FloatOps.ofBits .f32 0x3F800000#32 else FloatOps.ofBits .f32 0x00000000#32

open Classical in
theorem onehot_apply (a : IVec SAct 32) (f : Fin 1024) (s : Fin 128) (c : Fin 256) :
    onehot (F := F) a (ix3 f s c)
      = if Hit a f s c then FloatOps.ofBits .f32 0x3F800000#32 else FloatOps.ofBits .f32 0x00000000#32 := rfl

end Cert.Spec

end
-- ==== Proof.PreRange.lean ====
/-
  The precondition says that every action word, read signed, lies in 0..63; its unsigned reading is then the same number.
-/
import proofs.«205938_g64501818851839_cont_9to1_m_860_20_alg».proof.Proof.Gen.Pre_input_domain
import proofs.«205938_g64501818851839_cont_9to1_m_860_20_alg».proof.Proof.Spec
import Idealize.ShloMosaic.Lib.ReduceAll

namespace Cert.Proof

open Idealize.ShloMosaic

instance subsingleton_scalarIdx : Subsingleton Cert.Pre_input_domain.S_.Idx :=
  ⟨fun a b => funext fun d => d.elim0⟩

theorem toNat_le_of_toInt (x : BitVec 32) (h0 : (0 : Int) ≤ x.toInt) (h1 : x.toInt ≤ 63) : x.toNat ≤ 63 := by
  rw [BitVec.toInt_eq_toNat_cond] at h0 h1
  have := x.isLt
  split at h0 <;> omega

theorem inRange_of_pre {F : FTy → Type} [FloatOps F] (a : IVec Cert.Pre_input_domain.S1024x4x128 32)
    (h : Cert.Pre_input_domain.fn (F := F) a = fun _ => 1#1) : Cert.Spec.InRange a := by
  intro i
  have h0 := congrFun h ValueIdx.ix0
  dsimp only [Cert.Pre_input_domain.fn] at h0
  have hi := Host.reduce_andi_all _ _ _ _ _ h0 i
  dsimp only [andi, cmpi, broadcastInDim, constantI] at hi
  obtain ⟨hge, hle⟩ := IntOp.andi_eq_one.1 hi
  rw [IntOp.cmpi_sge] at hge
  rw [IntOp.cmpi_sle] at hle
  exact toNat_le_of_toInt (a i) (by simpa using hge) (by simpa using hle)

end Cert.Proof
-- ==== Proof.LibNaryResult.lean ====
/-
  The result of an operation over three arrays, read at its own result array, is its function of the three operands'
  contents, each taken at its own array.
-/
import Idealize.ShloMosaic.Lib.StableHlo.Run

noncomputable section

namespace Idealize.ShloMosaic.StableHlo

variable {nD : Nat} {τ : Topo} {sig : RefSig} {Val : EltTy → Type}
variable {x0 x1 x2 y : Ref sig .tc}

theorem nary3_result
    (f : ((k : Fin 3) → ((![x0, x1, x2] : Fin 3 → Ref sig .tc) k).ty.Contents Val) → y.ty.Contents Val) (hxs hy)
    (F : Valuation τ sig Val) :
    (nary (τ := τ) ![x0, x1, x2] y f hxs hy).result F (Proc.devRef .tc y)
      = f (Fin.cons (F (Proc.devRef .tc x0)) (Fin.cons (F (Proc.devRef .tc x1)) (Fin.cons (F (Proc.devRef .tc x2)) (fun i => i.elim0)))) := by
  rw [nary_result]; congr 1; funext k; fin_cases k <;> rfl

theorem nary3_result'
    (f : ((k : Fin 3) → ((![x0, x1, x2] : Fin 3 → Ref sig .tc) k).ty.Contents Val) → y.ty.Contents Val) (hxs hy)
    (F : Valuation τ sig Val) :
    (nary (τ := τ) ![x0, x1, x2] y f hxs hy).result F (no_index (Proc.devRef .tc y))
      = f (Fin.cons (F (Proc.devRef .tc x0)) (Fin.cons (F (Proc.devRef .tc x1)) (Fin.cons (F (Proc.devRef .tc x2)) (fun i => i.elim0)))) := nary3_result f hxs hy F

macro "after_results_cat_simp" : tactic =>
  `(tactic| (simp (disch := decide) only [after_cons, after_nil,
      nullary_result', unary_result', binary_result', ternary_result', quaternary_result', reshape_result', nary3_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.RefRunOps.lean ====
/-
  The reference as its forty host operations, and its run: the result is one term of the action array, a scatter of
  ones into zeros at the triples (frame, slot, action + 64 type), and the action array is unchanged.
-/
import proofs.«205938_g64501818851839_cont_9to1_m_860_20_alg».proof.Proof.Gen.ReferenceIdeal
import proofs.«205938_g64501818851839_cont_9to1_m_860_20_alg».proof.Proof.LibNaryResult
import Idealize.ShloMosaic.Lib.StableHlo.Run

noncomputable section

namespace Cert.Proof.Ref

open Cert.ReferenceIdeal Idealize.ShloMosaic Idealize.ShloMosaic.TcCoe Idealize.SL.Sem Idealize.ShloMosaic.StableHlo
open Cert.ReferenceIdeal.Facts₀

variable {F : FTy → Type} [FloatOps F]

abbrev ops : List (HloOp τ sig (Elt F)) :=
  [
    nullary main_c (fun i => lit0 (S4.rowMajor i)),
    unary main_c main_v0 (broadcastInDim S1x4x1 ![1] bcast_S4_S1x4x1_1 : (⟨S4, .i32⟩ : BufTy).Contents (Elt F) → (⟨S1x4x1, .i32⟩ : BufTy).Contents (Elt F)),
    unary main_v0 main_v1 (broadcastInDim S1024x4x128 ![0, 1, 2] bcast_S1x4x1_S1024x4x128_0_1_2 : (⟨S1x4x1, .i32⟩ : BufTy).Contents (Elt F) → (⟨S1024x4x128, .i32⟩ : BufTy).Contents (Elt F)),
    binary main_arg0 main_v1 main_v2 (addi : (⟨S1024x4x128, .i32⟩ : BufTy).Contents (Elt F) → (⟨S1024x4x128, .i32⟩ : BufTy).Contents (Elt F) → (⟨S1024x4x128, .i32⟩ : BufTy).Contents (Elt F)),
    nullary main_v3 (iotaInDim S1024 32 0),
    unary main_v3 main_v4 (broadcastInDim S1024x1x1 ![0] bcast_S1024_S1024x1x1_0 : (⟨S1024, .i32⟩ : BufTy).Contents (Elt F) → (⟨S1024x1x1, .i32⟩ : BufTy).Contents (Elt F)),
    unary main_v4 main_v5 (broadcastInDim S1024x4x128 ![0, 1, 2] bcast_S1024x1x1_S1024x4x128_0_1_2 : (⟨S1024x1x1, .i32⟩ : BufTy).Contents (Elt F) → (⟨S1024x4x128, .i32⟩ : BufTy).Contents (Elt F)),
    nullary main_v6 (iotaInDim S128 32 0),
    unary main_v6 main_v7 (broadcastInDim S1x1x128 ![2] bcast_S128_S1x1x128_2 : (⟨S128, .i32⟩ : BufTy).Contents (Elt F) → (⟨S1x1x128, .i32⟩ : BufTy).Contents (Elt F)),
    unary main_v7 main_v8 (broadcastInDim S1024x4x128 ![0, 1, 2] bcast_S1x1x128_S1024x4x128_0_1_2 : (⟨S1x1x128, .i32⟩ : BufTy).Contents (Elt F) → (⟨S1024x4x128, .i32⟩ : BufTy).Contents (Elt F)),
    nullary main_cst (constant S_ .f32 0x00000000#32),
    unary main_cst main_v9 (broadcastInDim S1024x128x256 ![] bcast_S_S1024x128x256 : (⟨S_, .f32⟩ : BufTy).Contents (Elt F) → (⟨S1024x128x256, .f32⟩ : BufTy).Contents (Elt F)),
    nullary main_c_0 (constantI S_ 32 0#32),
    unary main_c_0 main_v10 (broadcastInDim S1024x4x128 ![] bcast_S_S1024x4x128 : (⟨S_, .i32⟩ : BufTy).Contents (Elt F) → (⟨S1024x4x128, .i32⟩ : BufTy).Contents (Elt F)),
    binary main_v5 main_v10 main_v11 (cmpi .slt : (⟨S1024x4x128, .i32⟩ : BufTy).Contents (Elt F) → (⟨S1024x4x128, .i32⟩ : BufTy).Contents (Elt F) → (⟨S1024x4x128, .i1⟩ : BufTy).Contents (Elt F)),
    nullary main_c_1 (constantI S_ 32 1024#32),
    unary main_c_1 main_v12 (broadcastInDim S1024x4x128 ![] bcast_S_S1024x4x128 : (⟨S_, .i32⟩ : BufTy).Contents (Elt F) → (⟨S1024x4x128, .i32⟩ : BufTy).Contents (Elt F)),
    binary main_v5 main_v12 main_v13 (addi : (⟨S1024x4x128, .i32⟩ : BufTy).Contents (Elt F) → (⟨S1024x4x128, .i32⟩ : BufTy).Contents (Elt F) → (⟨S1024x4x128, .i32⟩ : BufTy).Contents (Elt F)),
    ternary main_v11 main_v13 main_v5 main_v14 (select : (⟨S1024x4x128, .i1⟩ : BufTy).Contents (Elt F) → (⟨S1024x4x128, .i32⟩ : BufTy).Contents (Elt F) → (⟨S1024x4x128, .i32⟩ : BufTy).Contents (Elt F) → (⟨S1024x4x128, .i32⟩ : BufTy).Contents (Elt F)),
    nullary main_c_2 (constantI S_ 32 0#32),
    unary main_c_2 main_v15 (broadcastInDim S1024x4x128 ![] bcast_S_S1024x4x128 : (⟨S_, .i32⟩ : BufTy).Contents (Elt F) → (⟨S1024x4x128, .i32⟩ : BufTy).Contents (Elt F)),
    binary main_v8 main_v15 main_v16 (cmpi .slt : (⟨S1024x4x128, .i32⟩ : BufTy).Contents (Elt F) → (⟨S1024x4x128, .i32⟩ : BufTy).Contents (Elt F) → (⟨S1024x4x128, .i1⟩ : BufTy).Contents (Elt F)),
    nullary main_c_3 (constantI S_ 32 128#32),
    unary main_c_3 main_v17 (broadcastInDim S1024x4x128 ![] bcast_S_S1024x4x128 : (⟨S_, .i32⟩ : BufTy).Contents (Elt F) → (⟨S1024x4x128, .i32⟩ : BufTy).Contents (Elt F)),
    binary main_v8 main_v17 main_v18 (addi : (⟨S1024x4x128, .i32⟩ : BufTy).Contents (Elt F) → (⟨S1024x4x128, .i32⟩ : BufTy).Contents (Elt F) → (⟨S1024x4x128, .i32⟩ : BufTy).Contents (Elt F)),
    ternary main_v16 main_v18 main_v8 main_v19 (select : (⟨S1024x4x128, .i1⟩ : BufTy).Contents (Elt F) → (⟨S1024x4x128, .i32⟩ : BufTy).Contents (Elt F) → (⟨S1024x4x128, .i32⟩ : BufTy).Contents (Elt F) → (⟨S1024x4x128, .i32⟩ : BufTy).Contents (Elt F)),
    nullary main_c_4 (constantI S_ 32 0#32),
    unary main_c_4 main_v20 (broadcastInDim S1024x4x128 ![] bcast_S_S1024x4x128 : (⟨S_, .i32⟩ : BufTy).Contents (Elt F) → (⟨S1024x4x128, .i32⟩ : BufTy).Contents (Elt F)),
    binary main_v2 main_v20 main_v21 (cmpi .slt : (⟨S1024x4x128, .i32⟩ : BufTy).Contents (Elt F) → (⟨S1024x4x128, .i32⟩ : BufTy).Contents (Elt F) → (⟨S1024x4x128, .i1⟩ : BufTy).Contents (Elt F)),
    nullary main_c_5 (constantI S_ 32 256#32),
    unary main_c_5 main_v22 (broadcastInDim S1024x4x128 ![] bcast_S_S1024x4x128 : (⟨S_, .i32⟩ : BufTy).Contents (Elt F) → (⟨S1024x4x128, .i32⟩ : BufTy).Contents (Elt F)),
    binary main_v2 main_v22 main_v23 (addi : (⟨S1024x4x128, .i32⟩ : BufTy).Contents (Elt F) → (⟨S1024x4x128, .i32⟩ : BufTy).Contents (Elt F) → (⟨S1024x4x128, .i32⟩ : BufTy).Contents (Elt F)),
    ternary main_v21 main_v23 main_v2 main_v24 (select : (⟨S1024x4x128, .i1⟩ : BufTy).Contents (Elt F) → (⟨S1024x4x128, .i32⟩ : BufTy).Contents (Elt F) → (⟨S1024x4x128, .i32⟩ : BufTy).Contents (Elt F) → (⟨S1024x4x128, .i32⟩ : BufTy).Contents (Elt F)),
    unary main_v14 main_v25 (broadcastInDim S1024x4x128x1 ![0, 1, 2] bcast_S1024x4x128_S1024x4x128x1_0_1_2 : (⟨S1024x4x128, .i32⟩ : BufTy).Contents (Elt F) → (⟨S1024x4x128x1, .i32⟩ : BufTy).Contents (Elt F)),
    unary main_v19 main_v26 (broadcastInDim S1024x4x128x1 ![0, 1, 2] bcast_S1024x4x128_S1024x4x128x1_0_1_2 : (⟨S1024x4x128, .i32⟩ : BufTy).Contents (Elt F) → (⟨S1024x4x128x1, .i32⟩ : BufTy).Contents (Elt F)),
    unary main_v24 main_v27 (broadcastInDim S1024x4x128x1 ![0, 1, 2] bcast_S1024x4x128_S1024x4x128x1_0_1_2 : (⟨S1024x4x128, .i32⟩ : BufTy).Contents (Elt F) → (⟨S1024x4x128x1, .i32⟩ : BufTy).Contents (Elt F)),
    nary ![main_v25, main_v26, main_v27] main_v28 (fun u => concatenate S1024x4x128x3 3 [⟨S1024x4x128x1, u 0⟩, ⟨S1024x4x128x1, u 1⟩, ⟨S1024x4x128x1, u 2⟩] concatenates_S1024x4x128x1_S1024x4x128x1_S1024x4x128x1_S1024x4x128x3_d3),
    nullary main_cst_6 (constant S_ .f32 0x3F800000#32),
    unary main_cst_6 main_v29 (broadcastInDim S1024x4x128 ![] bcast_S_S1024x4x128 : (⟨S_, .f32⟩ : BufTy).Contents (Elt F) → (⟨S1024x4x128, .f32⟩ : BufTy).Contents (Elt F)),
    ternary main_v9 main_v28 main_v29 main_v30 ((fun x i u => Host.scatter scatter_S1024x128x256_S1024x4x128x3_S1024x4x128_n_012_012_3 (fun _ b => b) x i u) : (⟨S1024x128x256, .f32⟩ : BufTy).Contents (Elt F) → (⟨S1024x4x128x3, .i32⟩ : BufTy).Contents (Elt F) → (⟨S1024x4x128, .f32⟩ : BufTy).Contents (Elt F) → (⟨S1024x128x256, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., unary_bufs_sub .., binary_bufs_sub .., nullary_bufs_sub .., unary_bufs_sub .., unary_bufs_sub .., nullary_bufs_sub .., unary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., nullary_bufs_sub .., unary_bufs_sub .., ternary_bufs_sub ..⟩

abbrev splat (b : BitVec 32) : IVec S1024x4x128 32 :=
  broadcastInDim S1024x4x128 ![] bcast_S_S1024x4x128 (constantI S_ 32 b)

abbrev offs : IVec S1024x4x128 32 :=
  broadcastInDim S1024x4x128 ![0, 1, 2] bcast_S1x4x1_S1024x4x128_0_1_2
    (broadcastInDim S1x4x1 ![1] bcast_S4_S1x4x1_1 (fun i => lit0 (S4.rowMajor i)))

abbrev cls (a : IVec S1024x4x128 32) : IVec S1024x4x128 32 := addi a offs

abbrev frames : IVec S1024x4x128 32 :=
  broadcastInDim S1024x4x128 ![0, 1, 2] bcast_S1024x1x1_S1024x4x128_0_1_2
    (broadcastInDim S1024x1x1 ![0] bcast_S1024_S1024x1x1_0 (iotaInDim S1024 32 0))

abbrev slots : IVec S1024x4x128 32 :=
  broadcastInDim S1024x4x128 ![0, 1, 2] bcast_S1x1x128_S1024x4x128_0_1_2
    (broadcastInDim S1x1x128 ![2] bcast_S128_S1x1x128_2 (iotaInDim S128 32 0))

abbrev wrap (x : IVec S1024x4x128 32) (n : BitVec 32) : IVec S1024x4x128 32 :=
  select (cmpi .slt x (splat 0#32)) (addi x (splat n)) x

abbrev col (x : IVec S1024x4x128 32) : IVec S1024x4x128x1 32 :=
  broadcastInDim S1024x4x128x1 ![0, 1, 2] bcast_S1024x4x128_S1024x4x128x1_0_1_2 x

abbrev triples (a : IVec S1024x4x128 32) : IVec S1024x4x128x3 32 :=
  concatenate S1024x4x128x3 3
    [⟨S1024x4x128x1, col (wrap frames 1024#32)⟩, ⟨S1024x4x128x1, col (wrap slots 128#32)⟩, ⟨S1024x4x128x1, col (wrap (cls a) 256#32)⟩]
    concatenates_S1024x4x128x1_S1024x4x128x1_S1024x4x128x1_S1024x4x128x3_d3

def refTerm (a : IVec S1024x4x128 32) : FVec F S1024x128x256 .f32 :=
  Host.scatter scatter_S1024x128x256_S1024x4x128x3_S1024x4x128_n_012_012_3 (fun _ b => b)
    (broadcastInDim S1024x128x256 ![] bcast_S_S1024x128x256 (constant S_ .f32 0x00000000#32))
    (triples a)
    (broadcastInDim S1024x4x128 ![] bcast_S_S1024x4x128 (constant S_ .f32 0x3F800000#32))

theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30) = refTerm (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v30).trans (by after_results_cat_simp; rfl),
      (h c main_arg0).trans (by after_results_cat_simp)⟩)
    (run_seq scopedRefs_eq scopedSems_eq defs main (fun _ => ops) main_eq (fun _ => ops_sub) m ρ)

end Cert.Proof.Ref

end
-- ==== Proof.RefRead.lean ====
/-
  The scatter's index triples read at an index: for actions in range no column is negative, so (f, t, s) is sent to
  (f, s, a[f, t, s] + 64 t).
-/
import proofs.«205938_g64501818851839_cont_9to1_m_860_20_alg».proof.Proof.RefRunOps
import proofs.«205938_g64501818851839_cont_9to1_m_860_20_alg».proof.Proof.Spec
import Idealize.ShloMosaic.Lib.ValueIdx
import Idealize.ShloMosaic.Lib.Affine
import Idealize.ShloMosaic.Lib.Pipeline.Value

noncomputable section

namespace Cert.Proof.Ref

open Cert.ReferenceIdeal Idealize.ShloMosaic Idealize.ShloMosaic.ValueIdx
open Cert.ReferenceIdeal.Facts₀

theorem lit0_eq : ∀ t : Fin 4, lit0 t = BitVec.ofNat 32 (64 * t.val) := by decide

theorem offs_apply (j : S1024x4x128.Idx) : offs j = BitVec.ofNat 32 (64 * (j 1).val) :=
  (lit0_eq _).trans (congrArg (fun n => BitVec.ofNat 32 (64 * n)) ((Shape.rowMajor_val_one _).trans rfl))

theorem cls_apply (a : IVec S1024x4x128 32) (j : S1024x4x128.Idx) :
    cls a j = a j + BitVec.ofNat 32 (64 * (j 1).val) := by
  show IntOp.addi (a j) (offs j) = _
  rw [offs_apply]; rfl

theorem col_apply (x : IVec S1024x4x128 32) (f : Fin 1024) (t : Fin 4) (s : Fin 128) (z : Fin 1) :
    col x (ix4 f t s z) = x (ix3 f t s) := by
  show x _ = x _
  congr 1
  funext b
  match b with
  | ⟨0, _⟩ => rfl
  | ⟨1, _⟩ => rfl
  | ⟨2, _⟩ => rfl

theorem wrap_apply (x : IVec S1024x4x128 32) (n : BitVec 32) (j : S1024x4x128.Idx) (h : (x j).toNat < 2 ^ 31) :
    wrap x n j = x j := by
  show Scalar.select (IntOp.cmpi .slt (x j) 0#32) _ _ = _
  have : ¬ IntOp.cmpi .slt (x j) 0#32 = 1#1 := by
    rw [IntOp.cmpi_slt, BitVec.toInt_eq_toNat_cond]
    simp only [BitVec.toInt_zero]
    split <;> omega
  exact if_neg this

theorem toInt_ofNat_small (n : Nat) (h : n < 2 ^ 31) : (BitVec.ofNat 32 n).toInt = (n : Int) := by
  rw [BitVec.toInt_eq_toNat_cond, BitVec.toNat_ofNat, Nat.mod_eq_of_lt (by omega)]
  split <;> omega

theorem cls_toNat (a : IVec S1024x4x128 32) (hr : Cert.Spec.InRange a) (j : S1024x4x128.Idx) :
    (cls a j).toNat = (a j).toNat + 64 * (j 1).val := by
  have h1 := hr j
  have h2 : (j 1).val < 4 := (j 1).isLt
  rw [cls_apply, BitVec.toNat_add, BitVec.toNat_ofNat, Nat.mod_eq_of_lt (a := 64 * (j 1).val) (by omega),
    Nat.mod_eq_of_lt (by omega)]

theorem toInt_of_toNat_small (x : BitVec 32) (n : Nat) (h : x.toNat = n) (hn : n < 2 ^ 31) : x.toInt = (n : Int) := by
  rw [BitVec.toInt_eq_toNat_cond, h]
  split <;> omega

theorem triples_apply0 (a : IVec S1024x4x128 32) (f : Fin 1024) (t : Fin 4) (s : Fin 128) :
    triples a (ix4 f t s (0 : Fin 3)) = col (wrap frames 1024#32) (ix4 f t s (0 : Fin 1)) :=
  concatenate_apply_piece (3 : Fin 4) _ _ (ix4 f t s (0 : Fin 3)) 0 (by show (0 : Nat) < 3; omega) S1024x4x128x1 _ rfl rfl 0 (by rfl)
    (ix4 f t s (0 : Fin 1))
    (fun b hb => by
      match b with
      | ⟨0, _⟩ => rfl
      | ⟨1, _⟩ => rfl
      | ⟨2, _⟩ => rfl
      | ⟨3, _⟩ => exact absurd rfl hb)
    rfl

theorem triples_apply1 (a : IVec S1024x4x128 32) (f : Fin 1024) (t : Fin 4) (s : Fin 128) :
    triples a (ix4 f t s (1 : Fin 3)) = col (wrap slots 128#32) (ix4 f t s (0 : Fin 1)) :=
  concatenate_apply_piece (3 : Fin 4) _ _ (ix4 f t s (1 : Fin 3)) 1 (by show (1 : Nat) < 3; omega) S1024x4x128x1 _ rfl rfl 1 (by rfl)
    (ix4 f t s (0 : Fin 1))
    (fun b hb => by
      match b with
      | ⟨0, _⟩ => rfl
      | ⟨1, _⟩ => rfl
      | ⟨2, _⟩ => rfl
      | ⟨3, _⟩ => exact absurd rfl hb)
    rfl

theorem triples_apply2 (a : IVec S1024x4x128 32) (f : Fin 1024) (t : Fin 4) (s : Fin 128) :
    triples a (ix4 f t s (2 : Fin 3)) = col (wrap (cls a) 256#32) (ix4 f t s (0 : Fin 1)) :=
  concatenate_apply_piece (3 : Fin 4) _ _ (ix4 f t s (2 : Fin 3)) 2 (by show (2 : Nat) < 3; omega) S1024x4x128x1 _ rfl rfl 2 (by rfl)
    (ix4 f t s (0 : Fin 1))
    (fun b hb => by
      match b with
      | ⟨0, _⟩ => rfl
      | ⟨1, _⟩ => rfl
      | ⟨2, _⟩ => rfl
      | ⟨3, _⟩ => exact absurd rfl hb)
    rfl

end Cert.Proof.Ref

end
-- ==== Proof.LibHostScatter.lean ====
/-
  A scatter whose update positions are pairwise distinct: a position some update lands on holds that update
  combined with the operand, every other position keeps the operand.
-/
import Idealize.ShloMosaic.PureOps

noncomputable section

namespace Cert.Lib

open Idealize.ShloMosaic

variable {α : Type} {s si u : Shape} {w : Nat}

theorem scatter_eq_foldl (d : ScatterDims s si u) (f : α → α → α) (x : s.Idx → α) (idx : IVec si w) (upd : u.Idx → α)
    (g : u.Idx → s.Idx) (hg : ∀ j, d.resultIdx? j idx = some (g j)) :
    Host.scatter d f x idx upd =
      (List.finRange u.numel).foldl (fun r n => fun i' =>
        if i' = g (u.rowMajor.symm n) then f (r (g (u.rowMajor.symm n))) (upd (u.rowMajor.symm n)) else r i') x := by
  unfold Host.scatter
  congr 1
  funext r n
  rw [hg]

theorem foldl_step_miss (f : α → α → α) (upd : u.Idx → α) (g : u.Idx → s.Idx) (i : s.Idx) :
    ∀ (l : List (Fin u.numel)) (r : s.Idx → α), (∀ n ∈ l, g (u.rowMajor.symm n) ≠ i) →
      l.foldl (fun r n => fun i' =>
        if i' = g (u.rowMajor.symm n) then f (r (g (u.rowMajor.symm n))) (upd (u.rowMajor.symm n)) else r i') r i = r i := by
  intro l
  induction l with
  | nil => intro r _; rfl
  | cons m t ih =>
    intro r h
    rw [List.foldl_cons, ih _ (fun n hn => h n (List.mem_cons_of_mem _ hn))]
    have hm : i ≠ g (u.rowMajor.symm m) := fun e => h m (List.mem_cons_self ..) e.symm
    simp only [if_neg hm]

theorem foldl_step_hit (f : α → α → α) (upd : u.Idx → α) (g : u.Idx → s.Idx) (hinj : Function.Injective g) :
    ∀ (l : List (Fin u.numel)) (r : s.Idx → α) (n : Fin u.numel), n ∈ l → l.Nodup →
      l.foldl (fun r n => fun i' =>
        if i' = g (u.rowMajor.symm n) then f (r (g (u.rowMajor.symm n))) (upd (u.rowMajor.symm n)) else r i') r
          (g (u.rowMajor.symm n)) = f (r (g (u.rowMajor.symm n))) (upd (u.rowMajor.symm n)) := by
  intro l
  induction l with
  | nil => intro r n hn; cases hn
  | cons m t ih =>
    intro r n hn hnd
    rw [List.nodup_cons] at hnd
    rw [List.foldl_cons]
    rcases List.mem_cons.mp hn with rfl | hnt
    · rw [foldl_step_miss f upd g _ t _ (fun n' hn' e => hnd.1 (by
        have := u.rowMajor.symm.injective (hinj e)
        exact this ▸ hn'))]
      simp only [if_true]
    · rw [ih _ n hnt hnd.2]
      have hne : g (u.rowMajor.symm n) ≠ g (u.rowMajor.symm m) := fun e => hnd.1 (by
        have := u.rowMajor.symm.injective (hinj e)
        exact this ▸ hnt)
      simp only [if_neg hne]

theorem scatter_apply_hit (d : ScatterDims s si u) (f : α → α → α) (x : s.Idx → α) (idx : IVec si w) (upd : u.Idx → α)
    (g : u.Idx → s.Idx) (hg : ∀ j, d.resultIdx? j idx = some (g j)) (hinj : Function.Injective g) (j : u.Idx) :
    Host.scatter d f x idx upd (g j) = f (x (g j)) (upd j) := by
  rw [scatter_eq_foldl d f x idx upd g hg]
  have h := foldl_step_hit (s := s) f upd g hinj (List.finRange u.numel) x (u.rowMajor j) (List.mem_finRange _)
    (List.nodup_finRange _)
  simpa only [Equiv.symm_apply_apply] using h

theorem scatter_apply_miss (d : ScatterDims s si u) (f : α → α → α) (x : s.Idx → α) (idx : IVec si w) (upd : u.Idx → α)
    (g : u.Idx → s.Idx) (hg : ∀ j, d.resultIdx? j idx = some (g j)) (i : s.Idx) (hi : ∀ j, g j ≠ i) :
    Host.scatter d f x idx upd i = x i := by
  rw [scatter_eq_foldl d f x idx upd g hg]
  exact foldl_step_miss f upd g i (List.finRange u.numel) x (fun n _ => hi _)

end Cert.Lib

end
-- ==== Proof.RefScatter.lean ====
/-
  Where update (f, t, s) lands, and that two updates never land on one position: the frame and the slot are read off
  directly, and the class a + 64 t with a ≤ 63 determines t.
-/
import proofs.«205938_g64501818851839_cont_9to1_m_860_20_alg».proof.Proof.RefRead
import proofs.«205938_g64501818851839_cont_9to1_m_860_20_alg».proof.Proof.LibHostScatter

noncomputable section

namespace Cert.Proof.Ref

open Cert.ReferenceIdeal Idealize.ShloMosaic Idealize.ShloMosaic.ValueIdx
open Cert.ReferenceIdeal.Facts₀

abbrev dims := scatter_S1024x128x256_S1024x4x128x3_S1024x4x128_n_012_012_3

theorem siIdx_eq (j : S1024x4x128.Idx) (c : Fin 3) :
    dims.siIdx j ⟨c.val, c.isLt⟩ = ix4 (j 0) (j 1) (j 2) c := by
  funext b
  match b with
  | ⟨0, _⟩ => rfl
  | ⟨1, _⟩ => rfl
  | ⟨2, _⟩ => rfl
  | ⟨3, _⟩ => rfl

theorem start_eq (j : S1024x4x128.Idx) (idx : IVec S1024x4x128x3 32) (c : Fin 3) :
    dims.start j idx c = (idx (ix4 (j 0) (j 1) (j 2) c)).toInt := by
  unfold ScatterDims.start
  rw [dif_pos (by revert c; decide)]
  refine congrArg (fun i => (idx i).toInt) ?_
  match c with
  | ⟨0, _⟩ => exact siIdx_eq j 0
  | ⟨1, _⟩ => exact siIdx_eq j 1
  | ⟨2, _⟩ => exact siIdx_eq j 2

theorem window_eq (j : S1024x4x128.Idx) (c : Fin 3) : dims.window j c = 0 := by
  unfold ScatterDims.window
  rw [dif_neg (by revert c; decide)]

theorem resultIdx_eq (j : S1024x4x128.Idx) (idx : IVec S1024x4x128x3 32) (g : S1024x128x256.Idx)
    (h : ∀ c : Fin 3, (idx (ix4 (j 0) (j 1) (j 2) c)).toInt = ((g c).val : Int)) :
    dims.resultIdx? j idx = some g := by
  have hs : ∀ c : Fin 3, dims.start j idx c + (dims.window j c : Int) = ((g c).val : Int) := fun c => by
    rw [start_eq, window_eq, h c]; simp
  unfold ScatterDims.resultIdx?
  rw [dif_pos (fun c => by
    rw [hs c]
    exact ⟨Int.natCast_nonneg _, by exact_mod_cast (g c).isLt⟩)]
  refine congrArg some (funext fun c => Fin.ext ?_)
  show (dims.start j idx c + (dims.window j c : Int)).toNat = (g c).val
  rw [hs c]; simp

def land (a : IVec S1024x4x128 32) (hr : Cert.Spec.InRange a) (j : S1024x4x128.Idx) : S1024x128x256.Idx :=
  ix3 (j 0 : Fin 1024) (j 2 : Fin 128)
    (⟨(a j).toNat + 64 * (j 1).val, by have h1 := hr j; have h2 : (j 1).val < 4 := (j 1).isLt; omega⟩ : Fin 256)

theorem land_landing (a : IVec S1024x4x128 32) (hr : Cert.Spec.InRange a) (j : S1024x4x128.Idx) :
    dims.resultIdx? j (triples a) = some (land a hr j) := by
  have h1 := hr j
  have h2 : (j 1).val < 4 := (j 1).isLt
  have h0 : (j 0).val < 1024 := (j 0).isLt
  have h3 : (j 2).val < 128 := (j 2).isLt
  have hj : ix3 (j 0) (j 1) (j 2) = j := (eq_ix3 j).symm
  have hf : (frames j).toNat < 2 ^ 31 := by
    show (BitVec.ofNat 32 (j 0).val).toNat < 2 ^ 31
    rw [BitVec.toNat_ofNat]; omega
  have hs : (slots j).toNat < 2 ^ 31 := by
    show (BitVec.ofNat 32 (j 2).val).toNat < 2 ^ 31
    rw [BitVec.toNat_ofNat]; omega
  have hc : (cls a j).toNat < 2 ^ 31 := by rw [cls_toNat a hr j]; omega
  refine resultIdx_eq j _ _ (fun c => ?_)
  match c with
  | ⟨0, _⟩ =>
    have e : triples a (ix4 (j 0) (j 1) (j 2) (0 : Fin 3)) = frames j :=
      (triples_apply0 a (j 0) (j 1) (j 2)).trans ((col_apply _ (j 0) (j 1) (j 2) 0).trans
        ((congrArg (wrap frames 1024#32) hj).trans (wrap_apply frames 1024#32 j hf)))
    exact (congrArg BitVec.toInt e).trans (toInt_ofNat_small (j 0).val (by omega))
  | ⟨1, _⟩ =>
    have e : triples a (ix4 (j 0) (j 1) (j 2) (1 : Fin 3)) = slots j :=
      (triples_apply1 a (j 0) (j 1) (j 2)).trans ((col_apply _ (j 0) (j 1) (j 2) 0).trans
        ((congrArg (wrap slots 128#32) hj).trans (wrap_apply slots 128#32 j hs)))
    exact (congrArg BitVec.toInt e).trans (toInt_ofNat_small (j 2).val (by omega))
  | ⟨2, _⟩ =>
    have e : triples a (ix4 (j 0) (j 1) (j 2) (2 : Fin 3)) = cls a j :=
      (triples_apply2 a (j 0) (j 1) (j 2)).trans ((col_apply _ (j 0) (j 1) (j 2) 0).trans
        ((congrArg (wrap (cls a) 256#32) hj).trans (wrap_apply (cls a) 256#32 j hc)))
    exact (congrArg BitVec.toInt e).trans (toInt_of_toNat_small (cls a j) ((a j).toNat + 64 * (j 1).val) (cls_toNat a hr j) (by omega))

theorem land_injective (a : IVec S1024x4x128 32) (hr : Cert.Spec.InRange a) : Function.Injective (land a hr) := by
  intro j j' e
  have e0 : (j 0).val = (j' 0).val := congrArg (fun i : S1024x128x256.Idx => (i 0).val) e
  have e1 : (j 2).val = (j' 2).val := congrArg (fun i : S1024x128x256.Idx => (i 1).val) e
  have e2 : (a j).toNat + 64 * (j 1).val = (a j').toNat + 64 * (j' 1).val :=
    congrArg (fun i : S1024x128x256.Idx => (i 2).val) e
  have h1 := hr j
  have h1' := hr j'
  funext b
  match b with
  | ⟨0, _⟩ => exact Fin.ext e0
  | ⟨1, _⟩ => exact Fin.ext (by show (j 1).val = (j' 1).val; omega)
  | ⟨2, _⟩ => exact Fin.ext e1

end Cert.Proof.Ref

end
-- ==== Proof.RefRun.lean ====
/-
  The scatter of ones at the landing positions is the one-hot array; so the reference's run ends there.
-/
import proofs.«205938_g64501818851839_cont_9to1_m_860_20_alg».proof.Proof.RefScatter

noncomputable section

namespace Cert.Proof.Ref

open Cert.ReferenceIdeal Idealize.ShloMosaic Idealize.ShloMosaic.ValueIdx Idealize.SL.Sem
open Cert.ReferenceIdeal.Facts₀

variable {F : FTy → Type} [FloatOps F]

theorem refTerm_eq_onehot (a : IVec S1024x4x128 32) (hr : Cert.Spec.InRange a) :
    refTerm (F := F) a = Cert.Spec.onehot (F := F) a := by
  classical
  funext i
  unfold refTerm Cert.Spec.onehot
  by_cases hit : Cert.Spec.Hit a (i 0 : Fin 1024) (i 1 : Fin 128) (i 2 : Fin 256)
  · rw [if_pos hit]
    obtain ⟨t, ht⟩ := hit
    have hi : land a hr (ix3 (i 0 : Fin 1024) t (i 1 : Fin 128)) = i := by
      funext b
      match b with
      | ⟨0, _⟩ => rfl
      | ⟨1, _⟩ => rfl
      | ⟨2, _⟩ => exact Fin.ext ht
    rw [← hi, Cert.Lib.scatter_apply_hit dims (fun _ b => b) _ (triples a) _ (land a hr) (land_landing a hr)
      (land_injective a hr)]
    rfl
  · rw [if_neg hit]
    rw [Cert.Lib.scatter_apply_miss dims (fun _ b => b) _ (triples a) _ (land a hr) (land_landing a hr) i
      (fun j e => hit ⟨(j 1 : Fin 4), by
        have e0 : (j 0 : Fin 1024) = i 0 := congrFun e 0
        have e1 : (j 2 : Fin 128) = i 1 := congrFun e 1
        have e2 : (a j).toNat + 64 * (j 1).val = (i 2).val := congrArg Fin.val (congrFun e 2)
        have hj : ix3 (i 0 : Fin 1024) (j 1 : Fin 4) (i 1 : Fin 128) = j := by
          funext b
          match b with
          | ⟨0, _⟩ => exact e0.symm
          | ⟨1, _⟩ => rfl
          | ⟨2, _⟩ => exact e1.symm
        exact (congrArg (fun k => (a k).toNat + 64 * (j 1).val) hj).trans e2⟩)]
    rfl

theorem run (m : (ℓ : Loc Cert.ReferenceIdeal.nD Cert.ReferenceIdeal.τ Cert.ReferenceIdeal.sig) → Buf (Elt Ideal) ℓ)
    (ρ : Dev Cert.ReferenceIdeal.nD → PrngReg)
    (hr : ∀ c : Dev Cert.ReferenceIdeal.nD, Cert.Spec.InRange
      (m ((c.tc : Thread Cert.ReferenceIdeal.nD Cert.ReferenceIdeal.τ).loc Cert.ReferenceIdeal.main_arg0))) :
    θ_run (Cert.ReferenceIdeal.defs (F := Ideal))
      (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v30)
            = Cert.Spec.onehot (F := Ideal)
                (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)) :=
  (θ_run (Cert.ReferenceIdeal.defs (F := Ideal)) _ _).mono
    (fun _ h c => ⟨(h c).1.trans (refTerm_eq_onehot _ (hr c)), (h c).2⟩)
    (run_term (F := Ideal) m ρ)

end Cert.Proof.Ref

end
-- ==== Proof.TileCommon.lean ====
/-
  Names for the launch: the call's configuration, the ghost state, the three whole arrays as a vector subcore
  addresses them, and a tile's three scratches.
-/
import proofs.«205938_g64501818851839_cont_9to1_m_860_20_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205938_g64501818851839_cont_9to1_m_860_20_alg».proof.Proof.Gen.KernelIdeal
import proofs.«205938_g64501818851839_cont_9to1_m_860_20_alg».proof.Proof.Gen.KernelIdeal.Skeleton

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

abbrev MM (F : FTy → Type) : Type := MT nD τ sig (HIx 1) (Elt F) ℕ UU ℕ

abbrev EH : Emb UH (MM F) := embL

abbrev aV : Memref sig .scVector .hbm S524288 .i32 := Memref.whole main_v0_scv
abbrev zV : Memref sig .scVector .hbm S32768 .f32 := Memref.whole main_v1_scv
abbrev oV : Memref sig .scVector .hbm S1024x32768 .f32 := Memref.whole main_v2_scv
abbrev sA : Memref sig .scVector .vmem S16384 .i32 := Memref.whole cc0_scratch0
abbrev sB0 : Memref sig .scVector .vmem S32768 .f32 := Memref.whole cc0_scratch1
abbrev sB1 : Memref sig .scVector .vmem S32768 .f32 := Memref.whole cc0_scratch2

abbrev aLoc (d : Dev nD) : Loc nD τ sig := (SparseCore.T d).loc main_v0
abbrev zLoc (d : Dev nD) : Loc nD τ sig := (SparseCore.T d).loc main_v1
abbrev oLoc (d : Dev nD) : Loc nD τ sig := (SparseCore.T d).loc main_v2

abbrev cV (L : grid0.Coords) : Fin τ.nSC := (L 0).castLE hcore0
abbrev jV (L : grid0.Coords) : Fin τ.nSub := (L 1).castLE hsub0

def coordsV (c : Fin (grid0.bound 0)) (s : Fin (grid0.bound 1)) : grid0.Coords :=
  fun | 0 => c | 1 => s | ⟨_ + 2, h⟩ => absurd h (Nat.not_lt.2 (Nat.le_add_left _ _))

end Cert.Proof.Tile

end
-- ==== Proof.TilePay.lean ====
/-
  What tile (c, s), number w = 2 s + c, is handed and hands back: words [16384 w, 16384 (w + 1)) of the flattened
  actions, a read share of the zero row, and rows [32 w, 32 w + 32) of the flat output, which it leaves at the flat
  one-hot: row r, column 256 s + 64 t + a is 1 when a is the action of type t in slot s of frame r.
-/
import proofs.«205938_g64501818851839_cont_9to1_m_860_20_alg».proof.Proof.TileCommon
import Idealize.ShloMosaic.Lib.ValueIdx

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MM F

variable (m : (ℓ : Loc nD τ sig) → Buf (Elt F) ℓ)

abbrev argLoc (d : Dev nD) : Loc nD τ sig := (SparseCore.T d).loc main_arg0
abbrev resLoc (d : Dev nD) : Loc nD τ sig := (SparseCore.T d).loc main_v3

abbrev oneW [FloatOps F] : F .f32 := Scalar.ofBits .f32 0x3F800000#32
abbrev zeroW [FloatOps F] : F .f32 := Scalar.ofBits .f32 0x00000000#32

def A0 (d : Dev nD) : Buf (Elt F) (aLoc d) :=
  fun i => shapeCast S524288 (m (argLoc d)) shapeCasts_S1024x4x128_S524288 i

def Z0 [FloatOps F] (d : Dev nD) : Buf (Elt F) (zLoc d) := fun _ => zeroW

def Hit0 (d : Dev nD) (r : Fin 1024) (k : Fin 32768) : Prop :=
  ∃ t : Fin 4, ∃ s : Fin 128, k.val = ((A0 m d) (ix1 (⟨512 * r.val + 128 * t.val + s.val, by omega⟩ : Fin 524288))).toNat + 256 * s.val + 64 * t.val

open Classical in
def G0 [FloatOps F] (d : Dev nD) : Buf (Elt F) (oLoc d) := fun j =>
  if Hit0 m d (j 0 : Fin 1024) (j 1 : Fin 32768) then oneW else zeroW

def wid (c : Fin 2) (s : Fin 16) : Fin 32 := ⟨2 * s.val + c.val, by omega⟩

theorem hdivA : 32 ∣ S524288.size 0 := ⟨16384, rfl⟩
theorem hdivO : 32 ∣ S1024x32768.size 0 := ⟨32, rfl⟩
abbrev aPart (w : Fin 32) : Rect S524288 := Rect.part (s := S524288) (a₀ := 0) hdivA w
abbrev oPart (w : Fin 32) : Rect S1024x32768 := Rect.part (s := S1024x32768) (a₀ := 0) hdivO w
abbrev aSet (w : Fin 32) : Finset S524288.Idx := (aV.view.slice (aPart w)).set
abbrev oSet (w : Fin 32) : Finset S1024x32768.Idx := (oV.view.slice (oPart w)).set

def zShare (c : Fin 2) (s : Fin 16) : PosShare TreeShare :=
  Transfers.shareTok (Transfers.shareTok fullShare 2 c) 16 s

variable [FloatOps F]

def tileIn (d : Dev nD) (c : Fin 2) (s : Fin 16) : sProp 𝕄 :=
  iprop((aLoc d ↦[aSet (wid c s)]{fullShare} A0 m d) ∗ (zLoc d ↦{zShare c s} Z0 d) ∗ (oLoc d ↦[oSet (wid c s)]{fullShare} m (oLoc d)))

def tileOut (d : Dev nD) (c : Fin 2) (s : Fin 16) : sProp 𝕄 :=
  iprop((aLoc d ↦[aSet (wid c s)]{fullShare} A0 m d) ∗ (zLoc d ↦{zShare c s} Z0 d) ∗ (oLoc d ↦[oSet (wid c s)]{fullShare} G0 m d))

def P : (K (F := F)).Pay (nD := nD) (Val := Elt F) (Name := ℕ) (U := UU) where
  st := fun q d c => match q with | 0 => bigSep Finset.univ fun s : Fin 16 => tileIn m d (Fin.cast nCore_zero c) s
  dn := fun q d c => match q with | 0 => bigSep Finset.univ fun s : Fin 16 => tileOut m d (Fin.cast nCore_zero c) s
  go := fun q d c i => match q with | 0 => tileIn m d (Fin.cast nCore_zero c) (Fin.cast nSub_zero i)
  td := fun q d c i => match q with | 0 => tileOut m d (Fin.cast nCore_zero c) (Fin.cast nSub_zero i)
  x := fun _ _ => iprop(emp)

end Cert.Proof.Tile

end
-- ==== Proof.PutCore.lean ====
/-
  Scattering one constant x through an index vector leaves x wherever some lane names the position and the old row
  elsewhere, whatever the positions are; a list of such scatters composes the same way.
-/
import Idealize.ShloMosaic.PureOps
import Idealize.ShloMosaic.Lib.ValueIdx
import proofs.«205938_g64501818851839_cont_9to1_m_860_20_alg».proof.Proof.Spec

noncomputable section

namespace Cert.Put

open Idealize.ShloMosaic Idealize.ShloMosaic.ValueIdx
open Classical

variable {F : FTy → Type} [FloatOps F]

abbrev S16 : Shape := ⟨1, ![16]⟩
abbrev SRow : Shape := ⟨1, ![32768]⟩
abbrev STile : Shape := ⟨1, ![16384]⟩

theorem foldl_setAt {α ι β : Type} (p : ι → α → Prop) (x : β) (step : (α → β) → ι → (α → β))
    (hstep : ∀ g k j, step g k j = if p k j then x else g j) (L : List ι) (f : α → β) (j : α) :
    L.foldl step f j = if ∃ k ∈ L, p k j then x else f j := by
  induction L generalizing f with
  | nil => simp
  | cons k L ih =>
    rw [List.foldl_cons, ih, hstep]
    by_cases h1 : ∃ k' ∈ L, p k' j
    · have h3 : ∃ k' ∈ k :: L, p k' j := by
        obtain ⟨k', hk', hp⟩ := h1
        exact ⟨k', List.mem_cons_of_mem _ hk', hp⟩
      rw [if_pos h1, if_pos h3]
    · rw [if_neg h1]
      by_cases h2 : p k j
      · rw [if_pos h2, if_pos ⟨k, List.mem_cons_self, h2⟩]
      · rw [if_neg h2, if_neg]
        rintro ⟨k', hk', hp⟩
        rcases List.mem_cons.1 hk' with rfl | hk'
        · exact h2 hp
        · exact h1 ⟨k', hk', hp⟩

theorem ofLane_coord (l : S16.Idx) : Shape.ofLane (d := ![16]) (l 0) = l := by
  funext a
  match a with
  | ⟨0, _⟩ => rfl

theorem storeIdx_const (f : Vec F SRow .f32) (idx : IVec S16 32) (x : F .f32)
    (h : ∀ a y, ((![idx] : Fin 1 → IVec S16 32) a y).toNat < SRow.size a) :
    storeIdx f ![idx] (broadcast S16 x) (fun _ => 1#1) false h
      = fun j => if ∃ l : S16.Idx, (idx l).toNat = (j 0).val then x else f j := by
  funext j
  unfold storeIdx
  rw [foldl_setAt (fun (k : Fin ((![16] : Fin 1 → Nat) 0)) (j : SRow.Idx) =>
        (idx (Shape.ofLane k)).toNat = (j 0).val) x]
  · have hiff : (∃ k ∈ List.finRange ((![16] : Fin 1 → Nat) 0), (idx (Shape.ofLane k)).toNat = (j 0).val)
        ↔ ∃ l : S16.Idx, (idx l).toNat = (j 0).val := by
      constructor
      · rintro ⟨k, _, hk⟩
        exact ⟨Shape.ofLane k, hk⟩
      · rintro ⟨l, hl⟩
        exact ⟨l 0, List.mem_finRange _, by rw [ofLane_coord]; exact hl⟩
    by_cases hc : ∃ l : S16.Idx, (idx l).toNat = (j 0).val
    · rw [if_pos hc, if_pos (hiff.2 hc)]
    · rw [if_neg hc, if_neg (fun h' => hc (hiff.1 h'))]
  · intro g k j
    have hm : ((fun _ => 1#1 : IVec S16 1) (Shape.ofLane k) = 1) := rfl
    simp only [hm, if_true, Bool.false_eq_true, if_false]
    have hiff : (∀ a : Fin 1, (j a).val = ((idxAt (s := SRow) ![idx] h (Shape.ofLane k)) a).val)
        ↔ (idx (Shape.ofLane k)).toNat = (j 0).val := by
      constructor
      · intro hh; exact (hh 0).symm
      · intro hh a
        match a with
        | ⟨0, _⟩ => exact hh.symm
    by_cases hc : (idx (Shape.ofLane k)).toNat = (j 0).val
    · rw [if_pos hc, if_pos (hiff.2 hc)]; rfl
    · rw [if_neg hc, if_neg (fun h' => hc (hiff.1 h'))]

def nest (x : F .f32) : List (IVec S16 32) → Vec F SRow .f32 → Vec F SRow .f32
  | [], f => f
  | idx :: rest, f => fun j => if ∃ l : S16.Idx, (idx l).toNat = (j 0).val then x else nest x rest f j

theorem nest_apply (x : F .f32) (L : List (IVec S16 32)) (f : Vec F SRow .f32) (j : SRow.Idx) :
    nest x L f j = if ∃ idx ∈ L, ∃ l : S16.Idx, (idx l).toNat = (j 0).val then x else f j := by
  induction L with
  | nil => simp [nest]
  | cons idx rest ih =>
    show (if ∃ l : S16.Idx, (idx l).toNat = (j 0).val then x else nest x rest f j) = _
    rw [ih]
    by_cases h1 : ∃ l : S16.Idx, (idx l).toNat = (j 0).val
    · rw [if_pos h1, if_pos ⟨idx, List.mem_cons_self, h1⟩]
    · rw [if_neg h1]
      by_cases h2 : ∃ idx' ∈ rest, ∃ l : S16.Idx, (idx' l).toNat = (j 0).val
      · have h3 : ∃ idx' ∈ idx :: rest, ∃ l : S16.Idx, (idx' l).toNat = (j 0).val := by
          obtain ⟨i', hi', hp⟩ := h2
          exact ⟨i', List.mem_cons_of_mem _ hi', hp⟩
        rw [if_pos h2, if_pos h3]
      · rw [if_neg h2, if_neg]
        rintro ⟨i', hi', hp⟩
        rcases List.mem_cons.1 hi' with rfl | hi'
        · exact h1 hp
        · exact h2 ⟨i', hi', hp⟩

end Cert.Put

end
-- ==== Proof.PutPure.lean ====
/-
  Frame i's 32 scatters into a row of 32768 floats. Scatter k = 8 t + ch names, lane by lane, the positions
  A[512 i + 128 t + 16 ch + l] + 256 l + 4096 ch + 64 t; over all k these are A[512 i + 128 t + s] + 256 s + 64 t for
  type t and slot s. Ones on the zero row give the frame's one-hot row; zeros on that row give the zero row back.
-/
import Idealize.ShloMosaic.PureOps
import Idealize.ShloMosaic.Lib.ValueIdx
import proofs.«205938_g64501818851839_cont_9to1_m_860_20_alg».proof.Proof.Spec
import proofs.«205938_g64501818851839_cont_9to1_m_860_20_alg».proof.Proof.PutCore

noncomputable section

namespace Cert.Put

open Idealize.ShloMosaic Idealize.ShloMosaic.ValueIdx
open Classical

variable {F : FTy → Type} [FloatOps F]

def lanes256 (hi : S16.Iotas .scVector 32 [0]) : IVec S16 32 :=
  muli (iota .scVector S16 32 [0] hi) (broadcast S16 256#32)

def idxVec (hi : S16.Iotas .scVector 32 [0]) (v : IVec S16 32) (c : BitVec 32) : IVec S16 32 :=
  addi v (addi (lanes256 hi) (broadcast S16 c))

def lanesAt (A : IVec STile 32) (off : Nat) (h : off + 16 ≤ 16384) : IVec S16 32 :=
  fun y => A (ValueIdx.ix1 (⟨off + (y 0).val, by have : (y 0).val < 16 := (y 0).isLt; omega⟩ : Fin 16384))

theorem idxVec_toNat (hi : S16.Iotas .scVector 32 [0]) (v : IVec S16 32) (c : BitVec 32)
    (hv : ∀ y, (v y).toNat ≤ 63) (hc : c.toNat ≤ 28864) (l : Fin 16) :
    (idxVec hi v c (ValueIdx.ix1 l)).toNat = (v (ValueIdx.ix1 l)).toNat + 256 * l.val + c.toNat := by
  show (v (ix1 l) + (BitVec.ofNat 32 (0 * 16 + l.val) * 256#32 + c)).toNat = _
  have h1 := hv (ix1 l)
  have h2 := l.isLt
  simp only [BitVec.toNat_add, BitVec.toNat_mul, BitVec.toNat_ofNat]
  omega

theorem idxVec_inb (hi : S16.Iotas .scVector 32 [0]) (v : IVec S16 32) (c : BitVec 32)
    (hv : ∀ y, (v y).toNat ≤ 63) (hc : c.toNat ≤ 28864) :
    ∀ a y, ((![idxVec hi v c] : Fin 1 → IVec S16 32) a y).toNat < SRow.size a := by
  intro a y
  match a with
  | ⟨0, _⟩ =>
    obtain ⟨l, rfl⟩ : ∃ l : Fin 16, y = ix1 l := ⟨y 0, eq_ix1 y⟩
    show (idxVec hi v c (ix1 l)).toNat < 32768
    rw [idxVec_toNat hi v c hv hc]
    have h1 := hv (ix1 l)
    have h2 := l.isLt
    omega

def offOf (i : Fin 32) (k : Fin 32) : Nat := 512 * i.val + 128 * (k.val / 8) + 16 * (k.val % 8)

theorem offOf_le (i k : Fin 32) : offOf i k + 16 ≤ 16384 := by
  unfold offOf
  have h1 := i.isLt
  have h2 := k.isLt
  omega

def cOf (k : Fin 32) : BitVec 32 := BitVec.ofNat 32 (4096 * (k.val % 8) + 64 * (k.val / 8))

theorem cOf_toNat (k : Fin 32) : (cOf k).toNat = 4096 * (k.val % 8) + 64 * (k.val / 8) := by
  unfold cOf
  have h2 := k.isLt
  rw [BitVec.toNat_ofNat]
  omega

theorem cOf_le (k : Fin 32) : (cOf k).toNat ≤ 28864 := by
  rw [cOf_toNat]
  have h2 := k.isLt
  omega

def frameIdx (hi : S16.Iotas .scVector 32 [0]) (A : IVec STile 32) (i : Fin 32) : List (IVec S16 32) :=
  (List.ofFn fun k : Fin 32 => idxVec hi (lanesAt A (offOf i k) (offOf_le i k)) (cOf k)).reverse

abbrev oneW : F .f32 := Scalar.ofBits .f32 0x3F800000#32
abbrev zeroW : F .f32 := Scalar.ofBits .f32 0x00000000#32

def HitRow (A : IVec STile 32) (i : Fin 32) (n : Nat) : Prop :=
  ∃ t : Fin 4, ∃ s : Fin 128,
    n = (A (ValueIdx.ix1 (⟨512 * i.val + 128 * t.val + s.val, by omega⟩ : Fin 16384))).toNat + 256 * s.val + 64 * t.val

def rowF (A : IVec STile 32) (i : Fin 32) : Vec F SRow .f32 :=
  fun j => if HitRow A i (j 0).val then oneW else zeroW

def zeroRow : Vec F SRow .f32 := fun _ => zeroW

theorem frameIdx_toNat (hi : S16.Iotas .scVector 32 [0]) (A : IVec STile 32) (hA : ∀ y, (A y).toNat ≤ 63)
    (i k : Fin 32) (l : Fin 16) :
    (idxVec hi (lanesAt A (offOf i k) (offOf_le i k)) (cOf k) (ix1 l)).toNat
      = (A (ix1 (⟨offOf i k + l.val, by have := offOf_le i k; omega⟩ : Fin 16384))).toNat + 256 * l.val
          + (4096 * (k.val % 8) + 64 * (k.val / 8)) := by
  rw [idxVec_toNat hi (lanesAt A (offOf i k) (offOf_le i k)) (cOf k) (fun y => hA _) (cOf_le k), cOf_toNat]
  rfl

theorem A_congr (A : IVec STile 32) (p q : Fin 16384) (h : p.val = q.val) : A (ix1 p) = A (ix1 q) := by
  rw [Fin.ext h]

theorem frame_hit (hi : S16.Iotas .scVector 32 [0]) (A : IVec STile 32) (hA : ∀ y, (A y).toNat ≤ 63)
    (i : Fin 32) (n : Nat) :
    (∃ idx ∈ frameIdx hi A i, ∃ l : S16.Idx, (idx l).toNat = n) ↔ HitRow A i n := by
  constructor
  · rintro ⟨idx, hmem, l, hl⟩
    rw [frameIdx, List.mem_reverse, List.mem_ofFn] at hmem
    obtain ⟨k, rfl⟩ := hmem
    obtain ⟨l, rfl⟩ : ∃ l' : Fin 16, l = ix1 l' := ⟨l 0, eq_ix1 l⟩
    rw [frameIdx_toNat hi A hA] at hl
    have hk := k.isLt
    have hl' := l.isLt
    refine ⟨⟨k.val / 8, by omega⟩, ⟨16 * (k.val % 8) + l.val, by omega⟩, ?_⟩
    rw [A_congr A ⟨512 * i.val + 128 * (k.val / 8) + (16 * (k.val % 8) + l.val), by have := i.isLt; omega⟩
      ⟨offOf i k + l.val, by have := offOf_le i k; omega⟩ (by simp only [offOf]; omega)]
    simp only []
    omega
  · rintro ⟨t, s, rfl⟩
    have ht := t.isLt
    have hs := s.isLt
    obtain ⟨k, hk⟩ : ∃ k : Fin 32, k.val = 8 * t.val + s.val / 16 := ⟨⟨8 * t.val + s.val / 16, by omega⟩, rfl⟩
    refine ⟨idxVec hi (lanesAt A (offOf i k) (offOf_le i k)) (cOf k), ?_, ix1 (⟨s.val % 16, by omega⟩ : Fin 16), ?_⟩
    · rw [frameIdx, List.mem_reverse, List.mem_ofFn]
      exact ⟨k, rfl⟩
    · rw [frameIdx_toNat hi A hA]
      rw [A_congr A ⟨512 * i.val + 128 * t.val + s.val, by have := i.isLt; omega⟩
        ⟨offOf i k + s.val % 16, by have := offOf_le i k; omega⟩
        (by simp only [offOf]; omega)]
      simp only []
      omega

theorem put_ones (hi : S16.Iotas .scVector 32 [0]) (A : IVec STile 32) (hA : ∀ y, (A y).toNat ≤ 63) (i : Fin 32) :
    nest (oneW (F := F)) (frameIdx hi A i) zeroRow = rowF A i := by
  funext j
  rw [nest_apply]
  unfold rowF zeroRow
  by_cases h : HitRow A i (j 0).val
  · rw [if_pos h, if_pos ((frame_hit hi A hA i _).2 h)]
  · rw [if_neg h, if_neg (fun h' => h ((frame_hit hi A hA i _).1 h'))]

theorem put_zeros (hi : S16.Iotas .scVector 32 [0]) (A : IVec STile 32) (hA : ∀ y, (A y).toNat ≤ 63) (i : Fin 32) :
    nest (zeroW (F := F)) (frameIdx hi A i) (rowF A i) = zeroRow := by
  funext j
  rw [nest_apply]
  unfold rowF zeroRow
  by_cases h : HitRow A i (j 0).val
  · rw [if_pos ((frame_hit hi A hA i _).2 h)]
  · rw [if_neg h, if_neg (fun h' => h ((frame_hit hi A hA i _).1 h'))]

theorem hit_flat_iff (a : IVec Cert.Spec.SAct 32) (ha : Cert.Spec.InRange a) (f : Fin 1024) (s : Fin 128) (c : Fin 256) :
    (∃ t : Fin 4, ∃ s' : Fin 128, 256 * s.val + c.val = (a (ValueIdx.ix3 f t s')).toNat + 256 * s'.val + 64 * t.val)
      ↔ Cert.Spec.Hit a f s c := by
  constructor
  · rintro ⟨t, s', h⟩
    have h1 := ha (ix3 f t s')
    have ht := t.isLt
    have hc := c.isLt
    have hs : s' = s := Fin.ext (by omega)
    subst hs
    exact ⟨t, by omega⟩
  · rintro ⟨t, h⟩
    exact ⟨t, s, by omega⟩

end Cert.Put

end
-- ==== Proof.TileView.lean ====
/-
  A tile's own data: its slice of the flattened actions, the words its scratch holds once they are fetched, the zero
  row, one row of the output, and the output rows whose number satisfies a condition.
-/
import proofs.«205938_g64501818851839_cont_9to1_m_860_20_alg».proof.Proof.TilePay
import proofs.«205938_g64501818851839_cont_9to1_m_860_20_alg».proof.Proof.PutPure

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MM F

variable (m : (ℓ : Loc nD τ sig) → Buf (Elt F) ℓ)

theorem bound_zero : grid0.bound 0 = 2 := rfl
theorem bound_one : grid0.bound 1 = 16 := rfl
abbrev cF (L : grid0.Coords) : Fin 2 := Fin.cast bound_zero (L 0)
abbrev sF (L : grid0.Coords) : Fin 16 := Fin.cast bound_one (L 1)
abbrev wL (L : grid0.Coords) : Fin 32 := wid (cF L) (sF L)

variable (d : Dev nD) (L : grid0.Coords)

abbrev aSl : Memref sig .scVector .hbm S16384 .i32 :=
  aV.slice (Rect.unit (s := S524288) (k0_off1 L) S16384.size (k0_off1_inb L)) (fun _ => rfl)

def At : Buf (Elt F) (sA.view.loc (V d (cV L) (jV L))) :=
  fun y => A0 m d ((aSl L).view.emb y)

theorem hAt (hA : ∀ i, ((A0 m d) i).toNat ≤ 63) : ∀ y, ((At m d L) y).toNat ≤ 63 := fun y => hA _

def ZR [FloatOps F] : Buf (Elt F) (sB0.view.loc (V d (cV L) (jV L))) := fun _ => zeroW

abbrev rowM (off : Fin 2 → Nat) (h : ∀ a, off a + S1x32768.size a ≤ S1024x32768.size a) : Memref sig .scVector .hbm S32768 .f32 :=
  (oV.slice (Rect.unit (s := S1024x32768) off S1x32768.size h) (fun _ => rfl)).squeeze S32768 squeezes_S1x32768_S32768

def rowsWhere (p : Nat → Prop) [DecidablePred p] : Finset S1024x32768.Idx := Finset.univ.filter fun j => p (j 0).val

end Cert.Proof.Tile

end
-- ==== Proof.TileExec.lean ====
/-
  Pieces of a tile's task: its own semaphores and scratches among those it is dealt; what the three fetches leave;
  every scatter index is below 32768 because action words are at most 63; one scatter adds one layer to a row scratch.
-/
import proofs.«205938_g64501818851839_cont_9to1_m_860_20_alg».proof.Proof.TileView

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MM F

variable (m : (ℓ : Loc nD τ sig) → Buf (Elt F) ℓ)
variable (d : Dev nD) (L : grid0.Coords)

abbrev c3cell : GSem nD τ sig := (V d (cV L) (jV L), .dma cc0_scratch3.sem)
abbrev c4cell : GSem nD τ sig := (V d (cV L) (jV L), .dma cc0_scratch4.sem)
abbrev c5cell : GSem nD τ sig := (V d (cV L) (jV L), .dma cc0_scratch5.sem)

theorem ownSems0_V :
    (ownSems0 (V d (cV L) (jV L)) : sProp 𝕄)
      = iprop(semVal (c3cell d L) 0 ∗ semVal (c4cell d L) 0 ∗ semVal (c5cell d L) 0
          ∗ bigSep ((((ownCells (V d (cV L) (jV L))).erase (c3cell d L)).erase (c4cell d L)).erase (c5cell d L))
              fun g => semVal g 0) := by
  unfold SparseCore.Cfg.ownSems0
  rw [SparseCore.bigSep_erase' ((mem_ownCells (g := c3cell d L)).mpr ⟨rfl, by
      show (SemLoc.dma cc0_scratch3.sem : SemLoc sig).isScoped .scVector = true; decide⟩),
    SparseCore.bigSep_erase' (Finset.mem_erase.mpr ⟨by simp [c3cell, c4cell]; decide, (mem_ownCells (g := c4cell d L)).mpr ⟨rfl, by
      show (SemLoc.dma cc0_scratch4.sem : SemLoc sig).isScoped .scVector = true; decide⟩⟩),
    SparseCore.bigSep_erase' (Finset.mem_erase.mpr ⟨by simp [c4cell, c5cell]; decide, Finset.mem_erase.mpr ⟨by simp [c3cell, c5cell]; decide,
      (mem_ownCells (g := c5cell d L)).mpr ⟨rfl, by show (SemLoc.dma cc0_scratch5.sem : SemLoc sig).isScoped .scVector = true; decide⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

theorem aSl_rect : Rect.unit (s := S524288) (k0_off1 L) S16384.size (k0_off1_inb L) = aPart (wL L) := by
  unfold aPart Rect.part Rect.block
  congr 1 <;> funext a
  · rw [k0_off1_eq]
    match a with
    | 0 => simp [Shape.partIx, Shape.partSize, wid]; omega
  · match a with
    | 0 => simp [Shape.partSize]

theorem set_aSl : (aSl L).view.set = aSet (wL L) := by
  show (aV.view.slice (Rect.unit (s := S524288) (k0_off1 L) S16384.size (k0_off1_inb L))).set = _
  rw [aSl_rect]

theorem pts_aSl (f : Buf (Elt F) (aLoc d)) :
    ((aSl L).view.loc (V d (cV L) (jV L)) ↦[(aSl L).view.set]{fullShare} f : sProp 𝕄) = aLoc d ↦[aSet (wL L)]{fullShare} f := by
  rw [set_aSl]
theorem pts_z (q : PosShare TreeShare) (f : Buf (Elt F) (zLoc d)) :
    ((zV).view.loc (V d (cV L) (jV L)) ↦{q} f : sProp 𝕄) = zLoc d ↦{q} f := rfl
theorem pts_sA (f : Buf (Elt F) ((V d (cV L) (jV L)).loc cc0_scratch0)) :
    ((sA).view.loc (V d (cV L) (jV L)) ↦{fullShare} f : sProp 𝕄) = (V d (cV L) (jV L)).loc cc0_scratch0 ↦{fullShare} f := rfl
theorem pts_sB0 (f : Buf (Elt F) ((V d (cV L) (jV L)).loc cc0_scratch1)) :
    ((sB0).view.loc (V d (cV L) (jV L)) ↦{fullShare} f : sProp 𝕄) = (V d (cV L) (jV L)).loc cc0_scratch1 ↦{fullShare} f := rfl
theorem pts_sB1 (f : Buf (Elt F) ((V d (cV L) (jV L)).loc cc0_scratch2)) :
    ((sB1).view.loc (V d (cV L) (jV L)) ↦{fullShare} f : sProp 𝕄) = (V d (cV L) (jV L)).loc cc0_scratch2 ↦{fullShare} f := rfl

theorem pts_fun {ℓ : Loc nD τ sig} {q : PosShare TreeShare} {f g : Buf (Elt F) ℓ} (h : f = g) : (ℓ ↦{q} f : sProp 𝕄) ⊢ ℓ ↦{q} g := by rw [h]
theorem pts_funS {ℓ : Loc nD τ sig} {I : Finset (Idx ℓ)} {q : PosShare TreeShare} {f g : Buf (Elt F) ℓ} (h : f = g) : (ℓ ↦[I]{q} f : sProp 𝕄) ⊢ ℓ ↦[I]{q} g := by rw [h]

theorem sA_landed (f0 : Buf (Elt F) (sA.view.loc (V d (cV L) (jV L)))) :
    View.write (Elt F) sA.view f0 (ReadAs.same.apply ((aSl L).view.read (Elt F) (A0 m d))) Finset.univ = At m d L :=
  (View.write_whole_univ _ _ _).trans (funext fun y => (View.read_apply _ _).trans (cast_eq _ _))

theorem lanes_bound (off : Fin 1 → Nat) (hoff : ∀ a, off a + S16.size a ≤ S16384.size a) : off 0 + 16 ≤ 16384 := hoff 0

theorem readAt_lanes (A : Buf (Elt F) (sA.view.loc (V d (cV L) (jV L))))
    (off : Fin 1 → Nat) (hoff : ∀ a, off a + S16.size a ≤ S16384.size a) :
    sA.view.readAt (Elt F) (Rect.unit (s := S16384) off S16.size hoff).toLoadRect A
      = Cert.Put.lanesAt A (off 0) (lanes_bound off hoff) := by
  funext y
  simp only [View.readAt_apply, Memref.view_whole, View.read_whole]
  unfold Cert.Put.lanesAt
  congr 1
  funext a; apply Fin.ext
  rw [LoadRect.idx_apply, Subsingleton.elim a 0]
  show off 0 + 1 * (y 0).val = off 0 + (y 0).val
  omega

variable [FloatOps F]

theorem chk_core (A : Buf (Elt F) (sA.view.loc (V d (cV L) (jV L)))) (hA : ∀ y, (A y).toNat ≤ 63)
    (off : Fin 1 → Nat) (h : ∀ a, off a + S16.size a ≤ S16384.size a) (c : BitVec 32) (hc : c.toNat ≤ 28864) :
    ∀ a x, ((![addi (sA.view.readAt (Elt F) (Rect.unit (s := S16384) off S16.size h).toLoadRect A)
        (addi k0_pay130 (broadcast S16 c))] : Fin 1 → IVec S16 32) a x).toNat < S32768.size a :=
  Cert.Put.idxVec_inb iota_S16_d0_w32_scVector _ c (fun y => hA _) hc

theorem readAtW_sB0 (g : Buf (Elt F) (sB0.view.loc (V d (cV L) (jV L)))) :
    sB0.view.readAt (Elt F) (LoadRect.whole S32768) g = g :=
  Memref.readAt_whole (Elt F) cc0_scratch1 _

theorem step_sB0 (x : F .f32) (Lacc : List (IVec S16 32)) (base : Buf (Elt F) (sB0.view.loc (V d (cV L) (jV L)))) (idxv : IVec S16 32)
    (h : ∀ a y, ((![idxv] : Fin 1 → IVec S16 32) a y).toNat < S32768.size a) :
    sB0.view.writes (Elt F) (Cert.Put.nest x Lacc base)
      [⟨Rect.whole S32768, storeIdx (sB0.view.readAt (Elt F) (LoadRect.whole S32768) (Cert.Put.nest x Lacc base)) ![idxv] (broadcast S16 x) (fun _ => 1#1) false h⟩]
      = Cert.Put.nest x (idxv :: Lacc) base := by
  rw [View.writes_singleton, readAtW_sB0 (F := F) d L]
  refine (Memref.write_access_whole_univ (Elt F) cc0_scratch1 _ _).trans ?_
  rw [Cert.Put.storeIdx_const]; rfl

theorem stepA_sB0 (A : Buf (Elt F) (sA.view.loc (V d (cV L) (jV L))))
    (x : F .f32) (Lacc : List (IVec S16 32)) (base : Buf (Elt F) (sB0.view.loc (V d (cV L) (jV L))))
    (off : Fin 1 → Nat) (hoff : ∀ a, off a + S16.size a ≤ S16384.size a) (c : BitVec 32)
    (h : ∀ a y, ((![addi (sA.view.readAt (Elt F) (Rect.unit (s := S16384) off S16.size hoff).toLoadRect A)
        (addi k0_pay130 (broadcast S16 c))] : Fin 1 → IVec S16 32) a y).toNat < S32768.size a) :
    sB0.view.writes (Elt F) (Cert.Put.nest x Lacc base)
      [⟨Rect.whole S32768, storeIdx (sB0.view.readAt (Elt F) (LoadRect.whole S32768) (Cert.Put.nest x Lacc base))
          ![addi (sA.view.readAt (Elt F) (Rect.unit (s := S16384) off S16.size hoff).toLoadRect A)
            (addi k0_pay130 (broadcast S16 c))] (broadcast S16 x) (fun _ => 1#1) false h⟩]
      = Cert.Put.nest x (Cert.Put.idxVec iota_S16_d0_w32_scVector (Cert.Put.lanesAt A (off 0) (lanes_bound off hoff)) c :: Lacc) base := by
  refine (step_sB0 (F := F) d L x Lacc base _ h).trans ?_
  congr 2
  rw [readAt_lanes]; rfl

theorem nil_sB0 (x : F .f32) (base : Buf (Elt F) (sB0.view.loc (V d (cV L) (jV L)))) :
    base = Cert.Put.nest x [] base := rfl

theorem landedZ_sB0 (f1 : Buf (Elt F) (sB0.view.loc (V d (cV L) (jV L)))) :
    View.write (Elt F) sB0.view f1 (ReadAs.same.apply (zV.view.read (Elt F) (Z0 d))) Finset.univ = ZR d L :=
  (View.write_whole_univ _ _ _).trans (funext fun y => (View.read_apply _ _).trans (cast_eq _ _))

theorem readAtW_sB1 (g : Buf (Elt F) (sB1.view.loc (V d (cV L) (jV L)))) :
    sB1.view.readAt (Elt F) (LoadRect.whole S32768) g = g :=
  Memref.readAt_whole (Elt F) cc0_scratch2 _

theorem step_sB1 (x : F .f32) (Lacc : List (IVec S16 32)) (base : Buf (Elt F) (sB1.view.loc (V d (cV L) (jV L)))) (idxv : IVec S16 32)
    (h : ∀ a y, ((![idxv] : Fin 1 → IVec S16 32) a y).toNat < S32768.size a) :
    sB1.view.writes (Elt F) (Cert.Put.nest x Lacc base)
      [⟨Rect.whole S32768, storeIdx (sB1.view.readAt (Elt F) (LoadRect.whole S32768) (Cert.Put.nest x Lacc base)) ![idxv] (broadcast S16 x) (fun _ => 1#1) false h⟩]
      = Cert.Put.nest x (idxv :: Lacc) base := by
  rw [View.writes_singleton, readAtW_sB1 (F := F) d L]
  refine (Memref.write_access_whole_univ (Elt F) cc0_scratch2 _ _).trans ?_
  rw [Cert.Put.storeIdx_const]; rfl

theorem stepA_sB1 (A : Buf (Elt F) (sA.view.loc (V d (cV L) (jV L))))
    (x : F .f32) (Lacc : List (IVec S16 32)) (base : Buf (Elt F) (sB1.view.loc (V d (cV L) (jV L))))
    (off : Fin 1 → Nat) (hoff : ∀ a, off a + S16.size a ≤ S16384.size a) (c : BitVec 32)
    (h : ∀ a y, ((![addi (sA.view.readAt (Elt F) (Rect.unit (s := S16384) off S16.size hoff).toLoadRect A)
        (addi k0_pay130 (broadcast S16 c))] : Fin 1 → IVec S16 32) a y).toNat < S32768.size a) :
    sB1.view.writes (Elt F) (Cert.Put.nest x Lacc base)
      [⟨Rect.whole S32768, storeIdx (sB1.view.readAt (Elt F) (LoadRect.whole S32768) (Cert.Put.nest x Lacc base))
          ![addi (sA.view.readAt (Elt F) (Rect.unit (s := S16384) off S16.size hoff).toLoadRect A)
            (addi k0_pay130 (broadcast S16 c))] (broadcast S16 x) (fun _ => 1#1) false h⟩]
      = Cert.Put.nest x (Cert.Put.idxVec iota_S16_d0_w32_scVector (Cert.Put.lanesAt A (off 0) (lanes_bound off hoff)) c :: Lacc) base := by
  refine (step_sB1 (F := F) d L x Lacc base _ h).trans ?_
  congr 2
  rw [readAt_lanes]; rfl

theorem nil_sB1 (x : F .f32) (base : Buf (Elt F) (sB1.view.loc (V d (cV L) (jV L)))) :
    base = Cert.Put.nest x [] base := rfl

theorem landedZ_sB1 (f1 : Buf (Elt F) (sB1.view.loc (V d (cV L) (jV L)))) :
    View.write (Elt F) sB1.view f1 (ReadAs.same.apply (zV.view.read (Elt F) (Z0 d))) Finset.univ = ZR d L :=
  (View.write_whole_univ _ _ _).trans (funext fun y => (View.read_apply _ _).trans (cast_eq _ _))

end Cert.Proof.Tile

end
-- ==== Proof.PutLists.lean ====
/-
  A row scratch's index vectors are written one at a time, the last made first in the list. Such a list is frame i's
  when scatter n's vector reads the action words at 512 i + 128 (n / 8) + 16 (n % 8) and adds the constant
  4096 (n % 8) + 64 (n / 8): one step per vector, whatever form its offset is printed in.
-/
import proofs.«205938_g64501818851839_cont_9to1_m_860_20_alg».proof.Proof.PutPure

noncomputable section

namespace Cert.Put

open Idealize.ShloMosaic Idealize.ShloMosaic.ValueIdx

variable {F : FTy → Type} [FloatOps F]

/-- Frame i's first n index vectors, the last made first. -/
def upTo (hi : S16.Iotas .scVector 32 [0]) (A : IVec STile 32) (i : Fin 32) : (n : Nat) → n ≤ 32 → List (IVec S16 32)
  | 0, _ => []
  | n + 1, h => idxVec hi (lanesAt A (offOf i ⟨n, h⟩) (offOf_le i ⟨n, h⟩)) (cOf ⟨n, h⟩) :: upTo hi A i n (Nat.le_of_succ_le h)

theorem put_ones_of (hi : S16.Iotas .scVector 32 [0]) (A : IVec STile 32) (hA : ∀ y, (A y).toNat ≤ 63) (i : Fin 32)
    {l : List (IVec S16 32)} (h : l = upTo hi A i 32 (Nat.le_refl 32)) : nest (oneW (F := F)) l zeroRow = rowF A i := by
  subst h; exact put_ones hi A hA i

theorem put_zeros_of (hi : S16.Iotas .scVector 32 [0]) (A : IVec STile 32) (hA : ∀ y, (A y).toNat ≤ 63) (i : Fin 32)
    {l : List (IVec S16 32)} (h : l = upTo hi A i 32 (Nat.le_refl 32)) : nest (zeroW (F := F)) l (rowF A i) = zeroRow := by
  subst h; exact put_zeros hi A hA i

/-- One more written vector: its offset, through a closed form, and its constant are scatter n's. -/
theorem upTo_cons {hi : S16.Iotas .scVector 32 [0]} {A : IVec STile 32} {i : Fin 32} {n : Nat} {h : n + 1 ≤ 32}
    {l : List (IVec S16 32)} {off : Fin 1 → Nat} {p : off 0 + 16 ≤ 16384} {c : BitVec 32} (form : Fin 1 → Nat)
    (he : off = form) (ho : form 0 = offOf i ⟨n, h⟩) (hc : c = cOf ⟨n, h⟩) (hl : l = upTo hi A i n (Nat.le_of_succ_le h)) :
    idxVec hi (lanesAt A (off 0) p) c :: l = upTo hi A i (n + 1) h := by
  subst he hc hl
  revert p; rw [ho]; intro _; rfl

/-- In frame 2 n + a scatter k reads at 1024 n + (512 a + 128 (k / 8) + 16 (k % 8)). -/
theorem off_loop (n a : Nat) (i k : Fin 32) (hi : i.val = 2 * n + a) {x : Nat}
    (hx : x = 1024 * n + (512 * a + 128 * (k.val / 8) + 16 * (k.val % 8))) : x = offOf i k := by
  unfold offOf; omega

end Cert.Put

end
-- ==== Proof.TileFrames.lean ====
/-
  The loop's fifteen trips, and the four frames trip k works on: 2 k and 2 k + 1 are cleared, 2 k + 2 and
  2 k + 3 are set.
-/
import proofs.«205938_g64501818851839_cont_9to1_m_860_20_alg».proof.Proof.TileExec
import proofs.«205938_g64501818851839_cont_9to1_m_860_20_alg».proof.Proof.PutLists

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MM F

variable (d : Dev nD) (L : grid0.Coords)

theorem trips_eq : k0_t1_loop.trips = 15 := by decide
theorem trip_lt (k : Fin k0_t1_loop.trips) : k.val < 15 := lt_of_lt_of_eq k.isLt trips_eq

abbrev fr0 (k : Fin k0_t1_loop.trips) : Fin 32 := ⟨2 * k.val, by have := trip_lt k; omega⟩
abbrev fr1 (k : Fin k0_t1_loop.trips) : Fin 32 := ⟨2 * k.val + 1, by have := trip_lt k; omega⟩
abbrev fr2 (k : Fin k0_t1_loop.trips) : Fin 32 := ⟨2 * k.val + 2, by have := trip_lt k; omega⟩
abbrev fr3 (k : Fin k0_t1_loop.trips) : Fin 32 := ⟨2 * k.val + 3, by have := trip_lt k; omega⟩

end Cert.Proof.Tile

end
-- ==== Proof.TileMain.lean ====
/-
  The 32 tile numbers are the pairs (c, s); the action array and the output are the disjoint union of the tiles'
  parts and the zero row splits into read shares; the values of the host operations around the call.
-/
import proofs.«205938_g64501818851839_cont_9to1_m_860_20_alg».proof.Proof.TilePay
import Idealize.ShloMosaic.Lib.Transfers

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo (held wp_hlo_within)

variable {F : FTy → Type}

local notation "𝕄" => MM F

variable (m : (ℓ : Loc nD τ sig) → Buf (Elt F) ℓ) (ρ : Dev nD → PrngReg)

theorem wid_injective : Function.Injective fun p : Fin 2 × Fin 16 => wid p.1 p.2 := by
  rintro ⟨c, s⟩ ⟨c', s'⟩ h
  have h' : 2 * s.val + c.val = 2 * s'.val + c'.val := congrArg Fin.val h
  have hc : c.val = c'.val := by omega
  have hs : s.val = s'.val := by omega
  exact Prod.ext (Fin.ext hc) (Fin.ext hs)

theorem wid_image : ((Finset.univ : Finset (Fin 2)) ×ˢ (Finset.univ : Finset (Fin 16))).image (fun p => wid p.1 p.2) = (Finset.univ : Finset (Fin 32)) := by
  ext w
  simp only [Finset.mem_image, Finset.mem_product, Finset.mem_univ, true_and, iff_true]
  exact ⟨(⟨w.val % 2, Nat.mod_lt _ (by decide)⟩, ⟨w.val / 2, by omega⟩), Fin.ext (by show 2 * (w.val / 2) + w.val % 2 = w.val; omega)⟩

theorem bigSep_wid (Φ : Fin 32 → sProp 𝕄) :
    bigSep Finset.univ Φ = bigSep Finset.univ fun c : Fin 2 => bigSep Finset.univ fun s : Fin 16 => Φ (wid c s) := by
  rw [← wid_image, SparseCore.bigSep_image_of_injOn (wid_injective.injOn), SparseCore.bigSep_product]

theorem aSet_eq (w : Fin 32) : aSet w = (aPart w).set := by
  show ((View.whole (main_v0_scv : Ref sig .scVector)).slice (aPart w)).set = _
  rw [View.set_slice]; exact Finset.map_refl
theorem oSet_eq (w : Fin 32) : oSet w = (oPart w).set := by
  show ((View.whole (main_v2_scv : Ref sig .scVector)).slice (oPart w)).set = _
  rw [View.set_slice]; exact Finset.map_refl

theorem aSet_disjoint : ∀ i ∈ (Finset.univ : Finset (Fin 32)), ∀ j ∈ (Finset.univ : Finset (Fin 32)), i ≠ j → Disjoint (aSet i) (aSet j) :=
  fun i _ j _ h => by rw [aSet_eq, aSet_eq]; exact Rect.part_disjoint hdivA h
theorem aSet_cover : (Finset.univ : Finset (Fin 32)).biUnion aSet = Finset.univ :=
  (Finset.biUnion_congr rfl fun i _ => aSet_eq i).trans (Rect.biUnion_part hdivA)
theorem oSet_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint hdivO h
theorem oSet_cover : (Finset.univ : Finset (Fin 32)).biUnion oSet = Finset.univ :=
  (Finset.biUnion_congr rfl fun i _ => oSet_eq i).trans (Rect.biUnion_part hdivO)

theorem aSplit (d : Dev nD) (f : Buf (Elt F) (aLoc d)) :
    (aLoc d ↦{fullShare} f : sProp 𝕄)
      = bigSep Finset.univ fun c : Fin 2 => bigSep Finset.univ fun s : Fin 16 => aLoc d ↦[aSet (wid c s)]{fullShare} f := by
  rw [← bigSep_wid (F := F) fun w => aLoc d ↦[aSet w]{fullShare} f,
    ← pointsTo_biUnion Finset.univ (ℓ := aLoc d) aSet aSet_disjoint, aSet_cover]; try rfl

theorem oSplit (d : Dev nD) (f : Buf (Elt F) (oLoc d)) :
    (oLoc d ↦{fullShare} f : sProp 𝕄)
      = bigSep Finset.univ fun c : Fin 2 => bigSep Finset.univ fun s : Fin 16 => oLoc d ↦[oSet (wid c s)]{fullShare} f := by
  rw [← bigSep_wid (F := F) fun w => oLoc d ↦[oSet w]{fullShare} f,
    ← pointsTo_biUnion Finset.univ (ℓ := oLoc d) oSet oSet_disjoint, oSet_cover]; try rfl

def zRem (d : Dev nD) (f : Buf (Elt F) (zLoc d)) : sProp 𝕄 :=
  iprop((zLoc d ↦{Transfers.shareDrop fullShare 2} f)
    ∗ bigSep Finset.univ fun c : Fin 2 => zLoc d ↦{Transfers.shareDrop (Transfers.shareTok fullShare 2 c) 16} f)

theorem zSplit (d : Dev nD) (f : Buf (Elt F) (zLoc d)) :
    (zLoc d ↦{fullShare} f : sProp 𝕄)
      = iprop(zRem d f ∗ bigSep Finset.univ fun c : Fin 2 => bigSep Finset.univ fun s : Fin 16 => zLoc d ↦{zShare c s} f) := by
  have h2 : (zLoc d ↦{fullShare} f : sProp 𝕄)
      = iprop((zLoc d ↦{Transfers.shareDrop fullShare 2} f) ∗ bigSep Finset.univ fun c : Fin 2 => zLoc d ↦{Transfers.shareTok fullShare 2 c} f) :=
    BI.equiv_iff.mp ⟨(Transfers.pointsTo_toks (ℓ := zLoc d) (S := Finset.univ) (f := f) fullShare 2).1,
      (Transfers.pointsTo_toks (ℓ := zLoc d) (S := Finset.univ) (f := f) fullShare 2).2⟩
  have h16 : ∀ c : Fin 2, (zLoc d ↦{Transfers.shareTok fullShare 2 c} f : sProp 𝕄)
      = iprop((zLoc d ↦{Transfers.shareDrop (Transfers.shareTok fullShare 2 c) 16} f)
          ∗ bigSep Finset.univ fun s : Fin 16 => zLoc d ↦{Transfers.shareTok (Transfers.shareTok fullShare 2 c) 16 s} f) :=
    fun c => BI.equiv_iff.mp ⟨(Transfers.pointsTo_toks (ℓ := zLoc d) (S := Finset.univ) (f := f) (Transfers.shareTok fullShare 2 c) 16).1,
      (Transfers.pointsTo_toks (ℓ := zLoc d) (S := Finset.univ) (f := f) (Transfers.shareTok fullShare 2 c) 16).2⟩
  unfold zRem zShare
  rw [h2]
  simp only [h16]
  rw [bigSep_sep']
  exact BI.equiv_iff.mp ⟨sep_assoc', sep_assoc⟩

abbrev arg0' : DevRef τ sig := Proc.devRef .tc (main_arg0 : Ref sig .tc)
abbrev v0' : DevRef τ sig := Proc.devRef .tc (main_v0 : Ref sig .tc)
abbrev cst' : DevRef τ sig := Proc.devRef .tc (main_cst : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)

abbrev S6 : Finset (DevRef τ sig) := {arg0', v0', cst', v1', v2', v3'}

abbrev cLoc (d : Dev nD) : Loc nD τ sig := (SparseCore.T d).loc main_cst

abbrev opA : HloOp τ sig (Elt F) := StableHlo.reshape main_arg0 main_v0 rfl shapeCasts_S1024x4x128_S524288
abbrev opC [FloatOps F] : HloOp τ sig (Elt F) := StableHlo.nullary main_cst (constant S_ .f32 0x00000000#32)
abbrev opZ : HloOp τ sig (Elt F) :=
  StableHlo.unary main_cst main_v1 (broadcastInDim S32768 ![] bcast_S_S32768 : (⟨S_, .f32⟩ : BufTy).Contents (Elt F) → (⟨S32768, .f32⟩ : BufTy).Contents (Elt F))
abbrev opR : HloOp τ sig (Elt F) := StableHlo.reshape main_v2 main_v3 rfl shapeCasts_S1024x32768_S1024x128x256

theorem hA : (opA (F := F)).bufs ⊆ S6 := show ({arg0', v0'} : Finset (DevRef τ sig)) ⊆ S6 by decide
theorem hC [FloatOps F] : (opC (F := F)).bufs ⊆ S6 := show ({cst'} : Finset (DevRef τ sig)) ⊆ S6 by decide
theorem hZ : (opZ (F := F)).bufs ⊆ S6 := show ({cst', v1'} : Finset (DevRef τ sig)) ⊆ S6 by decide
theorem hR : (opR (F := F)).bufs ⊆ S6 := show ({v2', v3'} : Finset (DevRef τ sig)) ⊆ S6 by decide

theorem held_S6 (d : Dev nD) (W : Valuation τ sig (Elt F)) :
    (held (T d) S6 W : sProp 𝕄) = iprop((argLoc d ↦{fullShare} W arg0') ∗ (aLoc d ↦{fullShare} W v0') ∗ (cLoc d ↦{fullShare} W cst')
      ∗ (zLoc d ↦{fullShare} W v1') ∗ (oLoc d ↦{fullShare} W v2') ∗ (resLoc d ↦{fullShare} W v3')) := by
  unfold held S6
  rw [SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((argLoc d ↦{fullShare} W main_arg0) ∗ (aLoc d ↦{fullShare} W main_v0) ∗ (cLoc d ↦{fullShare} W main_cst)
      ∗ (zLoc d ↦{fullShare} W main_v1) ∗ (oLoc d ↦{fullShare} W main_v2) ∗ (resLoc d ↦{fullShare} W main_v3)) := by
  unfold unscopedBufs
  rw [show (Finset.univ.filter fun b : Ref sig .tc => ¬ b.isScoped) = {main_arg0, main_v0, main_cst, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

def V0 (d : Dev nD) : Valuation τ sig (Elt F) := fun b => m (d, b)

theorem unscoped_held (d : Dev nD) : (unscopedBufs d (fun b => m ((SparseCore.T d).loc b)) : sProp 𝕄) = held (T d) S6 (V0 m d) := by
  rw [unscopedBufs_eq, held_S6]; rfl

variable [FloatOps F]

def V3 (d : Dev nD) : Valuation τ sig (Elt F) := (opZ (F := F)).result ((opC (F := F)).result ((opA (F := F)).result (V0 m d)))

theorem V3_arg (d : Dev nD) : V3 m d arg0' = m (argLoc d) := by
  unfold V3
  rw [(opZ (F := F)).result_of_not_mem _ (b := arg0') (show arg0' ∉ ({v1'} : Finset (DevRef τ sig)) by decide), (opC (F := F)).result_of_not_mem _ (b := arg0') (show arg0' ∉ ({cst'} : Finset (DevRef τ sig)) by decide), (opA (F := F)).result_of_not_mem _ (b := arg0') (show arg0' ∉ ({v0'} : Finset (DevRef τ sig)) by decide)]
  rfl
theorem V3_v0 (d : Dev nD) : V3 m d v0' = A0 m d := by
  unfold V3
  rw [(opZ (F := F)).result_of_not_mem _ (b := v0') (show v0' ∉ ({v1'} : Finset (DevRef τ sig)) by decide), (opC (F := F)).result_of_not_mem _ (b := v0') (show v0' ∉ ({cst'} : Finset (DevRef τ sig)) by decide), StableHlo.reshape_result]
  rfl
theorem V3_v1 (d : Dev nD) : V3 m d v1' = Z0 d := by
  unfold V3
  rw [StableHlo.unary_result, StableHlo.nullary_result]
  rfl
theorem V3_v2 (d : Dev nD) : V3 m d v2' = m (oLoc d) := by
  unfold V3
  rw [(opZ (F := F)).result_of_not_mem _ (b := v2') (show v2' ∉ ({v1'} : Finset (DevRef τ sig)) by decide), (opC (F := F)).result_of_not_mem _ (b := v2') (show v2' ∉ ({cst'} : Finset (DevRef τ sig)) by decide), (opA (F := F)).result_of_not_mem _ (b := v2') (show v2' ∉ ({v0'} : Finset (DevRef τ sig)) by decide)]
  rfl
theorem V3_v3 (d : Dev nD) : V3 m d v3' = m (resLoc d) := by
  unfold V3
  rw [(opZ (F := F)).result_of_not_mem _ (b := v3') (show v3' ∉ ({v1'} : Finset (DevRef τ sig)) by decide), (opC (F := F)).result_of_not_mem _ (b := v3') (show v3' ∉ ({cst'} : Finset (DevRef τ sig)) by decide), (opA (F := F)).result_of_not_mem _ (b := v3') (show v3' ∉ ({v0'} : Finset (DevRef τ sig)) by decide)]
  rfl

def V4 (d : Dev nD) : Valuation τ sig (Elt F) := Function.update (V3 m d) v2' (G0 m d)

theorem V4_arg (d : Dev nD) : V4 m d arg0' = m (argLoc d) := (Function.update_of_ne (show arg0' ≠ v2' by decide) _ _).trans (V3_arg m d)
theorem V4_v0 (d : Dev nD) : V4 m d v0' = A0 m d := (Function.update_of_ne (show v0' ≠ v2' by decide) _ _).trans (V3_v0 m d)
theorem V4_cst (d : Dev nD) : V4 m d cst' = V3 m d cst' := Function.update_of_ne (show cst' ≠ v2' by decide) _ _
theorem V4_v1 (d : Dev nD) : V4 m d v1' = Z0 d := (Function.update_of_ne (show v1' ≠ v2' by decide) _ _).trans (V3_v1 m d)
theorem V4_v2 (d : Dev nD) : V4 m d v2' = G0 m d := Function.update_self _ _ _
theorem V4_v3 (d : Dev nD) : V4 m d v3' = m (resLoc d) := (Function.update_of_ne (show v3' ≠ v2' by decide) _ _).trans (V3_v3 m d)

def R (d : Dev nD) : Buf (Elt F) (resLoc d) := fun j => shapeCast S1024x128x256 (G0 m d) shapeCasts_S1024x32768_S1024x128x256 j

theorem V5_arg (d : Dev nD) : (opR (F := F)).result (V4 m d) arg0' = m (argLoc d) := by
  rw [(opR (F := F)).result_of_not_mem _ (b := arg0') (show arg0' ∉ ({v3'} : Finset (DevRef τ sig)) by decide)]; exact V4_arg m d
theorem V5_v3 (d : Dev nD) : (opR (F := F)).result (V4 m d) v3' = R m d := by
  rw [StableHlo.reshape_result, V4_v2]; rfl

theorem held_V3 (d : Dev nD) : (held (T d) S6 (V3 m d) : sProp 𝕄)
    = iprop((argLoc d ↦{fullShare} m (argLoc d)) ∗ (aLoc d ↦{fullShare} A0 m d) ∗ (cLoc d ↦{fullShare} V3 m d cst')
      ∗ (zLoc d ↦{fullShare} Z0 d) ∗ (oLoc d ↦{fullShare} m (oLoc d)) ∗ (resLoc d ↦{fullShare} m (resLoc d))) := by
  rw [held_S6, V3_arg, V3_v0, V3_v1, V3_v2, V3_v3]
theorem held_V4 (d : Dev nD) : (held (T d) S6 (V4 m d) : sProp 𝕄)
    = iprop((argLoc d ↦{fullShare} m (argLoc d)) ∗ (aLoc d ↦{fullShare} A0 m d) ∗ (cLoc d ↦{fullShare} V3 m d cst')
      ∗ (zLoc d ↦{fullShare} Z0 d) ∗ (oLoc d ↦{fullShare} G0 m d) ∗ (resLoc d ↦{fullShare} m (resLoc d))) := by
  rw [held_S6, V4_arg, V4_v0, V4_cst, V4_v1, V4_v2, V4_v3]
theorem held_V5 (d : Dev nD) : (held (T d) S6 ((opR (F := F)).result (V4 m d)) : sProp 𝕄)
    = iprop((argLoc d ↦{fullShare} m (argLoc d)) ∗ (aLoc d ↦{fullShare} (opR (F := F)).result (V4 m d) v0') ∗ (cLoc d ↦{fullShare} (opR (F := F)).result (V4 m d) cst')
      ∗ (zLoc d ↦{fullShare} (opR (F := F)).result (V4 m d) v1') ∗ (oLoc d ↦{fullShare} (opR (F := F)).result (V4 m d) v2') ∗ (resLoc d ↦{fullShare} R m d)) := by
  rw [held_S6, V5_arg, V5_v3]

theorem st0_eq (d : Dev nD) : (bigSep Finset.univ fun c : Fin ((K (F := F)).nCore 0) => (P m).st 0 d c)
    = iprop((bigSep Finset.univ fun c : Fin 2 => bigSep Finset.univ fun s : Fin 16 => aLoc d ↦[aSet (wid c s)]{fullShare} A0 m d)
      ∗ (bigSep Finset.univ fun c : Fin 2 => bigSep Finset.univ fun s : Fin 16 => zLoc d ↦{zShare c s} Z0 d)
      ∗ (bigSep Finset.univ fun c : Fin 2 => bigSep Finset.univ fun s : Fin 16 => oLoc d ↦[oSet (wid c s)]{fullShare} m (oLoc d))) := by
  show (bigSep (Finset.univ : Finset (Fin 2)) fun c => bigSep Finset.univ fun s : Fin 16 => tileIn m d c s) = _
  unfold tileIn
  simp only [bigSep_sep']
theorem dn0_eq (d : Dev nD) : (bigSep Finset.univ fun c : Fin ((K (F := F)).nCore 0) => (P m).dn 0 d c)
    = iprop((bigSep Finset.univ fun c : Fin 2 => bigSep Finset.univ fun s : Fin 16 => aLoc d ↦[aSet (wid c s)]{fullShare} A0 m d)
      ∗ (bigSep Finset.univ fun c : Fin 2 => bigSep Finset.univ fun s : Fin 16 => zLoc d ↦{zShare c s} Z0 d)
      ∗ (bigSep Finset.univ fun c : Fin 2 => bigSep Finset.univ fun s : Fin 16 => oLoc d ↦[oSet (wid c s)]{fullShare} G0 m d)) := by
  show (bigSep (Finset.univ : Finset (Fin 2)) fun c => bigSep Finset.univ fun s : Fin 16 => tileOut m d c s) = _
  unfold tileOut
  simp only [bigSep_sep']

abbrev FIN (d : Dev nD) : sProp 𝕄 := iprop((argLoc d ↦{fullShare} m (argLoc d)) ∗ (resLoc d ↦{fullShare} R m d))

end Cert.Proof.Tile

end
-- ==== Proof.TileRows.lean ====
/-
  Sets of output rows: one row carved out of a set, sets joined back; and a row on which frame i's one-hot row has
  landed is row 32 w + i of the flat one-hot, because word 512 i + 128 t + s of the tile is word 512 (32 w + i) + 128 t + s
  of the whole array.
-/
import proofs.«205938_g64501818851839_cont_9to1_m_860_20_alg».proof.Proof.TileView
import proofs.«205938_g64501818851839_cont_9to1_m_860_20_alg».proof.Proof.TileMain

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MM F

variable (m : (ℓ : Loc nD τ sig) → Buf (Elt F) ℓ) (d : Dev nD) (L : grid0.Coords)

theorem mem_rowsWhere {p : Nat → Prop} [DecidablePred p] {j : S1024x32768.Idx} : j ∈ rowsWhere p ↔ p (j 0).val := by
  unfold rowsWhere
  rw [Finset.mem_filter]
  exact ⟨fun h => h.2, fun h => ⟨Finset.mem_univ _, h⟩⟩

theorem row_lt (j : S1024x32768.Idx) : (j 0).val < 1024 := (j 0).isLt

theorem rowsWhere_subset {p q : Nat → Prop} [DecidablePred p] [DecidablePred q] (h : ∀ r, r < 1024 → p r → q r) :
    rowsWhere p ⊆ rowsWhere q := fun j hj => mem_rowsWhere.mpr (h _ (row_lt j) (mem_rowsWhere.mp hj))

theorem rowsWhere_congr {p q : Nat → Prop} [DecidablePred p] [DecidablePred q] (h : ∀ r, r < 1024 → (p r ↔ q r)) :
    rowsWhere p = rowsWhere q :=
  Finset.Subset.antisymm (rowsWhere_subset fun r hr => (h r hr).mp) (rowsWhere_subset fun r hr => (h r hr).mpr)

theorem rowsWhere_sdiff {p q : Nat → Prop} [DecidablePred p] [DecidablePred q] :
    rowsWhere p \ rowsWhere q = rowsWhere (fun r => p r ∧ ¬ q r) := by
  ext j
  rw [Finset.mem_sdiff, mem_rowsWhere, mem_rowsWhere, mem_rowsWhere]

theorem rowsWhere_union {p q : Nat → Prop} [DecidablePred p] [DecidablePred q] :
    rowsWhere p ∪ rowsWhere q = rowsWhere (fun r => p r ∨ q r) := by
  ext j
  rw [Finset.mem_union, mem_rowsWhere, mem_rowsWhere, mem_rowsWhere]

theorem rowsWhere_disjoint {p q : Nat → Prop} [DecidablePred p] [DecidablePred q] (h : ∀ r, r < 1024 → ¬ (p r ∧ q r)) :
    Disjoint (rowsWhere p) (rowsWhere q) :=
  Finset.disjoint_left.mpr fun j hp hq => h _ (row_lt j) ⟨mem_rowsWhere.mp hp, mem_rowsWhere.mp hq⟩

theorem rowsWhere_empty {p : Nat → Prop} [DecidablePred p] (h : ∀ r, r < 1024 → ¬ p r) : rowsWhere p = ∅ :=
  Finset.eq_empty_of_forall_notMem fun j hj => h _ (row_lt j) (mem_rowsWhere.mp hj)

theorem oSet_rows (w : Fin 32) : oSet w = rowsWhere (fun r => 32 * w.val ≤ r ∧ r < 32 * w.val + 32) := by
  rw [oSet_eq]
  ext j
  rw [mem_rowsWhere]
  refine Rect.mem_set_unit.trans ?_
  rw [Fin.forall_fin_two]
  have h0 : S1024x32768.partIx 0 w.val 0 * S1024x32768.partSize 0 32 0 = 32 * w.val := by
    show w.val * (1024 / 32) = 32 * w.val
    omega
  have h0' : S1024x32768.partSize 0 32 0 = 32 := rfl
  have h1 : S1024x32768.partIx 0 w.val 1 * S1024x32768.partSize 0 32 1 = 0 := by
    show 0 * 32768 = 0
    rfl
  have h1' : S1024x32768.partSize 0 32 1 = 32768 := rfl
  have hj1 : (j 1).val < 32768 := (j 1).isLt
  rw [h0, h0', h1, h1']
  omega

theorem rowM_set (off : Fin 2 → Nat) (h : ∀ a, off a + S1x32768.size a ≤ S1024x32768.size a) (h1 : off 1 = 0) :
    (rowM off h).view.set = rowsWhere (fun r => r = off 0) := by
  show (((View.whole (main_v2_scv : Ref sig .scVector)).slice (Rect.unit (s := S1024x32768) off S1x32768.size h)).reshape S32768
    squeezes_S1x32768_S32768.numel_eq).set = _
  rw [View.set_reshape, View.set_slice]
  refine Finset.map_refl.trans ?_
  ext j
  rw [mem_rowsWhere]
  refine Rect.mem_set_unit.trans ?_
  show (∀ a : Fin 2, off a ≤ (j a).val ∧ (j a).val < off a + S1x32768.size a) ↔ (j 0).val = off 0
  rw [Fin.forall_fin_two]
  have s0 : S1x32768.size 0 = 1 := rfl
  have s1 : S1x32768.size 1 = 32768 := rfl
  have hj1 : (j 1).val < 32768 := (j 1).isLt
  rw [s0, s1, h1]
  omega

theorem row_carve (p : Nat → Prop) [DecidablePred p] (off : Fin 2 → Nat) (h : ∀ a, off a + S1x32768.size a ≤ S1024x32768.size a)
    (h1 : off 1 = 0) (hp : p (off 0)) (f : Buf (Elt F) (oLoc d)) :
    (oLoc d ↦[rowsWhere p]{fullShare} f : sProp 𝕄)
      ⊢ iprop(((rowM off h).view.loc (V d (cV L) (jV L)) ↦[(rowM off h).view.set]{fullShare} f)
        ∗ (oLoc d ↦[rowsWhere (fun r => p r ∧ r ≠ off 0)]{fullShare} f)) := by
  show _ ⊢ iprop((oLoc d ↦[(rowM off h).view.set]{fullShare} f) ∗ _)
  rw [rowM_set off h h1]
  have hsub : rowsWhere (fun r => r = off 0) ⊆ rowsWhere p := rowsWhere_subset fun r _ hr => hr ▸ hp
  refine (pointsTo_split_subset hsub).1.trans (Entails.of_eq ?_)
  rw [rowsWhere_sdiff, rowsWhere_congr (q := fun r => p r ∧ r ≠ off 0) fun r _ => Iff.rfl]

theorem squeeze_ix1 (c : Fin 32768) :
    Shape.reshapeEquiv squeezes_S1x32768_S32768.numel_eq (ix1 c) = ix2 (⟨0, Nat.one_pos⟩ : Fin 1) c :=
  Shape.reshapeEquiv_eq_of_rowMajor _ (by
    rw [Shape.rowMajor_val_two, Shape.rowMajor_val_one]
    show 0 * 32768 + c.val = c.val
    rw [Nat.zero_mul, Nat.zero_add])

theorem rowM_emb (off : Fin 2 → Nat) (h : ∀ a, off a + S1x32768.size a ≤ S1024x32768.size a) (h1 : off 1 = 0)
    (j : S1024x32768.Idx) (hj : (j 0).val = off 0) : (rowM off h).view.emb (ix1 (j 1)) = j := by
  show (Rect.unit (s := S1024x32768) off S1x32768.size h).emb (Shape.reshapeEquiv squeezes_S1x32768_S32768.numel_eq (ix1 (j 1))) = j
  refine (congrArg (Rect.unit (s := S1024x32768) off S1x32768.size h).emb (squeeze_ix1 (j 1))).trans ?_
  funext a
  refine Fin.ext ?_
  rw [Rect.emb_apply]
  match a with
  | ⟨0, _⟩ =>
    show off 0 + 1 * 0 = (j 0).val
    omega
  | ⟨1, _⟩ =>
    show off 1 + 1 * (j 1).val = (j 1).val
    omega

theorem At_word (i : Fin 32) (t : Fin 4) (s : Fin 128) (r : Fin 1024) (hr : r.val = 32 * (wL L).val + i.val) :
    At m d L (ix1 (⟨512 * i.val + 128 * t.val + s.val, by omega⟩ : Fin 16384))
      = A0 m d (ix1 (⟨512 * r.val + 128 * t.val + s.val, by omega⟩ : Fin 524288)) := by
  unfold At
  congr 1
  funext a
  match a with
  | ⟨0, _⟩ =>
    refine Fin.ext ?_
    show k0_off1 L 0 + 1 * (512 * i.val + 128 * t.val + s.val) = 512 * r.val + 128 * t.val + s.val
    rw [k0_off1_eq L]
    show 32768 * (L 1).val + 16384 * (L 0).val + 1 * (512 * i.val + 128 * t.val + s.val) = 512 * r.val + 128 * t.val + s.val
    have hw : (wL L).val = 2 * (L 1).val + (L 0).val := rfl
    omega

variable [FloatOps F]

open Classical in
theorem rowF_is_G0 (i : Fin 32) (j : S1024x32768.Idx) (hj : (j 0).val = 32 * (wL L).val + i.val) :
    Cert.Put.rowF (F := F) (At m d L) i (ValueIdx.ix1 (j 1)) = G0 m d j := by
  have hiff : Cert.Put.HitRow (At m d L) i (j 1).val ↔ Hit0 m d (j 0) (j 1) := by
    unfold Cert.Put.HitRow Hit0
    constructor
    · rintro ⟨t, s, e⟩
      exact ⟨t, s, by rw [← At_word m d L i t s (j 0) hj]; exact e⟩
    · rintro ⟨t, s, e⟩
      exact ⟨t, s, by rw [At_word m d L i t s (j 0) hj]; exact e⟩
  show (if Cert.Put.HitRow (At m d L) i (j 1).val then Cert.Put.oneW else Cert.Put.zeroW) = (if Hit0 m d (j 0) (j 1) then oneW else zeroW)
  by_cases hh : Hit0 m d (j 0) (j 1)
  · rw [if_pos hh, if_pos (hiff.mpr hh)]
  · rw [if_neg hh, if_neg (mt hiff.mp hh)]

theorem landed_writes (off : Fin 2 → Nat) (h : ∀ a, off a + S1x32768.size a ≤ S1024x32768.size a) (h1 : off 1 = 0)
    (fo : Buf (Elt F) (oLoc d)) (X : Buf (Elt F) (sB0.view.loc (V d (cV L) (jV L))))
    (j : S1024x32768.Idx) (hj : (j 0).val = off 0) :
    ((rowM off h).view.writes (Elt F) fo
        [⟨Rect.whole S32768, ReadAs.same.apply (sB0.view.read (Elt F) X)⟩]) j
      = X (ValueIdx.ix1 (j 1)) := by
  have hw := View.write_emb_of_mem (v := (rowM off h).view.slice (Rect.whole S32768)) (Val := Elt F) fo
    (ReadAs.same.apply (sB0.view.read (Elt F) X)) (M := Finset.univ) (x := ix1 (j 1)) (Finset.mem_univ _)
  have he : ((rowM off h).view.slice (Rect.whole S32768)).emb (ix1 (j 1)) = j :=
    (congrArg (rowM off h).view.emb (Rect.emb_whole_apply S32768 (ix1 (j 1)))).trans (rowM_emb off h h1 j hj)
  rw [he] at hw
  exact hw.trans rfl

theorem landed_writes' (off : Fin 2 → Nat) (h : ∀ a, off a + S1x32768.size a ≤ S1024x32768.size a) (h1 : off 1 = 0)
    (fo : Buf (Elt F) (oLoc d)) (X : Buf (Elt F) (sB1.view.loc (V d (cV L) (jV L))))
    (j : S1024x32768.Idx) (hj : (j 0).val = off 0) :
    ((rowM off h).view.writes (Elt F) fo
        [⟨Rect.whole S32768, ReadAs.same.apply (sB1.view.read (Elt F) X)⟩]) j
      = X (ValueIdx.ix1 (j 1)) := by
  have hw := View.write_emb_of_mem (v := (rowM off h).view.slice (Rect.whole S32768)) (Val := Elt F) fo
    (ReadAs.same.apply (sB1.view.read (Elt F) X)) (M := Finset.univ) (x := ix1 (j 1)) (Finset.mem_univ _)
  have he : ((rowM off h).view.slice (Rect.whole S32768)).emb (ix1 (j 1)) = j :=
    (congrArg (rowM off h).view.emb (Rect.emb_whole_apply S32768 (ix1 (j 1)))).trans (rowM_emb off h h1 j hj)
  rw [he] at hw
  exact hw.trans rfl

theorem row_lands (off : Fin 2 → Nat) (h : ∀ a, off a + S1x32768.size a ≤ S1024x32768.size a) (h1 : off 1 = 0)
    (i : Fin 32) (hoff : off 0 = 32 * (wL L).val + i.val) (fo : Buf (Elt F) (oLoc d)) :
    ((rowM off h).view.loc (V d (cV L) (jV L)) ↦[(rowM off h).view.set]{fullShare}
        (rowM off h).view.writes (Elt F) fo
          [⟨Rect.whole S32768, ReadAs.same.apply (sB0.view.read (Elt F) (Cert.Put.rowF (At m d L) i))⟩] : sProp 𝕄)
      ⊢ (oLoc d ↦[rowsWhere (fun r => r = off 0)]{fullShare} G0 m d) := by
  show (oLoc d ↦[(rowM off h).view.set]{fullShare} _ : sProp 𝕄) ⊢ _
  rw [rowM_set off h h1]
  refine Entails.of_eq (pointsTo_congr fun j hj => ?_)
  have hj0 : (j 0).val = off 0 := mem_rowsWhere.mp hj
  exact (landed_writes (F := F) d L off h h1 fo (Cert.Put.rowF (At m d L) i) j hj0).trans (rowF_is_G0 m d L i j (hj0.trans hoff))

theorem row_lands' (off : Fin 2 → Nat) (h : ∀ a, off a + S1x32768.size a ≤ S1024x32768.size a) (h1 : off 1 = 0)
    (i : Fin 32) (hoff : off 0 = 32 * (wL L).val + i.val) (fo : Buf (Elt F) (oLoc d)) :
    ((rowM off h).view.loc (V d (cV L) (jV L)) ↦[(rowM off h).view.set]{fullShare}
        (rowM off h).view.writes (Elt F) fo
          [⟨Rect.whole S32768, ReadAs.same.apply (sB1.view.read (Elt F) (Cert.Put.rowF (At m d L) i))⟩] : sProp 𝕄)
      ⊢ (oLoc d ↦[rowsWhere (fun r => r = off 0)]{fullShare} G0 m d) := by
  show (oLoc d ↦[(rowM off h).view.set]{fullShare} _ : sProp 𝕄) ⊢ _
  rw [rowM_set off h h1]
  refine Entails.of_eq (pointsTo_congr fun j hj => ?_)
  have hj0 : (j 0).val = off 0 := mem_rowsWhere.mp hj
  exact (landed_writes' (F := F) d L off h h1 fo (Cert.Put.rowF (At m d L) i) j hj0).trans (rowF_is_G0 m d L i j (hj0.trans hoff))

theorem rows_join {p q : Nat → Prop} [DecidablePred p] [DecidablePred q] (hd : ∀ r, r < 1024 → ¬ (p r ∧ q r))
    (f : Buf (Elt F) (oLoc d)) :
    iprop((oLoc d ↦[rowsWhere p]{fullShare} f) ∗ (oLoc d ↦[rowsWhere q]{fullShare} f))
      ⊢ (oLoc d ↦[rowsWhere (fun r => p r ∨ q r)]{fullShare} f : sProp 𝕄) := by
  refine (pointsTo_union (rowsWhere_disjoint hd)).2.trans (Entails.of_eq ?_)
  rw [rowsWhere_union]

theorem rows_congr {p q : Nat → Prop} [DecidablePred p] [DecidablePred q] (h : ∀ r, r < 1024 → (p r ↔ q r))
    (f : Buf (Elt F) (oLoc d)) :
    (oLoc d ↦[rowsWhere p]{fullShare} f : sProp 𝕄) ⊢ (oLoc d ↦[rowsWhere q]{fullShare} f) :=
  Entails.of_eq (by rw [rowsWhere_congr h])

theorem rows_none_intro {p : Nat → Prop} [DecidablePred p] (h : ∀ r, r < 1024 → ¬ p r) (f : Buf (Elt F) (oLoc d)) :
    (emp : sProp 𝕄) ⊢ (oLoc d ↦[rowsWhere p]{fullShare} f) :=
  Entails.of_eq (by rw [rowsWhere_empty h, pointsTo_empty])

end Cert.Proof.Tile

end
-- ==== Proof.TileInv.lean ====
/-
  After k trips: rows [32 w, 32 w + 2 k) hold the flat one-hot, rows from 32 w + 2 k + 2 on are untouched, and the two
  row scratches are on their way to rows 32 w + 2 k and 32 w + 2 k + 1, each holding that frame's one-hot row.
-/
import proofs.«205938_g64501818851839_cont_9to1_m_860_20_alg».proof.Proof.TileFrames
import proofs.«205938_g64501818851839_cont_9to1_m_860_20_alg».proof.Proof.TileRows

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MM F

variable (m : (ℓ : Loc nD τ sig) → Buf (Elt F) ℓ)
variable (d : Dev nD) (L : grid0.Coords)

def frN (n : Nat) : Fin 32 := ⟨n % 32, Nat.mod_lt _ (by decide)⟩
theorem frN_of_lt {n : Nat} (h : n < 32) : frN n = ⟨n, h⟩ := Fin.ext (Nat.mod_eq_of_lt h)

variable [FloatOps F]

def fly0 (r : Nat) (i : Fin 32) : sProp 𝕄 :=
  Transfers.Flight (countersEmb (U := UU)) (V d (cV L) (jV L)) (SemLoc.dma (⟨0, by decide⟩ : DmaSem sig)) (default : HIx 1) 1048576
    iprop((oLoc d ↦[rowsWhere (fun x => x = r)]{fullShare} G0 m d)
      ∗ (sB0.view.loc (V d (cV L) (jV L)) ↦[sB0.view.set]{fullShare} Cert.Put.rowF (At m d L) i))
def fly1 (r : Nat) (i : Fin 32) : sProp 𝕄 :=
  Transfers.Flight (countersEmb (U := UU)) (V d (cV L) (jV L)) (SemLoc.dma (⟨1, by decide⟩ : DmaSem sig)) (default : HIx 1) 1048576
    iprop((oLoc d ↦[rowsWhere (fun x => x = r)]{fullShare} G0 m d)
      ∗ (sB1.view.loc (V d (cV L) (jV L)) ↦[sB1.view.set]{fullShare} Cert.Put.rowF (At m d L) i))

abbrev rest0 (i : Fin 32) : sProp 𝕄 :=
  sB0.view.loc (V d (cV L) (jV L)) ↦[Finset.univ \ sB0.view.set]{fullShare} Cert.Put.rowF (At m d L) i
abbrev rest1 (i : Fin 32) : sProp 𝕄 :=
  sB1.view.loc (V d (cV L) (jV L)) ↦[Finset.univ \ sB1.view.set]{fullShare} Cert.Put.rowF (At m d L) i

def loopInv (O : CellTallies nD τ sig (HIx 1)) (W : Waits sig (HIx 1)) (k : Nat) (_ : PUnit) : sProp 𝕄 :=
  iprop(Transfers.MayWaits (V d (cV L) (jV L)) (none : HIx 1) O
    ∗ (sA.view.loc (V d (cV L) (jV L)) ↦{fullShare} At m d L)
    ∗ ((aSl L).view.loc (V d (cV L) (jV L)) ↦[(aSl L).view.set]{fullShare} A0 m d)
    ∗ (zV.view.loc (V d (cV L) (jV L)) ↦{(zShare (cF L) (sF L)).left} Z0 d)
    ∗ (zV.view.loc (V d (cV L) (jV L)) ↦{(zShare (cF L) (sF L)).right} Z0 d)
    ∗ semVal (V d (cV L) (jV L), SemLoc.dma cc0_scratch5.sem) 0
    ∗ (oLoc d ↦[rowsWhere (fun r => 32 * (wL L).val ≤ r ∧ r < 32 * (wL L).val + 2 * k)]{fullShare} G0 m d)
    ∗ (oLoc d ↦[rowsWhere (fun r => 32 * (wL L).val + 2 * k + 2 ≤ r ∧ r < 32 * (wL L).val + 32)]{fullShare} m (oLoc d))
    ∗ fly0 m d L (32 * (wL L).val + 2 * k) (frN (2 * k)) ∗ rest0 m d L (frN (2 * k))
    ∗ fly1 m d L (32 * (wL L).val + 2 * k + 1) (frN (2 * k + 1)) ∗ rest1 m d L (frN (2 * k + 1))
    ∗ ∃ W', ⌜∀ p ∈ W', p ∈ W ∨ p.2 = none⌝ ∗ owes (V d (cV L) (jV L)) O W')

end Cert.Proof.Tile

end
-- ==== Proof.TileFly.lean ====
/-
  A row scratch that holds frame i's one-hot row and is sent to row 32 w + i delivers that row of the flat one-hot.
-/
import proofs.«205938_g64501818851839_cont_9to1_m_860_20_alg».proof.Proof.TileInv

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MM F

variable (m : (ℓ : Loc nD τ sig) → Buf (Elt F) ℓ)
variable (d : Dev nD) (L : grid0.Coords)

theorem wL_val : (wL L).val = 2 * (L 1).val + (L 0).val := rfl

variable [FloatOps F]

theorem fly0_of (off : Fin 2 → Nat) (h : ∀ a, off a + S1x32768.size a ≤ S1024x32768.size a) (h1 : off 1 = 0) (i : Fin 32)
    (hoff : off 0 = 32 * (wL L).val + i.val) (fo : Buf (Elt F) (oLoc d)) :
    (Transfers.Flight (countersEmb (U := UU)) (V d (cV L) (jV L)) (SemLoc.dma (⟨0, by decide⟩ : DmaSem sig)) (default : HIx 1) 1048576
      iprop(((rowM off h).view.loc (V d (cV L) (jV L)) ↦[(rowM off h).view.set]{fullShare}
            (rowM off h).view.writes (Elt F) fo [⟨Rect.whole S32768, ReadAs.same.apply (sB0.view.read (Elt F) (Cert.Put.rowF (At m d L) i))⟩])
        ∗ (sB0.view.loc (V d (cV L) (jV L)) ↦[sB0.view.set]{fullShare} Cert.Put.rowF (At m d L) i)) : sProp 𝕄)
      ⊢ fly0 m d L (off 0) i :=
  Transfers.Flight_mono _ _ (sep_mono_left (row_lands m d L off h h1 i hoff fo))

theorem fly1_of (off : Fin 2 → Nat) (h : ∀ a, off a + S1x32768.size a ≤ S1024x32768.size a) (h1 : off 1 = 0) (i : Fin 32)
    (hoff : off 0 = 32 * (wL L).val + i.val) (fo : Buf (Elt F) (oLoc d)) :
    (Transfers.Flight (countersEmb (U := UU)) (V d (cV L) (jV L)) (SemLoc.dma (⟨1, by decide⟩ : DmaSem sig)) (default : HIx 1) 1048576
      iprop(((rowM off h).view.loc (V d (cV L) (jV L)) ↦[(rowM off h).view.set]{fullShare}
            (rowM off h).view.writes (Elt F) fo [⟨Rect.whole S32768, ReadAs.same.apply (sB1.view.read (Elt F) (Cert.Put.rowF (At m d L) i))⟩])
        ∗ (sB1.view.loc (V d (cV L) (jV L)) ↦[sB1.view.set]{fullShare} Cert.Put.rowF (At m d L) i)) : sProp 𝕄)
      ⊢ fly1 m d L (off 0) i :=
  Transfers.Flight_mono _ _ (sep_mono_left (row_lands' m d L off h h1 i hoff fo))

end Cert.Proof.Tile

end
-- ==== Proof.KITrip.lean ====
/-
  One trip keeps the invariant: the two pending rows land, each row scratch is cleared of its old frame and set to the
  frame two further on, and is sent to its next row.
-/
import proofs.«205938_g64501818851839_cont_9to1_m_860_20_alg».proof.Proof.TileFly
import proofs.«205938_g64501818851839_cont_9to1_m_860_20_alg».proof.Proof.Gen.KernelIdeal
import proofs.«205938_g64501818851839_cont_9to1_m_860_20_alg».proof.Proof.Gen.KernelIdeal.Skeleton

noncomputable section

namespace Cert.Proof.KI

open Cert.KernelIdeal Cert.KernelIdeal.Gen
open Cert.Proof.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MM F

set_option pp.maxSteps 6000
set_option pp.deepTerms false
variable (m : (ℓ : Loc nD τ sig) → Buf (Elt F) ℓ)
variable (d : Dev nD) (L : grid0.Coords)

theorem off69_one (k : Fin k0_t1_loop.trips) : (k0_off69 L k) 1 = 0 := by rw [k0_off69_eq]; rfl
theorem off69_zero (k : Fin k0_t1_loop.trips) : (k0_off69 L k) 0 = 32 * (wL L).val + (fr2 k).val := by
  rw [k0_off69_eq, wL_val]; show 64 * (L 1).val + 32 * (L 0).val + 2 * k.val + 2 = 32 * (2 * (L 1).val + (L 0).val) + (2 * k.val + 2); omega
theorem off135_one (k : Fin k0_t1_loop.trips) : (k0_off135 L k) 1 = 0 := by rw [k0_off135_eq]; rfl
theorem off135_zero (k : Fin k0_t1_loop.trips) : (k0_off135 L k) 0 = 32 * (wL L).val + (fr3 k).val := by
  rw [k0_off135_eq, wL_val]; show 64 * (L 1).val + 32 * (L 0).val + 2 * k.val + 3 = 32 * (2 * (L 1).val + (L 0).val) + (2 * k.val + 3); omega

variable [FloatOps F]

theorem done_step (k : Nat) (f : Buf (Elt F) (oLoc d)) :
    iprop((oLoc d ↦[rowsWhere fun r => 32 * (wL L).val ≤ r ∧ r < 32 * (wL L).val + 2 * k]{fullShare} f)
        ∗ (oLoc d ↦[rowsWhere fun x => x = 32 * (wL L).val + 2 * k]{fullShare} f)
        ∗ (oLoc d ↦[rowsWhere fun x => x = 32 * (wL L).val + 2 * k + 1]{fullShare} f))
      ⊢ (oLoc d ↦[rowsWhere fun r => 32 * (wL L).val ≤ r ∧ r < 32 * (wL L).val + 2 * (k + 1)]{fullShare} f : sProp 𝕄) := by
  refine (sep_mono_right (rows_join (F := F) d (p := fun x => x = 32 * (wL L).val + 2 * k) (q := fun x => x = 32 * (wL L).val + 2 * k + 1)
    (by intro r _; (try dsimp only); omega) f)).trans ?_
  refine (rows_join (F := F) d (p := fun r => 32 * (wL L).val ≤ r ∧ r < 32 * (wL L).val + 2 * k)
    (q := fun r => r = 32 * (wL L).val + 2 * k ∨ r = 32 * (wL L).val + 2 * k + 1) (by intro r _; (try dsimp only); omega) f).trans ?_
  exact rows_congr (F := F) d (by intro r _; (try dsimp only); omega) f

theorem todo_step (k a b : Nat) (ha : a = 32 * (wL L).val + 2 * (k + 1)) (hb : b = 32 * (wL L).val + 2 * (k + 1) + 1) (f : Buf (Elt F) (oLoc d)) :
    (oLoc d ↦[rowsWhere fun r => ((32 * (wL L).val + 2 * k + 2 ≤ r ∧ r < 32 * (wL L).val + 32) ∧ r ≠ a) ∧ r ≠ b]{fullShare} f : sProp 𝕄)
      ⊢ (oLoc d ↦[rowsWhere fun r => 32 * (wL L).val + 2 * (k + 1) + 2 ≤ r ∧ r < 32 * (wL L).val + 32]{fullShare} f) :=
  rows_congr (F := F) d (by intro r _; (try dsimp only); omega) f

omit [FloatOps F] in
theorem waits_step (W W' : Waits sig (HIx 1)) (hW' : ∀ p ∈ W', p ∈ W ∨ p.2 = none) (s0 s1 : SemLoc sig) :
    ∀ p ∈ insert (s1, (default : HIx 1)) (insert (s0, (default : HIx 1)) W'), p ∈ W ∨ p.2 = none := by
  intro p hp
  rcases Finset.mem_insert.mp hp with hp | hp
  · exact .inr (by rw [hp]; rfl)
  rcases Finset.mem_insert.mp hp with hp | hp
  · exact .inr (by rw [hp]; rfl)
  · exact hW' p hp

set_option maxHeartbeats 64000000 in
theorem trip (hA : ∀ i, ((A0 m d) i).toNat ≤ 63) (O : CellTallies nD τ sig (HIx 1)) (W : Waits sig (HIx 1))
    (v2 : BitVec 32) (k : Fin k0_t1_loop.trips) (acc : PUnit) :
    loopInv m d L O W k.val acc
      ⊢ wp frame (wpE (defs₀ (F := F)) 𝒱₀ (V d (cV L) (jV L)) none) Set.univ
          (k0_t1_body L aV (Memref.isWhole_whole _) zV (Memref.isWhole_whole _) oV (Memref.isWhole_whole _)
            sA (Memref.isWhole_whole _) sB0 (Memref.isWhole_whole _) sB1 (Memref.isWhole_whole _) cc0_scratch3 cc0_scratch4 cc0_scratch5
            v2 k0_pay130 k0_pay131 k0_pay132 k acc)
          (loopInv m d L O W (k.val + 1)) := by
  unfold loopInv
  iintro ⟨#Hmw, HA, Ha', Hz1', Hz2', Hm2, Hdone, Htodo, Hm0, HB0, Hm1, HB1, %W', %hW', HO⟩
  unfold fly0 fly1
  have hAt' := hAt m d L hA
  have hk := trip_lt k
  unfold k0_t1_body
  ihave Hc := (row_carve (F := F) d L _ (k0_off69 L k) (k0_off69_inb L k) (off69_one L k) (by rw [off69_zero]; have h2 : (fr2 k).val = 2 * k.val + 2 := rfl; unfold wL; omega) _) $$ Htodo
  icases Hc with ⟨Hrow2, Htodo⟩
  ihave Hc := (row_carve (F := F) d L _ (k0_off135 L k) (k0_off135_inb L k) (off135_one L k) (by rw [off135_zero, off69_zero]; have h2 : (fr2 k).val = 2 * k.val + 2 := rfl; have h3 : (fr3 k).val = 2 * k.val + 3 := rfl; unfold wL; omega) _) $$ Htodo
  icases Hc with ⟨Hrow3, Htodo⟩
  sl_exec (disch := exact chk_core d L (At m d L) hAt' _ _ _ (by decide))
  ihave HB0 := (pts_fun (nil_sB0 (F := F) d L zeroW _)) $$ HB0
  iterate 32 (
    try (sl_exec (disch := exact chk_core d L (At m d L) hAt' _ _ _ (by decide)))
    rw [SparseCore.vectorStoreIdx_bind (V d (cV L) (jV L))]
    set_option sl_exec.maxSteps 2 in sl_exec
    ihave HB0 := (pts_fun (stepA_sB0 (F := F) d L (At m d L) _ _ _ _ _ _ _)) $$ HB0)
  ihave HB0 := (pts_fun (ℓ := sB0.view.loc (V d (cV L) (jV L))) (g := Cert.Put.zeroRow) ?e) $$ HB0
  case e =>
    rw [frN_of_lt (n := 2 * k.val) (by omega)]
    refine Cert.Put.put_zeros_of iota_S16_d0_w32_scVector _ hAt' (fr0 k) ?_
    iterate 32 (refine Cert.Put.upTo_cons _ ClosedOff.eq ?_ rfl ?_; exact Cert.Put.off_loop k.val 0 _ _ rfl rfl)
    rfl
  ihave HB0 := (pts_fun (nil_sB0 (F := F) d L oneW _)) $$ HB0
  iterate 32 (
    try (sl_exec (disch := exact chk_core d L (At m d L) hAt' _ _ _ (by decide)))
    rw [SparseCore.vectorStoreIdx_bind (V d (cV L) (jV L))]
    set_option sl_exec.maxSteps 2 in sl_exec
    ihave HB0 := (pts_fun (stepA_sB0 (F := F) d L (At m d L) _ _ _ _ _ _ _)) $$ HB0)
  ihave HB0 := (pts_fun (ℓ := sB0.view.loc (V d (cV L) (jV L))) (g := Cert.Put.rowF (At m d L) (fr2 k)) ?e) $$ HB0
  case e =>
    refine Cert.Put.put_ones_of iota_S16_d0_w32_scVector _ hAt' (fr2 k) ?_
    iterate 32 (refine Cert.Put.upTo_cons _ ClosedOff.eq ?_ rfl ?_; exact Cert.Put.off_loop k.val 2 _ _ rfl rfl)
    rfl
  sl_exec (disch := exact chk_core d L (At m d L) hAt' _ _ _ (by decide))
  ihave HB1 := (pts_fun (nil_sB1 (F := F) d L zeroW _)) $$ HB1
  iterate 32 (
    try (sl_exec (disch := exact chk_core d L (At m d L) hAt' _ _ _ (by decide)))
    rw [SparseCore.vectorStoreIdx_bind (V d (cV L) (jV L))]
    set_option sl_exec.maxSteps 2 in sl_exec
    ihave HB1 := (pts_fun (stepA_sB1 (F := F) d L (At m d L) _ _ _ _ _ _ _)) $$ HB1)
  ihave HB1 := (pts_fun (ℓ := sB1.view.loc (V d (cV L) (jV L))) (g := Cert.Put.zeroRow) ?e) $$ HB1
  case e =>
    rw [frN_of_lt (n := 2 * k.val + 1) (by omega)]
    refine Cert.Put.put_zeros_of iota_S16_d0_w32_scVector _ hAt' (fr1 k) ?_
    iterate 32 (refine Cert.Put.upTo_cons _ ClosedOff.eq ?_ rfl ?_; exact Cert.Put.off_loop k.val 1 _ _ rfl rfl)
    rfl
  ihave HB1 := (pts_fun (nil_sB1 (F := F) d L oneW _)) $$ HB1
  iterate 32 (
    try (sl_exec (disch := exact chk_core d L (At m d L) hAt' _ _ _ (by decide)))
    rw [SparseCore.vectorStoreIdx_bind (V d (cV L) (jV L))]
    set_option sl_exec.maxSteps 2 in sl_exec
    ihave HB1 := (pts_fun (stepA_sB1 (F := F) d L (At m d L) _ _ _ _ _ _ _)) $$ HB1)
  ihave HB1 := (pts_fun (ℓ := sB1.view.loc (V d (cV L) (jV L))) (g := Cert.Put.rowF (At m d L) (fr3 k)) ?e) $$ HB1
  case e =>
    refine Cert.Put.put_ones_of iota_S16_d0_w32_scVector _ hAt' (fr3 k) ?_
    iterate 32 (refine Cert.Put.upTo_cons _ ClosedOff.eq ?_ rfl ?_; exact Cert.Put.off_loop k.val 3 _ _ rfl rfl)
    rfl
  sl_exec
  sl_unfold_run_names
  ihave Hm0 := (fly0_of m d L (k0_off69 L k) (k0_off69_inb L k) (off69_one L k) (fr2 k) (off69_zero L k) _) $$ Hm0
  ihave Hm1 := (fly1_of m d L (k0_off135 L k) (k0_off135_inb L k) (off135_one L k) (fr3 k) (off135_zero L k) _) $$ Hm1
  have h2 : (fr2 k).val = 2 * k.val + 2 := rfl
  have h3 : (fr3 k).val = 2 * k.val + 3 := rfl
  have e0 : (k0_off69 L k) 0 = 32 * (wL L).val + 2 * (k.val + 1) := by rw [off69_zero]; omega
  have e1 : (k0_off135 L k) 0 = 32 * (wL L).val + 2 * (k.val + 1) + 1 := by rw [off135_zero]; omega
  have f2 : fr2 k = frN (2 * (k.val + 1)) := Fin.ext (by show 2 * k.val + 2 = (2 * (k.val + 1)) % 32; omega)
  have f3 : fr3 k = frN (2 * (k.val + 1) + 1) := Fin.ext (by show 2 * k.val + 3 = (2 * (k.val + 1) + 1) % 32; omega)
  ihave Hm0 := (Entails.of_eq (show fly0 m d L ((k0_off69 L k) 0) (fr2 k) = fly0 m d L (32 * (wL L).val + 2 * (k.val + 1)) (frN (2 * (k.val + 1))) from by rw [e0, f2])) $$ Hm0
  ihave Hm1 := (Entails.of_eq (show fly1 m d L ((k0_off135 L k) 0) (fr3 k) = fly1 m d L (32 * (wL L).val + 2 * (k.val + 1) + 1) (frN (2 * (k.val + 1) + 1)) from by rw [e1, f3])) $$ Hm1
  ihave HB0 := (pts_funS (ℓ := sB0.view.loc (V d (cV L) (jV L))) (congrArg (Cert.Put.rowF (F := F) (At m d L)) f2)) $$ HB0
  ihave HB1 := (pts_funS (ℓ := sB1.view.loc (V d (cV L) (jV L))) (congrArg (Cert.Put.rowF (F := F) (At m d L)) f3)) $$ HB1
  ihave Hd := (done_step (F := F) d L k.val (G0 m d)) $$ [Hdone Hm0_dst Hm1_dst]
  · isplitl [Hdone]; · iexact Hdone
    isplitl [Hm0_dst]; · iexact Hm0_dst
    iexact Hm1_dst
  ihave Htodo := (todo_step (F := F) d L k.val _ _ e0 e1 (m (oLoc d))) $$ Htodo
  unfold fly0 fly1
  sl_step
  isplitr; · iexact Hmw
  isplitl [HA]; · iexact HA
  isplitl [Ha']; · iexact Ha'
  isplitl [Hz1']; · iexact Hz1'
  isplitl [Hz2']; · iexact Hz2'
  isplitl [Hm2]; · iexact Hm2
  isplitl [Hd]; · iexact Hd
  isplitl [Htodo]; · iexact Htodo
  isplitl [Hm0]; · iexact Hm0
  isplitl [HB0]; · iexact HB0
  isplitl [Hm1]; · iexact Hm1
  isplitl [HB1]; · iexact HB1
  iexists _; isplitr
  · ipureintro; exact waits_step W W' hW' (SemLoc.dma (⟨0, by decide⟩ : DmaSem sig)) (SemLoc.dma (⟨1, by decide⟩ : DmaSem sig))
  · iexact HO

end Cert.Proof.KI

end
-- ==== Proof.KIBody.lean ====
/-
  A tile's whole task: the three fetches, frames 0 and 1, the fifteen trips, and the last two rows.
-/
import proofs.«205938_g64501818851839_cont_9to1_m_860_20_alg».proof.Proof.KITrip

noncomputable section

namespace Cert.Proof.KI

open Cert.KernelIdeal Cert.KernelIdeal.Gen
open Cert.Proof.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MM F

variable (m : (ℓ : Loc nD τ sig) → Buf (Elt F) ℓ)
variable (d : Dev nD) (L : grid0.Coords)
variable [FloatOps F]

theorem off3_eq1 : ∀ i : grid0.Coords, k0_off3 i 1#32 = ![64 * (i 1).val + 32 * (i 0).val + 1, 0] := by decide +kernel
theorem off2_one : (k0_off2 L) 1 = 0 := by rw [k0_off2_eq]; rfl
theorem off2_zero : (k0_off2 L) 0 = 32 * (wL L).val + 0 := by rw [k0_off2_eq, wL_val]; show 64 * (L 1).val + 32 * (L 0).val = _; omega
theorem off3_one : (k0_off3 L 1#32) 1 = 0 := by rw [off3_eq1]; rfl
theorem off3_zero : (k0_off3 L 1#32) 0 = 32 * (wL L).val + 1 := by rw [off3_eq1, wL_val]; show 64 * (L 1).val + 32 * (L 0).val + 1 = _; omega

set_option maxHeartbeats 64000000 in
theorem tile_body (hF : (K (F := F)).Facts) (hA : ∀ i, ((A0 m d) i).toNat ≤ 63)
    (O : CellTallies nD τ sig (HIx 1)) (W : Waits sig (HIx 1)) (hO : ∀ g, O g none = 0) :
    (iprop(levAts (K (F := F)).L (K (F := F)).lev ∗ emp ∗ tileIn m d (cF L) (sF L)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_body L aV (Memref.isWhole_whole _) zV (Memref.isWhole_whole _) oV (Memref.isWhole_whole _)
            sA (Memref.isWhole_whole _) sB0 (Memref.isWhole_whole _) sB1 (Memref.isWhole_whole _) cc0_scratch3 cc0_scratch4 cc0_scratch5)
          fun _ => iprop(tileOut m d (cF L) (sF L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  unfold tileIn tileOut
  rw [oSet_rows]
  iintro ⟨#Hlv, -, ⟨Ha, Hz, Ho⟩, ⟨⟨%f0, Hs0⟩, ⟨%f1, Hs1⟩, ⟨%f2, Hs2⟩, Hbufs⟩, ⟨Hm0, Hm1, Hm2, Hsems⟩, HO⟩
  ihave Hmw := ((K (F := F)).mayWaits_none (thr := V d (cV L) (jV L)) hO) $$ Hlv
  ihave Ha' := (Entails.of_eq (pts_aSl (F := F) d L _).symm) $$ Ha
  ihave Hzz := (pointsTo_share (PosShare.mem_left_op_right (zShare (cF L) (sF L)))).1 $$ Hz
  icases Hzz with ⟨Hz1, Hz2⟩
  ihave Hz1' := (Entails.of_eq (pts_z (F := F) d L _ _).symm) $$ Hz1
  ihave Hz2' := (Entails.of_eq (pts_z (F := F) d L _ _).symm) $$ Hz2
  ihave Hs0' := (Entails.of_eq (pts_sA (F := F) d L _).symm) $$ Hs0
  ihave Hs1' := (Entails.of_eq (pts_sB0 (F := F) d L _).symm) $$ Hs1
  ihave Hs2' := (Entails.of_eq (pts_sB1 (F := F) d L _).symm) $$ Hs2
  set_option sl_exec.maxSteps 8 in sl_exec
  ihave HA := (pts_fun (sA_landed m d L f0)) $$ Hs0'
  ihave HB0 := (pts_fun (landedZ_sB0 (F := F) d L f1)) $$ Hs1'
  ihave HB1 := (pts_fun (landedZ_sB1 (F := F) d L f2)) $$ Hs2'
  have hAt' := hAt m d L hA
  ihave HB0 := (pts_fun (nil_sB0 (F := F) d L oneW _)) $$ HB0
  iterate 32 (
    sl_exec (disch := exact chk_core d L (At m d L) hAt' _ _ _ (by decide))
    rw [SparseCore.vectorStoreIdx_bind (V d (cV L) (jV L))]
    set_option sl_exec.maxSteps 2 in sl_exec
    ihave HB0 := (pts_fun (stepA_sB0 (F := F) d L (At m d L) _ _ _ _ _ _ _)) $$ HB0)
  ihave HB0 := (pts_fun (ℓ := sB0.view.loc (V d (cV L) (jV L))) (g := Cert.Put.rowF (At m d L) 0) ?e) $$ HB0
  case e =>
    refine Cert.Put.put_ones_of iota_S16_d0_w32_scVector _ hAt' 0 ?_
    iterate 32 refine Cert.Put.upTo_cons _ rfl rfl rfl ?_
    rfl
  ihave Hoo := (row_carve (F := F) d L _ (k0_off2 L) (k0_off2_inb L) (off2_one L) (by rw [off2_zero]; unfold wL; omega) _) $$ Ho
  icases Hoo with ⟨Hrow0, Ho⟩
  sl_exec (disch := exact chk_core d L (At m d L) hAt' _ _ _ (by decide))
  sl_unfold_run_names
  ihave Hm0 := (fly0_of m d L (k0_off2 L) (k0_off2_inb L) (off2_one L) 0 (off2_zero L) _) $$ Hm0
  ihave HB1 := (pts_fun (nil_sB1 (F := F) d L oneW _)) $$ HB1
  iterate 32 (
    try (sl_exec (disch := exact chk_core d L (At m d L) hAt' _ _ _ (by decide)))
    rw [SparseCore.vectorStoreIdx_bind (V d (cV L) (jV L))]
    set_option sl_exec.maxSteps 2 in sl_exec
    ihave HB1 := (pts_fun (stepA_sB1 (F := F) d L (At m d L) _ _ _ _ _ _ _)) $$ HB1)
  ihave HB1 := (pts_fun (ℓ := sB1.view.loc (V d (cV L) (jV L))) (g := Cert.Put.rowF (At m d L) 1) ?e) $$ HB1
  case e =>
    refine Cert.Put.put_ones_of iota_S16_d0_w32_scVector _ hAt' 1 ?_
    iterate 32 refine Cert.Put.upTo_cons _ rfl rfl rfl ?_
    rfl
  ihave Hoo := (row_carve (F := F) d L _ (k0_off3 L 1#32) (k0_off3_inb L 0) (off3_one L) (by rw [off3_zero, off2_zero]; unfold wL; omega) _) $$ Ho
  icases Hoo with ⟨Hrow1, Ho⟩
  sl_exec
  sl_unfold_run_names
  ihave Hm1 := (fly1_of m d L (k0_off3 L 1#32) (k0_off3_inb L 0) (off3_one L) 1 (off3_zero L) _) $$ Hm1
  ihave Hm0 := (Entails.of_eq (show fly0 m d L ((k0_off2 L) 0) 0 = fly0 m d L (32 * (wL L).val + 2 * 0) (frN (2 * 0)) from by rw [off2_zero]; rfl)) $$ Hm0
  ihave Hm1 := (Entails.of_eq (show fly1 m d L ((k0_off3 L 1#32) 0) 1 = fly1 m d L (32 * (wL L).val + 2 * 0 + 1) (frN (2 * 0 + 1)) from by rw [off3_zero]; rfl)) $$ Hm1
  ihave Ho := (rows_congr (F := F) d (q := fun r => 32 * (wL L).val + 2 * 0 + 2 ≤ r ∧ r < 32 * (wL L).val + 32) (by intro r _; rw [off2_zero, off3_zero]; unfold wL; omega) _) $$ Ho
  sl_for (loopInv m d L O W) $$ [Hmw HA Ha' Hz1' Hz2' Hm2 Ho Hm0 HB0 Hm1 HB1 HO]
  case region => intro k acc; exact trip m d L hA O W _ k acc
  · unfold loopInv
    isplitl [Hmw]; · iexact Hmw
    isplitl [HA]; · iexact HA
    isplitl [Ha']; · iexact Ha'
    isplitl [Hz1']; · iexact Hz1'
    isplitl [Hz2']; · iexact Hz2'
    isplitl [Hm2]; · iexact Hm2
    isplitr; · iapply (rows_none_intro (F := F) d (by intro r _; omega) _); iempintro
    isplitl [Ho]; · iexact Ho
    isplitl [Hm0]; · iexact Hm0
    isplitl [HB0]; · iexact HB0
    isplitl [Hm1]; · iexact Hm1
    isplitl [HB1]; · iexact HB1
    iexists _; isplitr
    rotate_left
    · iexact HO
    · ipureintro; intro p hp
      rcases Finset.mem_insert.mp hp with hp | hp
      · exact .inr (by rw [hp]; rfl)
      rcases Finset.mem_insert.mp hp with hp | hp
      · exact .inr (by rw [hp]; rfl)
      rcases Finset.mem_insert.mp hp with hp | hp
      · exact .inr (by rw [hp]; rfl)
      · exact .inl hp
  iintro %acc HI
  unfold loopInv
  icases HI with ⟨-, HA, Ha', Hz1', Hz2', Hm2, Hdone, Htodo, Hm0, HB0, Hm1, HB1, %W', %hW', HO⟩
  unfold fly0 fly1
  sl_exec
  sl_step
  have hT : Scf.trips k0_t1_loop.lb k0_t1_loop.ub k0_t1_loop.st = 15 := trips_eq
  rw [hT]
  isplitl [Ha' Hz1' Hz2' Hdone Htodo Hm0_dst Hm1_dst]
  · isplitl [Ha']; · iapply (Entails.of_eq (pts_aSl (F := F) d L _)); iexact Ha'
    isplitl [Hz1' Hz2']
    · iapply (pointsTo_share (PosShare.mem_left_op_right (zShare (cF L) (sF L)))).2
      isplitl [Hz1']; · iexact Hz1'
      iexact Hz2'
    · icases Htodo with -
      ihave H1 := (rows_join (F := F) d (p := fun r => 32 * (wL L).val ≤ r ∧ r < 32 * (wL L).val + 2 * 15) (q := fun x => x = 32 * (wL L).val + 2 * 15) (by intro r _; omega) _) $$ [Hdone Hm0_dst]
      · isplitl [Hdone]; · iexact Hdone
        iexact Hm0_dst
      ihave H2 := (rows_join (F := F) d (p := fun r => (32 * (wL L).val ≤ r ∧ r < 32 * (wL L).val + 2 * 15) ∨ r = 32 * (wL L).val + 2 * 15) (q := fun x => x = 32 * (wL L).val + 2 * 15 + 1) (by intro r _; omega) _) $$ [H1 Hm1_dst]
      · isplitl [H1]; · iexact H1
        iexact Hm1_dst
      iapply (rows_congr (F := F) d (p := fun r => ((32 * (wL L).val ≤ r ∧ r < 32 * (wL L).val + 2 * 15) ∨ r = 32 * (wL L).val + 2 * 15) ∨ r = 32 * (wL L).val + 2 * 15 + 1) (by intro r _; unfold wL; omega) _); iexact H2
  isplitl [HA HB0 HB1 Hbufs]
  · isplitl [HA]; · iexists _; iapply (Entails.of_eq (pts_sA (F := F) d L _)); iexact HA
    isplitl [HB0]; · iexists _; iapply (Entails.of_eq (pts_sB0 (F := F) d L _)); iexact HB0
    isplitl [HB1]; · iexists _; iapply (Entails.of_eq (pts_sB1 (F := F) d L _)); iexact HB1
    iexact Hbufs
  isplitl [Hm0 Hm1 Hm2 Hsems]
  · isplitl [Hm0]
    · iapply (Entails.of_eq (show (semVal (V d (cV L) (jV L), SemLoc.dma (⟨0, by decide⟩ : DmaSem sig)) 0 : sProp 𝕄) = semVal (c3cell d L) 0 from rfl)); iexact Hm0
    isplitl [Hm1]
    · iapply (Entails.of_eq (show (semVal (V d (cV L) (jV L), SemLoc.dma (⟨1, by decide⟩ : DmaSem sig)) 0 : sProp 𝕄) = semVal (c4cell d L) 0 from rfl)); iexact Hm1
    isplitl [Hm2]; · iexact Hm2
    iexact Hsems
  iexists _; isplitr
  rotate_left
  · iexact HO
  · ipureintro; intro p hp
    rcases Finset.mem_insert.mp hp with hp | hp
    · exact .inr (by rw [hp]; rfl)
    rcases Finset.mem_insert.mp hp with hp | hp
    · exact .inr (by rw [hp]; rfl)
    · exact hW' p hp

end Cert.Proof.KI

end
-- ==== Proof.TileLaunch.lean ====
/-
  What the launch asks beside the tiles' tasks: a group's operands are its sixteen tiles'; the initial ghost state;
  and the final memory, where the result is the flat one-hot reshaped. A reshape keeps row-major positions, so entry
  (f, s, c) is entry (f, 256 s + c) of the flat one-hot, which is the specification's.
-/
import proofs.«205938_g64501818851839_cont_9to1_m_860_20_alg».proof.Proof.TileMain
import proofs.«205938_g64501818851839_cont_9to1_m_860_20_alg».proof.Proof.PutPure

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MM F

variable (m : (ℓ : Loc nD τ sig) → Buf (Elt F) ℓ) (ρ : Dev nD → PrngReg)

variable [FloatOps F]

omit [FloatOps F] in
theorem tile_obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun s : Fin 16 => tileIn m d (Fin.cast nCore_zero c) s) ⊢ |={Set.univ}=> iprop(
      (bigSep Finset.univ fun i : Fin ((K (F := F)).nSub 0) => tileIn m d (Fin.cast nCore_zero c) (Fin.cast nSub_zero i))
      ∗ ((bigSep Finset.univ fun i : Fin ((K (F := F)).nSub 0) => tileOut m d (Fin.cast nCore_zero c) (Fin.cast nSub_zero i))
          -∗ bigSep Finset.univ fun s : Fin 16 => tileOut m d (Fin.cast nCore_zero c) s))
  rw [bigSep_tiles (F := F) (fun s => tileIn m d (Fin.cast nCore_zero c) s), bigSep_tiles (F := F) (fun s => tileOut m d (Fin.cast nCore_zero c) s)]
  iintro H; imodintro
  isplitl [H]; · iexact H
  iintro H; iexact H

def u₀ : UU := (initOf (K (F := F)).hsCells (K (F := F)).hsToks, 1)

omit [FloatOps F] in
theorem bigSep_emp_run {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp_run]; iempintro
  unfold P; dsimp only
  rw [show (bigSep Finset.univ fun _ : Thread nD τ => bigSep Finset.univ fun _ : Fin 1 => (iprop(emp) : sProp 𝕄)) = iprop(emp) from by
    rw [bigSep_congr fun _ _ => bigSep_emp_run _, bigSep_emp_run]]
  iempintro

instance P_storable : (P (F := F) m).IsStorable where
  st q d c := match q with | 0 => by unfold P tileIn; infer_instance
  dn q d c := match q with | 0 => by unfold P tileOut; infer_instance
  go q d c i := match q with | 0 => by unfold P tileIn; infer_instance
  td q d c i := match q with | 0 => by unfold P tileOut; infer_instance

def fq (d : Dev nD) (s' : Phys nD τ sig (Elt F)) : Prop := s'.mem.mem (argLoc d) = m (argLoc d) ∧ s'.mem.mem (resLoc d) = R m d

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := argLoc d) (I := Finset.univ) (q := fullShare) (f := m (argLoc d)))) $$ [HSI Ha]
  · isplitl [HSI] <;> iassumption
  icases H with ⟨%h1, HSI, -⟩
  ihave H := (SI_pointsTo_agree (st := s') (ℓ := resLoc d) (I := Finset.univ) (q := fullShare) (f := R m d)) $$ [HSI Hr]
  · isplitl [HSI] <;> iassumption
  icases H with %h2
  ipureintro; exact ⟨funext fun i => h1 i (Finset.mem_univ i), funext fun i => h2 i (Finset.mem_univ i)⟩

theorem hA_of_range (d : Dev nD) (hr : Cert.Spec.InRange (m (argLoc d))) : ∀ i, ((A0 m d) i).toNat ≤ 63 := by
  intro i; unfold A0 shapeCast; exact hr _

theorem A0_apply (d : Dev nD) (r : Fin 1024) (t : Fin 4) (s : Fin 128) :
    A0 m d (ix1 (⟨512 * r.val + 128 * t.val + s.val, by omega⟩ : Fin 524288)) = m (argLoc d) (ix3 r t s) := by
  unfold A0 shapeCast
  refine congrArg (m (argLoc d)) (Shape.reshapeEquiv_eq_of_rowMajor _ ?_)
  show ((⟨3, ![1024, 4, 128]⟩ : Shape).rowMajor (ix3 r t s)).val
    = ((⟨1, ![524288]⟩ : Shape).rowMajor (ix1 (⟨512 * r.val + 128 * t.val + s.val, by omega⟩ : Fin 524288))).val
  rw [Shape.rowMajor_val_three, Shape.rowMajor_val_one]
  show (r.val * 4 + t.val) * 128 + s.val = 512 * r.val + 128 * t.val + s.val
  omega

theorem Hit0_iff (d : Dev nD) (hr : Cert.Spec.InRange (m (argLoc d))) (f : Fin 1024) (s : Fin 128) (c : Fin 256) (hk : 256 * s.val + c.val < 32768) :
    Hit0 m d f (⟨256 * s.val + c.val, hk⟩ : Fin 32768) ↔ Cert.Spec.Hit (m (argLoc d)) f s c := by
  unfold Hit0
  simp only [A0_apply]
  exact Cert.Put.hit_flat_iff (m (argLoc d)) hr f s c

theorem R_eq_onehot (d : Dev nD) (hr : Cert.Spec.InRange (m (argLoc d))) : R m d = Cert.Spec.onehot (F := F) (m (argLoc d)) := by
  funext j
  obtain ⟨f, s, c, rfl⟩ : ∃ (f : Fin 1024) (s : Fin 128) (c : Fin 256), j = ix3 f s c := ⟨j 0, j 1, j 2, eq_ix3 j⟩
  have hk : 256 * s.val + c.val < 32768 := by omega
  have e : Shape.reshapeEquiv shapeCasts_S1024x32768_S1024x128x256 (ix3 f s c) = ix2 f (⟨256 * s.val + c.val, hk⟩ : Fin 32768) := by
    refine Shape.reshapeEquiv_eq_of_rowMajor _ ?_
    show ((⟨2, ![1024, 32768]⟩ : Shape).rowMajor (ix2 f (⟨256 * s.val + c.val, hk⟩ : Fin 32768))).val
      = ((⟨3, ![1024, 128, 256]⟩ : Shape).rowMajor (ix3 f s c)).val
    rw [Shape.rowMajor_val_two, Shape.rowMajor_val_three]
    show f.val * 32768 + (256 * s.val + c.val) = (f.val * 128 + s.val) * 256 + c.val
    omega
  unfold R shapeCast
  rw [e, Cert.Spec.onehot_apply]
  unfold G0
  show (@ite _ (Hit0 m d f ⟨256 * s.val + c.val, hk⟩) (Classical.propDecidable _) oneW zeroW) = _
  by_cases h : Cert.Spec.Hit (m (argLoc d)) f s c
  · rw [if_pos h, if_pos ((Hit0_iff m d hr f s c hk).mpr h)]
  · rw [if_neg h, if_neg (mt (Hit0_iff m d hr f s c hk).mp h)]

def QC : PUnit × MemSt nD τ sig (Elt F) → Prop :=
  fun r => ∀ c : Dev nD, r.2.mem (resLoc c) = Cert.Spec.onehot (F := F) (m (argLoc c)) ∧ r.2.mem (argLoc c) = m (argLoc c)

end Cert.Proof.Tile

end
-- ==== Proof.KIRun.lean ====
/-
  The run. Each tile's obligation is its task at its own coordinates; @main flattens the actions, makes the zero row,
  calls the tiles and reshapes the flat one-hot; from an action array in range every weakly fair execution ends with
  the one-hot result and the argument unchanged.
-/
import proofs.«205938_g64501818851839_cont_9to1_m_860_20_alg».proof.Proof.KIBody
import proofs.«205938_g64501818851839_cont_9to1_m_860_20_alg».proof.Proof.TileLaunch
import proofs.«205938_g64501818851839_cont_9to1_m_860_20_alg».proof.Proof.PutPure

noncomputable section

namespace Cert.Proof.KI

open Cert.KernelIdeal Cert.KernelIdeal.Gen
open Cert.Proof.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo (held wp_hlo_within)

variable {F : FTy → Type}

local notation "𝕄" => MM F

variable (m : (ℓ : Loc nD τ sig) → Buf (Elt F) ℓ) (ρ : Dev nD → PrngReg)

variable [FloatOps F]

abbrev D : Defs nD τ sig (Elt F) (ΛP (F := F)) := Pipeline.defs pcfgs defs₀

theorem defs₀_vector (c : Fin τ.nSC) (s : Fin τ.nSub) :
    defs₀ (F := F) (.scVector c s) 0 ()
      = SparseCore.onTile hcore0 hsub0 (fun c s => cc0__sc_body (coordsV c s)
          aV (Memref.isWhole_whole _) zV (Memref.isWhole_whole _) oV (Memref.isWhole_whole _)
          sA (Memref.isWhole_whole _) sB0 (Memref.isWhole_whole _) sB1 (Memref.isWhole_whole _) cc0_scratch3 cc0_scratch4 cc0_scratch5) ⟨⟩ c s := rfl

theorem tileObl (hF : (K (F := F)).Facts) (hA : ∀ d i, ((A0 m d) i).toNat ≤ 63) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF (hA d) O W hO).trans (wp_mono frame _ _ fun _ => tile_obl_post)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opA) (S := S6) hA (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opC) (S := S6) hC (V := (opA (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := opZ) (S := S6) hZ (V := (opC (F := F)).result ((opA (F := F)).result (V0 m d)))) $$ [Hb Hheld]
  · isplitl [Hb]; · iexact Hb
    iexact Hheld
  iintro ⟨Hb, Hheld⟩
  rw [wp_ret]; imodintro
  rw [show (opZ (F := F)).result ((opC (F := F)).result ((opA (F := F)).result (V0 m d))) = V3 m d from rfl]
  ihave Hh := (Entails.of_eq (held_V3 (F := F) m d)) $$ Hheld
  icases Hh with ⟨Harg, Ha, Hc, Hz, Ho, Hr⟩
  ihave Ha' := (Entails.of_eq (aSplit (F := F) d (A0 m d))) $$ Ha
  ihave Ho' := (Entails.of_eq (oSplit (F := F) d (m (oLoc d)))) $$ Ho
  ihave Hz' := (Entails.of_eq (zSplit (F := F) d (Z0 d))) $$ Hz
  icases Hz' with ⟨Hzr, Hzt⟩
  iapply ((K (F := F)).wp_run (D (F := F)) 𝒱 (EH := EH) (P := P m) κ d 0) $$ [Hst Ha' Hzt Ho' Hb Harg Hc Hr Hzr]
  isplitr; · iexact Hctx
  isplitl [Hst]; · iexact Hst
  isplitl [Ha' Hzt Ho']
  · rw [st0_eq]
    isplitl [Ha']; · iexact Ha'
    isplitl [Hzt]; · iexact Hzt
    iexact Ho'
  iintro ⟨Hst, Hdn⟩
  ihave Hdn' := (Entails.of_eq (dn0_eq m d)) $$ Hdn
  icases Hdn' with ⟨Ha', Hzt, Ho'⟩
  ihave Ha := (Entails.of_eq (aSplit (F := F) d (A0 m d)).symm) $$ Ha'
  ihave Ho := (Entails.of_eq (oSplit (F := F) d (G0 m d)).symm) $$ Ho'
  ihave Hz := (Entails.of_eq (zSplit (F := F) d (Z0 d)).symm) $$ [Hzr Hzt]
  · isplitl [Hzr]; · iexact Hzr
    iexact Hzt
  iapply (wp_hlo_within 𝒱 (SparseCore.T d) none Set.univ (op := opR) (S := S6) hR (V := V4 m d)) $$ [Hb Harg Ha Hc Hz Ho Hr]
  · isplitl [Hb]; · iexact Hb
    rw [held_V4]
    isplitl [Harg]; · iexact Harg
    isplitl [Ha]; · iexact Ha
    isplitl [Hc]; · iexact Hc
    isplitl [Hz]; · iexact Hz
    isplitl [Ho]; · iexact Ho
    iexact Hr
  iintro ⟨Hb, Hheld⟩
  ihave Hh := (Entails.of_eq (held_V5 (F := F) m d)) $$ Hheld
  icases Hh with ⟨Harg, -, -, -, -, Hr⟩
  rw [wp_ret]; imodintro; imodintro
  isplitl [Hst]; · iexact Hst
  isplitl [Harg]; · iexact Harg
  iexact Hr

theorem run_main [∀ e, Nonempty (Elt F e)] (hr : ∀ d, Cert.Spec.InRange (m (argLoc d))) :
    θ_run (Cert.KernelIdeal.defs (F := F)) (Cert.KernelIdeal.threads (F := F)) ⟨m, fun _ => 0, ρ⟩
      (fun r => ∀ c : Dev nD, r.2.mem (resLoc c) = Cert.Spec.onehot (F := F) (m (argLoc c)) ∧ r.2.mem (argLoc c) = m (argLoc c)) :=
  SparseCore.Cfg.θ_run_sc (K := K (F := F)) (D := D (F := F)) (𝒱 := 𝒱) (EH := EH) (P := P m) Cert.Proof.Tile.facts v₀
    (fun q hq => match q with | 0 => nomatch hq)
    (fun q _ => match q with | 0 => tileObl m Cert.Proof.Tile.facts fun d => hA_of_range m d (hr d))
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun s' h c => ⟨(h c).2.trans (R_eq_onehot m c (hr c)), (h c).1⟩)

end Cert.Proof.KI

end
-- ==== Proof.KBTrip.lean ====
/-
  One trip keeps the invariant: the two pending rows land, each row scratch is cleared of its old frame and set to the
  frame two further on, and is sent to its next row.
-/
import proofs.«205938_g64501818851839_cont_9to1_m_860_20_alg».proof.Proof.TileFly
import proofs.«205938_g64501818851839_cont_9to1_m_860_20_alg».proof.Proof.Gen.Kernel
import proofs.«205938_g64501818851839_cont_9to1_m_860_20_alg».proof.Proof.Gen.Kernel.Skeleton

noncomputable section

namespace Cert.Proof.KB

open Cert.Kernel Cert.Kernel.Gen
open Cert.Proof.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MM F

set_option pp.maxSteps 6000
set_option pp.deepTerms false
variable (m : (ℓ : Loc nD τ sig) → Buf (Elt F) ℓ)
variable (d : Dev nD) (L : grid0.Coords)

theorem off69_one (k : Fin k0_t1_loop.trips) : (k0_off69 L k) 1 = 0 := by rw [k0_off69_eq]; rfl
theorem off69_zero (k : Fin k0_t1_loop.trips) : (k0_off69 L k) 0 = 32 * (wL L).val + (fr2 k).val := by
  rw [k0_off69_eq, wL_val]; show 64 * (L 1).val + 32 * (L 0).val + 2 * k.val + 2 = 32 * (2 * (L 1).val + (L 0).val) + (2 * k.val + 2); omega
theorem off135_one (k : Fin k0_t1_loop.trips) : (k0_off135 L k) 1 = 0 := by rw [k0_off135_eq]; rfl
theorem off135_zero (k : Fin k0_t1_loop.trips) : (k0_off135 L k) 0 = 32 * (wL L).val + (fr3 k).val := by
  rw [k0_off135_eq, wL_val]; show 64 * (L 1).val + 32 * (L 0).val + 2 * k.val + 3 = 32 * (2 * (L 1).val + (L 0).val) + (2 * k.val + 3); omega

variable [FloatOps F]

theorem done_step (k : Nat) (f : Buf (Elt F) (oLoc d)) :
    iprop((oLoc d ↦[rowsWhere fun r => 32 * (wL L).val ≤ r ∧ r < 32 * (wL L).val + 2 * k]{fullShare} f)
        ∗ (oLoc d ↦[rowsWhere fun x => x = 32 * (wL L).val + 2 * k]{fullShare} f)
        ∗ (oLoc d ↦[rowsWhere fun x => x = 32 * (wL L).val + 2 * k + 1]{fullShare} f))
      ⊢ (oLoc d ↦[rowsWhere fun r => 32 * (wL L).val ≤ r ∧ r < 32 * (wL L).val + 2 * (k + 1)]{fullShare} f : sProp 𝕄) := by
  refine (sep_mono_right (rows_join (F := F) d (p := fun x => x = 32 * (wL L).val + 2 * k) (q := fun x => x = 32 * (wL L).val + 2 * k + 1)
    (by intro r _; (try dsimp only); omega) f)).trans ?_
  refine (rows_join (F := F) d (p := fun r => 32 * (wL L).val ≤ r ∧ r < 32 * (wL L).val + 2 * k)
    (q := fun r => r = 32 * (wL L).val + 2 * k ∨ r = 32 * (wL L).val + 2 * k + 1) (by intro r _; (try dsimp only); omega) f).trans ?_
  exact rows_congr (F := F) d (by intro r _; (try dsimp only); omega) f

theorem todo_step (k a b : Nat) (ha : a = 32 * (wL L).val + 2 * (k + 1)) (hb : b = 32 * (wL L).val + 2 * (k + 1) + 1) (f : Buf (Elt F) (oLoc d)) :
    (oLoc d ↦[rowsWhere fun r => ((32 * (wL L).val + 2 * k + 2 ≤ r ∧ r < 32 * (wL L).val + 32) ∧ r ≠ a) ∧ r ≠ b]{fullShare} f : sProp 𝕄)
      ⊢ (oLoc d ↦[rowsWhere fun r => 32 * (wL L).val + 2 * (k + 1) + 2 ≤ r ∧ r < 32 * (wL L).val + 32]{fullShare} f) :=
  rows_congr (F := F) d (by intro r _; (try dsimp only); omega) f

omit [FloatOps F] in
theorem waits_step (W W' : Waits sig (HIx 1)) (hW' : ∀ p ∈ W', p ∈ W ∨ p.2 = none) (s0 s1 : SemLoc sig) :
    ∀ p ∈ insert (s1, (default : HIx 1)) (insert (s0, (default : HIx 1)) W'), p ∈ W ∨ p.2 = none := by
  intro p hp
  rcases Finset.mem_insert.mp hp with hp | hp
  · exact .inr (by rw [hp]; rfl)
  rcases Finset.mem_insert.mp hp with hp | hp
  · exact .inr (by rw [hp]; rfl)
  · exact hW' p hp

set_option maxHeartbeats 64000000 in
theorem trip (hA : ∀ i, ((A0 m d) i).toNat ≤ 63) (O : CellTallies nD τ sig (HIx 1)) (W : Waits sig (HIx 1))
    (v2 : BitVec 32) (k : Fin k0_t1_loop.trips) (acc : PUnit) :
    loopInv m d L O W k.val acc
      ⊢ wp frame (wpE (defs₀ (F := F)) 𝒱₀ (V d (cV L) (jV L)) none) Set.univ
          (k0_t1_body L aV (Memref.isWhole_whole _) zV (Memref.isWhole_whole _) oV (Memref.isWhole_whole _)
            sA (Memref.isWhole_whole _) sB0 (Memref.isWhole_whole _) sB1 (Memref.isWhole_whole _) cc0_scratch3 cc0_scratch4 cc0_scratch5
            v2 k0_pay130 k0_pay131 k0_pay132 k acc)
          (loopInv m d L O W (k.val + 1)) := by
  unfold loopInv
  iintro ⟨#Hmw, HA, Ha', Hz1', Hz2', Hm2, Hdone, Htodo, Hm0, HB0, Hm1, HB1, %W', %hW', HO⟩
  unfold fly0 fly1
  have hAt' := hAt m d L hA
  have hk := trip_lt k
  unfold k0_t1_body
  ihave Hc := (row_carve (F := F) d L _ (k0_off69 L k) (k0_off69_inb L k) (off69_one L k) (by rw [off69_zero]; have h2 : (fr2 k).val = 2 * k.val + 2 := rfl; unfold wL; omega) _) $$ Htodo
  icases Hc with ⟨Hrow2, Htodo⟩
  ihave Hc := (row_carve (F := F) d L _ (k0_off135 L k) (k0_off135_inb L k) (off135_one L k) (by rw [off135_zero, off69_zero]; have h2 : (fr2 k).val = 2 * k.val + 2 := rfl; have h3 : (fr3 k).val = 2 * k.val + 3 := rfl; unfold wL; omega) _) $$ Htodo
  icases Hc with ⟨Hrow3, Htodo⟩
  sl_exec (disch := exact chk_core d L (At m d L) hAt' _ _ _ (by decide))
  ihave HB0 := (pts_fun (nil_sB0 (F := F) d L zeroW _)) $$ HB0
  iterate 32 (
    try (sl_exec (disch := exact chk_core d L (At m d L) hAt' _ _ _ (by decide)))
    rw [SparseCore.vectorStoreIdx_bind (V d (cV L) (jV L))]
    set_option sl_exec.maxSteps 2 in sl_exec
    ihave HB0 := (pts_fun (stepA_sB0 (F := F) d L (At m d L) _ _ _ _ _ _ _)) $$ HB0)
  ihave HB0 := (pts_fun (ℓ := sB0.view.loc (V d (cV L) (jV L))) (g := Cert.Put.zeroRow) ?e) $$ HB0
  case e =>
    rw [frN_of_lt (n := 2 * k.val) (by omega)]
    refine Cert.Put.put_zeros_of iota_S16_d0_w32_scVector _ hAt' (fr0 k) ?_
    iterate 32 (refine Cert.Put.upTo_cons _ ClosedOff.eq ?_ rfl ?_; exact Cert.Put.off_loop k.val 0 _ _ rfl rfl)
    rfl
  ihave HB0 := (pts_fun (nil_sB0 (F := F) d L oneW _)) $$ HB0
  iterate 32 (
    try (sl_exec (disch := exact chk_core d L (At m d L) hAt' _ _ _ (by decide)))
    rw [SparseCore.vectorStoreIdx_bind (V d (cV L) (jV L))]
    set_option sl_exec.maxSteps 2 in sl_exec
    ihave HB0 := (pts_fun (stepA_sB0 (F := F) d L (At m d L) _ _ _ _ _ _ _)) $$ HB0)
  ihave HB0 := (pts_fun (ℓ := sB0.view.loc (V d (cV L) (jV L))) (g := Cert.Put.rowF (At m d L) (fr2 k)) ?e) $$ HB0
  case e =>
    refine Cert.Put.put_ones_of iota_S16_d0_w32_scVector _ hAt' (fr2 k) ?_
    iterate 32 (refine Cert.Put.upTo_cons _ ClosedOff.eq ?_ rfl ?_; exact Cert.Put.off_loop k.val 2 _ _ rfl rfl)
    rfl
  sl_exec (disch := exact chk_core d L (At m d L) hAt' _ _ _ (by decide))
  ihave HB1 := (pts_fun (nil_sB1 (F := F) d L zeroW _)) $$ HB1
  iterate 32 (
    try (sl_exec (disch := exact chk_core d L (At m d L) hAt' _ _ _ (by decide)))
    rw [SparseCore.vectorStoreIdx_bind (V d (cV L) (jV L))]
    set_option sl_exec.maxSteps 2 in sl_exec
    ihave HB1 := (pts_fun (stepA_sB1 (F := F) d L (At m d L) _ _ _ _ _ _ _)) $$ HB1)
  ihave HB1 := (pts_fun (ℓ := sB1.view.loc (V d (cV L) (jV L))) (g := Cert.Put.zeroRow) ?e) $$ HB1
  case e =>
    rw [frN_of_lt (n := 2 * k.val + 1) (by omega)]
    refine Cert.Put.put_zeros_of iota_S16_d0_w32_scVector _ hAt' (fr1 k) ?_
    iterate 32 (refine Cert.Put.upTo_cons _ ClosedOff.eq ?_ rfl ?_; exact Cert.Put.off_loop k.val 1 _ _ rfl rfl)
    rfl
  ihave HB1 := (pts_fun (nil_sB1 (F := F) d L oneW _)) $$ HB1
  iterate 32 (
    try (sl_exec (disch := exact chk_core d L (At m d L) hAt' _ _ _ (by decide)))
    rw [SparseCore.vectorStoreIdx_bind (V d (cV L) (jV L))]
    set_option sl_exec.maxSteps 2 in sl_exec
    ihave HB1 := (pts_fun (stepA_sB1 (F := F) d L (At m d L) _ _ _ _ _ _ _)) $$ HB1)
  ihave HB1 := (pts_fun (ℓ := sB1.view.loc (V d (cV L) (jV L))) (g := Cert.Put.rowF (At m d L) (fr3 k)) ?e) $$ HB1
  case e =>
    refine Cert.Put.put_ones_of iota_S16_d0_w32_scVector _ hAt' (fr3 k) ?_
    iterate 32 (refine Cert.Put.upTo_cons _ ClosedOff.eq ?_ rfl ?_; exact Cert.Put.off_loop k.val 3 _ _ rfl rfl)
    rfl
  sl_exec
  sl_unfold_run_names
  ihave Hm0 := (fly0_of m d L (k0_off69 L k) (k0_off69_inb L k) (off69_one L k) (fr2 k) (off69_zero L k) _) $$ Hm0
  ihave Hm1 := (fly1_of m d L (k0_off135 L k) (k0_off135_inb L k) (off135_one L k) (fr3 k) (off135_zero L k) _) $$ Hm1
  have h2 : (fr2 k).val = 2 * k.val + 2 := rfl
  have h3 : (fr3 k).val = 2 * k.val + 3 := rfl
  have e0 : (k0_off69 L k) 0 = 32 * (wL L).val + 2 * (k.val + 1) := by rw [off69_zero]; omega
  have e1 : (k0_off135 L k) 0 = 32 * (wL L).val + 2 * (k.val + 1) + 1 := by rw [off135_zero]; omega
  have f2 : fr2 k = frN (2 * (k.val + 1)) := Fin.ext (by show 2 * k.val + 2 = (2 * (k.val + 1)) % 32; omega)
  have f3 : fr3 k = frN (2 * (k.val + 1) + 1) := Fin.ext (by show 2 * k.val + 3 = (2 * (k.val + 1) + 1) % 32; omega)
  ihave Hm0 := (Entails.of_eq (show fly0 m d L ((k0_off69 L k) 0) (fr2 k) = fly0 m d L (32 * (wL L).val + 2 * (k.val + 1)) (frN (2 * (k.val + 1))) from by rw [e0, f2])) $$ Hm0
  ihave Hm1 := (Entails.of_eq (show fly1 m d L ((k0_off135 L k) 0) (fr3 k) = fly1 m d L (32 * (wL L).val + 2 * (k.val + 1) + 1) (frN (2 * (k.val + 1) + 1)) from by rw [e1, f3])) $$ Hm1
  ihave HB0 := (pts_funS (ℓ := sB0.view.loc (V d (cV L) (jV L))) (congrArg (Cert.Put.rowF (F := F) (At m d L)) f2)) $$ HB0
  ihave HB1 := (pts_funS (ℓ := sB1.view.loc (V d (cV L) (jV L))) (congrArg (Cert.Put.rowF (F := F) (At m d L)) f3)) $$ HB1
  ihave Hd := (done_step (F := F) d L k.val (G0 m d)) $$ [Hdone Hm0_dst Hm1_dst]
  · isplitl [Hdone]; · iexact Hdone
    isplitl [Hm0_dst]; · iexact Hm0_dst
    iexact Hm1_dst
  ihave Htodo := (todo_step (F := F) d L k.val _ _ e0 e1 (m (oLoc d))) $$ Htodo
  unfold fly0 fly1
  sl_step
  isplitr; · iexact Hmw
  isplitl [HA]; · iexact HA
  isplitl [Ha']; · iexact Ha'
  isplitl [Hz1']; · iexact Hz1'
  isplitl [Hz2']; · iexact Hz2'
  isplitl [Hm2]; · iexact Hm2
  isplitl [Hd]; · iexact Hd
  isplitl [Htodo]; · iexact Htodo
  isplitl [Hm0]; · iexact Hm0
  isplitl [HB0]; · iexact HB0
  isplitl [Hm1]; · iexact Hm1
  isplitl [HB1]; · iexact HB1
  iexists _; isplitr
  · ipureintro; exact waits_step W W' hW' (SemLoc.dma (⟨0, by decide⟩ : DmaSem sig)) (SemLoc.dma (⟨1, by decide⟩ : DmaSem sig))
  · iexact HO

end Cert.Proof.KB

end
-- ==== Proof.KBBody.lean ====
/-
  A tile's whole task: the three fetches, frames 0 and 1, the fifteen trips, and the last two rows.
-/
import proofs.«205938_g64501818851839_cont_9to1_m_860_20_alg».proof.Proof.KBTrip

noncomputable section

namespace Cert.Proof.KB

open Cert.Kernel Cert.Kernel.Gen
open Cert.Proof.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MM F

variable (m : (ℓ : Loc nD τ sig) → Buf (Elt F) ℓ)
variable (d : Dev nD) (L : grid0.Coords)
variable [FloatOps F]

theorem off3_eq1 : ∀ i : grid0.Coords, k0_off3 i 1#32 = ![64 * (i 1).val + 32 * (i 0).val + 1, 0] := by decide +kernel
theorem off2_one : (k0_off2 L) 1 = 0 := by rw [k0_off2_eq]; rfl
theorem off2_zero : (k0_off2 L) 0 = 32 * (wL L).val + 0 := by rw [k0_off2_eq, wL_val]; show 64 * (L 1).val + 32 * (L 0).val = _; omega
theorem off3_one : (k0_off3 L 1#32) 1 = 0 := by rw [off3_eq1]; rfl
theorem off3_zero : (k0_off3 L 1#32) 0 = 32 * (wL L).val + 1 := by rw [off3_eq1, wL_val]; show 64 * (L 1).val + 32 * (L 0).val + 1 = _; omega

set_option maxHeartbeats 64000000 in
theorem tile_body (hF : (K (F := F)).Facts) (hA : ∀ i, ((A0 m d) i).toNat ≤ 63)
    (O : CellTallies nD τ sig (HIx 1)) (W : Waits sig (HIx 1)) (hO : ∀ g, O g none = 0) :
    (iprop(levAts (K (F := F)).L (K (F := F)).lev ∗ emp ∗ tileIn m d (cF L) (sF L)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_body L aV (Memref.isWhole_whole _) zV (Memref.isWhole_whole _) oV (Memref.isWhole_whole _)
            sA (Memref.isWhole_whole _) sB0 (Memref.isWhole_whole _) sB1 (Memref.isWhole_whole _) cc0_scratch3 cc0_scratch4 cc0_scratch5)
          fun _ => iprop(tileOut m d (cF L) (sF L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  unfold tileIn tileOut
  rw [oSet_rows]
  iintro ⟨#Hlv, -, ⟨Ha, Hz, Ho⟩, ⟨⟨%f0, Hs0⟩, ⟨%f1, Hs1⟩, ⟨%f2, Hs2⟩, Hbufs⟩, ⟨Hm0, Hm1, Hm2, Hsems⟩, HO⟩
  ihave Hmw := ((K (F := F)).mayWaits_none (thr := V d (cV L) (jV L)) hO) $$ Hlv
  ihave Ha' := (Entails.of_eq (pts_aSl (F := F) d L _).symm) $$ Ha
  ihave Hzz := (pointsTo_share (PosShare.mem_left_op_right (zShare (cF L) (sF L)))).1 $$ Hz
  icases Hzz with ⟨Hz1, Hz2⟩
  ihave Hz1' := (Entails.of_eq (pts_z (F := F) d L _ _).symm) $$ Hz1
  ihave Hz2' := (Entails.of_eq (pts_z (F := F) d L _ _).symm) $$ Hz2
  ihave Hs0' := (Entails.of_eq (pts_sA (F := F) d L _).symm) $$ Hs0
  ihave Hs1' := (Entails.of_eq (pts_sB0 (F := F) d L _).symm) $$ Hs1
  ihave Hs2' := (Entails.of_eq (pts_sB1 (F := F) d L _).symm) $$ Hs2
  set_option sl_exec.maxSteps 8 in sl_exec
  ihave HA := (pts_fun (sA_landed m d L f0)) $$ Hs0'
  ihave HB0 := (pts_fun (landedZ_sB0 (F := F) d L f1)) $$ Hs1'
  ihave HB1 := (pts_fun (landedZ_sB1 (F := F) d L f2)) $$ Hs2'
  have hAt' := hAt m d L hA
  ihave HB0 := (pts_fun (nil_sB0 (F := F) d L oneW _)) $$ HB0
  iterate 32 (
    sl_exec (disch := exact chk_core d L (At m d L) hAt' _ _ _ (by decide))
    rw [SparseCore.vectorStoreIdx_bind (V d (cV L) (jV L))]
    set_option sl_exec.maxSteps 2 in sl_exec
    ihave HB0 := (pts_fun (stepA_sB0 (F := F) d L (At m d L) _ _ _ _ _ _ _)) $$ HB0)
  ihave HB0 := (pts_fun (ℓ := sB0.view.loc (V d (cV L) (jV L))) (g := Cert.Put.rowF (At m d L) 0) ?e) $$ HB0
  case e =>
    refine Cert.Put.put_ones_of iota_S16_d0_w32_scVector _ hAt' 0 ?_
    iterate 32 refine Cert.Put.upTo_cons _ rfl rfl rfl ?_
    rfl
  ihave Hoo := (row_carve (F := F) d L _ (k0_off2 L) (k0_off2_inb L) (off2_one L) (by rw [off2_zero]; unfold wL; omega) _) $$ Ho
  icases Hoo with ⟨Hrow0, Ho⟩
  sl_exec (disch := exact chk_core d L (At m d L) hAt' _ _ _ (by decide))
  sl_unfold_run_names
  ihave Hm0 := (fly0_of m d L (k0_off2 L) (k0_off2_inb L) (off2_one L) 0 (off2_zero L) _) $$ Hm0
  ihave HB1 := (pts_fun (nil_sB1 (F := F) d L oneW _)) $$ HB1
  iterate 32 (
    try (sl_exec (disch := exact chk_core d L (At m d L) hAt' _ _ _ (by decide)))
    rw [SparseCore.vectorStoreIdx_bind (V d (cV L) (jV L))]
    set_option sl_exec.maxSteps 2 in sl_exec
    ihave HB1 := (pts_fun (stepA_sB1 (F := F) d L (At m d L) _ _ _ _ _ _ _)) $$ HB1)
  ihave HB1 := (pts_fun (ℓ := sB1.view.loc (V d (cV L) (jV L))) (g := Cert.Put.rowF (At m d L) 1) ?e) $$ HB1
  case e =>
    refine Cert.Put.put_ones_of iota_S16_d0_w32_scVector _ hAt' 1 ?_
    iterate 32 refine Cert.Put.upTo_cons _ rfl rfl rfl ?_
    rfl
  ihave Hoo := (row_carve (F := F) d L _ (k0_off3 L 1#32) (k0_off3_inb L 0) (off3_one L) (by rw [off3_zero, off2_zero]; unfold wL; omega) _) $$ Ho
  icases Hoo with ⟨Hrow1, Ho⟩
  sl_exec
  sl_unfold_run_names
  ihave Hm1 := (fly1_of m d L (k0_off3 L 1#32) (k0_off3_inb L 0) (off3_one L) 1 (off3_zero L) _) $$ Hm1
  ihave Hm0 := (Entails.of_eq (show fly0 m d L ((k0_off2 L) 0) 0 = fly0 m d L (32 * (wL L).val + 2 * 0) (frN (2 * 0)) from by rw [off2_zero]; rfl)) $$ Hm0
  ihave Hm1 := (Entails.of_eq (show fly1 m d L ((k0_off3 L 1#32) 0) 1 = fly1 m d L (32 * (wL L).val + 2 * 0 + 1) (frN (2 * 0 + 1)) from by rw [off3_zero]; rfl)) $$ Hm1
  ihave Ho := (rows_congr (F := F) d (q := fun r => 32 * (wL L).val + 2 * 0 + 2 ≤ r ∧ r < 32 * (wL L).val + 32) (by intro r _; rw [off2_zero, off3_zero]; unfold wL; omega) _) $$ Ho
  sl_for (loopInv m d L O W) $$ [Hmw HA Ha' Hz1' Hz2' Hm2 Ho Hm0 HB0 Hm1 HB1 HO]
  case region => intro k acc; exact trip m d L hA O W _ k acc
  · unfold loopInv
    isplitl [Hmw]; · iexact Hmw
    isplitl [HA]; · iexact HA
    isplitl [Ha']; · iexact Ha'
    isplitl [Hz1']; · iexact Hz1'
    isplitl [Hz2']; · iexact Hz2'
    isplitl [Hm2]; · iexact Hm2
    isplitr; · iapply (rows_none_intro (F := F) d (by intro r _; omega) _); iempintro
    isplitl [Ho]; · iexact Ho
    isplitl [Hm0]; · iexact Hm0
    isplitl [HB0]; · iexact HB0
    isplitl [Hm1]; · iexact Hm1
    isplitl [HB1]; · iexact HB1
    iexists _; isplitr
    rotate_left
    · iexact HO
    · ipureintro; intro p hp
      rcases Finset.mem_insert.mp hp with hp | hp
      · exact .inr (by rw [hp]; rfl)
      rcases Finset.mem_insert.mp hp with hp | hp
      · exact .inr (by rw [hp]; rfl)
      rcases Finset.mem_insert.mp hp with hp | hp
      · exact .inr (by rw [hp]; rfl)
      · exact .inl hp
  iintro %acc HI
  unfold loopInv
  icases HI with ⟨-, HA, Ha', Hz1', Hz2', Hm2, Hdone, Htodo, Hm0, HB0, Hm1, HB1, %W', %hW', HO⟩
  unfold fly0 fly1
  sl_exec
  sl_step
  have hT : Scf.trips k0_t1_loop.lb k0_t1_loop.ub k0_t1_loop.st = 15 := trips_eq
  rw [hT]
  isplitl [Ha' Hz1' Hz2' Hdone Htodo Hm0_dst Hm1_dst]
  · isplitl [Ha']; · iapply (Entails.of_eq (pts_aSl (F := F) d L _)); iexact Ha'
    isplitl [Hz1' Hz2']
    · iapply (pointsTo_share (PosShare.mem_left_op_right (zShare (cF L) (sF L)))).2
      isplitl [Hz1']; · iexact Hz1'
      iexact Hz2'
    · icases Htodo with -
      ihave H1 := (rows_join (F := F) d (p := fun r => 32 * (wL L).val ≤ r ∧ r < 32 * (wL L).val + 2 * 15) (q := fun x => x = 32 * (wL L).val + 2 * 15) (by intro r _; omega) _) $$ [Hdone Hm0_dst]
      · isplitl [Hdone]; · iexact Hdone
        iexact Hm0_dst
      ihave H2 := (rows_join (F := F) d (p := fun r => (32 * (wL L).val ≤ r ∧ r < 32 * (wL L).val + 2 * 15) ∨ r = 32 * (wL L).val + 2 * 15) (q := fun x => x = 32 * (wL L).val + 2 * 15 + 1) (by intro r _; omega) _) $$ [H1 Hm1_dst]
      · isplitl [H1]; · iexact H1
        iexact Hm1_dst
      iapply (rows_congr (F := F) d (p := fun r => ((32 * (wL L).val ≤ r ∧ r < 32 * (wL L).val + 2 * 15) ∨ r = 32 * (wL L).val + 2 * 15) ∨ r = 32 * (wL L).val + 2 * 15 + 1) (by intro r _; unfold wL; omega) _); iexact H2
  isplitl [HA HB0 HB1 Hbufs]
  · isplitl [HA]; · iexists _; iapply (Entails.of_eq (pts_sA (F := F) d L _)); iexact HA
    isplitl [HB0]; · iexists _; iapply (Entails.of_eq (pts_sB0 (F := F) d L _)); iexact HB0
    isplitl [HB1]; · iexists _; iapply (Entails.of_eq (pts_sB1 (F := F) d L _)); iexact HB1
    iexact Hbufs
  isplitl [Hm0 Hm1 Hm2 Hsems]
  · isplitl [Hm0]
    · iapply (Entails.of_eq (show (semVal (V d (cV L) (jV L), SemLoc.dma (⟨0, by decide⟩ : DmaSem sig)) 0 : sProp 𝕄) = semVal (c3cell d L) 0 from rfl)); iexact Hm0
    isplitl [Hm1]
    · iapply (Entails.of_eq (show (semVal (V d (cV L) (jV L), SemLoc.dma (⟨1, by decide⟩ : DmaSem sig)) 0 : sProp 𝕄) = semVal (c4cell d L) 0 from rfl)); iexact Hm1
    isplitl [Hm2]; · iexact Hm2
    iexact Hsems
  iexists _; isplitr
  rotate_left
  · iexact HO
  · ipureintro; intro p hp
    rcases Finset.mem_insert.mp hp with hp | hp
    · exact .inr (by rw [hp]; rfl)
    rcases Finset.mem_insert.mp hp with hp | hp
    · exact .inr (by rw [hp]; rfl)
    · exact hW' p hp

end Cert.Proof.KB

end
-- ==== Proof.KBRun.lean ====
/-
  The run. Each tile's obligation is its task at its own coordinates; @main flattens the actions, makes the zero row,
  calls the tiles and reshapes the flat one-hot; from an action array in range every weakly fair execution ends with
  the one-hot result and the argument unchanged.
-/
import proofs.«205938_g64501818851839_cont_9to1_m_860_20_alg».proof.Proof.KBBody
import proofs.«205938_g64501818851839_cont_9to1_m_860_20_alg».proof.Proof.TileLaunch
import proofs.«205938_g64501818851839_cont_9to1_m_860_20_alg».proof.Proof.PutPure

noncomputable section

namespace Cert.Proof.KB

open Cert.Kernel Cert.Kernel.Gen
open Cert.Proof.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo (held wp_hlo_within)

variable {F : FTy → Type}

local notation "𝕄" => MM F

variable (m : (ℓ : Loc nD τ sig) → Buf (Elt F) ℓ) (ρ : Dev nD → PrngReg)

variable [FloatOps F]

abbrev D : Defs nD τ sig (Elt F) (ΛP (F := F)) := Pipeline.defs pcfgs defs₀

theorem defs₀_vector (c : Fin τ.nSC) (s : Fin τ.nSub) :
    defs₀ (F := F) (.scVector c s) 0 ()
      = SparseCore.onTile hcore0 hsub0 (fun c s => cc0__sc_body (coordsV c s)
          aV (Memref.isWhole_whole _) zV (Memref.isWhole_whole _) oV (Memref.isWhole_whole _)
          sA (Memref.isWhole_whole _) sB0 (Memref.isWhole_whole _) sB1 (Memref.isWhole_whole _) cc0_scratch3 cc0_scratch4 cc0_scratch5) ⟨⟩ c s := rfl

theorem tileObl (hF : (K (F := F)).Facts) (hA : ∀ d i, ((A0 m d) i).toNat ≤ 63) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF (hA d) O W hO).trans (wp_mono frame _ _ fun _ => tile_obl_post)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opA) (S := S6) hA (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opC) (S := S6) hC (V := (opA (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := opZ) (S := S6) hZ (V := (opC (F := F)).result ((opA (F := F)).result (V0 m d)))) $$ [Hb Hheld]
  · isplitl [Hb]; · iexact Hb
    iexact Hheld
  iintro ⟨Hb, Hheld⟩
  rw [wp_ret]; imodintro
  rw [show (opZ (F := F)).result ((opC (F := F)).result ((opA (F := F)).result (V0 m d))) = V3 m d from rfl]
  ihave Hh := (Entails.of_eq (held_V3 (F := F) m d)) $$ Hheld
  icases Hh with ⟨Harg, Ha, Hc, Hz, Ho, Hr⟩
  ihave Ha' := (Entails.of_eq (aSplit (F := F) d (A0 m d))) $$ Ha
  ihave Ho' := (Entails.of_eq (oSplit (F := F) d (m (oLoc d)))) $$ Ho
  ihave Hz' := (Entails.of_eq (zSplit (F := F) d (Z0 d))) $$ Hz
  icases Hz' with ⟨Hzr, Hzt⟩
  iapply ((K (F := F)).wp_run (D (F := F)) 𝒱 (EH := EH) (P := P m) κ d 0) $$ [Hst Ha' Hzt Ho' Hb Harg Hc Hr Hzr]
  isplitr; · iexact Hctx
  isplitl [Hst]; · iexact Hst
  isplitl [Ha' Hzt Ho']
  · rw [st0_eq]
    isplitl [Ha']; · iexact Ha'
    isplitl [Hzt]; · iexact Hzt
    iexact Ho'
  iintro ⟨Hst, Hdn⟩
  ihave Hdn' := (Entails.of_eq (dn0_eq m d)) $$ Hdn
  icases Hdn' with ⟨Ha', Hzt, Ho'⟩
  ihave Ha := (Entails.of_eq (aSplit (F := F) d (A0 m d)).symm) $$ Ha'
  ihave Ho := (Entails.of_eq (oSplit (F := F) d (G0 m d)).symm) $$ Ho'
  ihave Hz := (Entails.of_eq (zSplit (F := F) d (Z0 d)).symm) $$ [Hzr Hzt]
  · isplitl [Hzr]; · iexact Hzr
    iexact Hzt
  iapply (wp_hlo_within 𝒱 (SparseCore.T d) none Set.univ (op := opR) (S := S6) hR (V := V4 m d)) $$ [Hb Harg Ha Hc Hz Ho Hr]
  · isplitl [Hb]; · iexact Hb
    rw [held_V4]
    isplitl [Harg]; · iexact Harg
    isplitl [Ha]; · iexact Ha
    isplitl [Hc]; · iexact Hc
    isplitl [Hz]; · iexact Hz
    isplitl [Ho]; · iexact Ho
    iexact Hr
  iintro ⟨Hb, Hheld⟩
  ihave Hh := (Entails.of_eq (held_V5 (F := F) m d)) $$ Hheld
  icases Hh with ⟨Harg, -, -, -, -, Hr⟩
  rw [wp_ret]; imodintro; imodintro
  isplitl [Hst]; · iexact Hst
  isplitl [Harg]; · iexact Harg
  iexact Hr

theorem run_main [∀ e, Nonempty (Elt F e)] (hr : ∀ d, Cert.Spec.InRange (m (argLoc d))) :
    θ_run (Cert.Kernel.defs (F := F)) (Cert.Kernel.threads (F := F)) ⟨m, fun _ => 0, ρ⟩
      (fun r => ∀ c : Dev nD, r.2.mem (resLoc c) = Cert.Spec.onehot (F := F) (m (argLoc c)) ∧ r.2.mem (argLoc c) = m (argLoc c)) :=
  SparseCore.Cfg.θ_run_sc (K := K (F := F)) (D := D (F := F)) (𝒱 := 𝒱) (EH := EH) (P := P m) Cert.Proof.Tile.facts v₀
    (fun q hq => match q with | 0 => nomatch hq)
    (fun q _ => match q with | 0 => tileObl m Cert.Proof.Tile.facts fun d => hA_of_range m d (hr d))
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun s' h c => ⟨(h c).2.trans (R_eq_onehot m c (hr c)), (h c).1⟩)

end Cert.Proof.KB

end
-- ==== Proof.lean ====
/-
  Both programs compute the one-hot array of the actions: entry (f, s, c) is 1 exactly when some action type t
  has actions[f, t, s] + 64 t = c, and 0 otherwise. Under the precondition (every action word in 0..63) each program
  has a run that ends at that array with its argument unchanged. The three frames are those runs with the result
  forgotten; nothing was rewritten by the idealization; the algebraic conjunct holds at the common value.
-/
import proofs.«205938_g64501818851839_cont_9to1_m_860_20_alg».proof.Defs
import proofs.«205938_g64501818851839_cont_9to1_m_860_20_alg».proof.Proof.Gen.Kernel
import proofs.«205938_g64501818851839_cont_9to1_m_860_20_alg».proof.Proof.Gen.Kernel.Skeleton
import proofs.«205938_g64501818851839_cont_9to1_m_860_20_alg».proof.Proof.Gen.KernelIdeal
import proofs.«205938_g64501818851839_cont_9to1_m_860_20_alg».proof.Proof.Gen.KernelIdeal.Skeleton
import proofs.«205938_g64501818851839_cont_9to1_m_860_20_alg».proof.Proof.Gen.ReferenceIdeal
import proofs.«205938_g64501818851839_cont_9to1_m_860_20_alg».proof.Proof.Gen.Pre_input_domain
import proofs.«205938_g64501818851839_cont_9to1_m_860_20_alg».proof.Proof.PreRange
import proofs.«205938_g64501818851839_cont_9to1_m_860_20_alg».proof.Proof.RefRun
import proofs.«205938_g64501818851839_cont_9to1_m_860_20_alg».proof.Proof.KIRun
import proofs.«205938_g64501818851839_cont_9to1_m_860_20_alg».proof.Proof.KBRun
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_input_domain := Cert.Pre_input_domain.Gen.facts) :=
  fun m ρ hpre => (θ_run (Cert.Kernel.defs (F := Bits)) _ _).mono (fun _ h c => (h c).2)
    (Cert.Proof.KB.run_main (F := Bits) m ρ fun c => inRange_of_pre _ (hpre c))

theorem frame_ki : Cert.frame_KernelIdeal (hKernelIdeal := Cert.KernelIdeal.Gen.facts) (hPre_input_domain := Cert.Pre_input_domain.Gen.facts) :=
  fun m ρ hpre => (θ_run (Cert.KernelIdeal.defs (F := Ideal)) _ _).mono (fun _ h c => (h c).2)
    (Cert.Proof.KI.run_main (F := Ideal) m ρ fun c => inRange_of_pre _ (hpre c))

theorem frame_ri : Cert.frame_ReferenceIdeal (hReferenceIdeal := Cert.ReferenceIdeal.Gen.facts) (hPre_input_domain := Cert.Pre_input_domain.Gen.facts) :=
  fun m ρ hpre => (θ_run (Cert.ReferenceIdeal.defs (F := Ideal)) _ _).mono (fun _ h c => (h c).2)
    (Cert.Proof.Ref.run m ρ fun c => inRange_of_pre _ (hpre c))

theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) :=
  fun m ρ m' ρ' hpre hagree =>
    ⟨fun c => Cert.Spec.onehot (F := Ideal) (m ((c.tc : Thread Cert.KernelIdeal.nD Cert.KernelIdeal.τ).loc Cert.KernelIdeal.main_arg0)),
      Cert.Proof.KI.run_main (F := Ideal) m ρ (fun c => inRange_of_pre _ (hpre c)),
      (θ_run (Cert.ReferenceIdeal.defs (F := Ideal)) _ _).mono
        (fun _ h c => ⟨(h c).1.trans (by rw [hagree c]), (h c).2⟩)
        (Cert.Proof.Ref.run m' ρ' fun c => by rw [hagree c]; exact inRange_of_pre _ (hpre c))⟩

theorem claim : Cert.Claim := ⟨Cert.Kernel.Gen.facts, Cert.KernelIdeal.Gen.facts, Cert.ReferenceIdeal.Gen.facts, Cert.Pre_input_domain.Gen.facts,
  frame_k, frame_ki, frame_ri, trivial, algebraic⟩

end Cert.Proof

end
